-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x1024 : Shape := ⟨3, ![8, 4096, 1024]⟩
abbrev S256x1024 : Shape := ⟨2, ![256, 1024]⟩
abbrev S256 : Shape := ⟨1, ![256]⟩
abbrev S1024x256 : Shape := ⟨2, ![1024, 256]⟩
abbrev S1024 : Shape := ⟨1, ![1024]⟩
abbrev S_ : Shape := ⟨0, ![]⟩

class Facts : Prop where
  bcast_S_S8x4096x1024 : S_.BroadcastsInDim S8x4096x1024 (![] : Fin 0 → Fin S8x4096x1024.rank)
  reducesTo_S8x4096x1024_S_d0_1_2 : S8x4096x1024.ReducesTo [0, 1, 2] S_
  h_S_ : 0 < S_.numel
  bcast_S_S256x1024 : S_.BroadcastsInDim S256x1024 (![] : Fin 0 → Fin S256x1024.rank)
  reducesTo_S256x1024_S_d0_1 : S256x1024.ReducesTo [0, 1] S_
  bcast_S_S256 : S_.BroadcastsInDim S256 (![] : Fin 0 → Fin S256.rank)
  reducesTo_S256_S_d0 : S256.ReducesTo [0] S_
  bcast_S_S1024x256 : S_.BroadcastsInDim S1024x256 (![] : Fin 0 → Fin S1024x256.rank)
  reducesTo_S1024x256_S_d0_1 : S1024x256.ReducesTo [0, 1] S_
  bcast_S_S1024 : S_.BroadcastsInDim S1024 (![] : Fin 0 → Fin S1024.rank)
  reducesTo_S1024_S_d0 : S1024.ReducesTo [0] S_

variable [Facts]

def fn_part3 {F : FTy → Type} [FloatOps F] (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  main_v53

def fn_part2 {F : FTy → Type} [FloatOps F] (main_arg7 : FVec F S1024x256 .f32) (main_arg8 : FVec F S1024 .f32) (main_arg9 : FVec F S1024 .f32) (main_arg10 : FVec F S1024 .f32) (main_v33 : IVec S_ 1) : IVec S_ 1 :=
  let main_v34 : FVec F S1024x256 .f32 := Host.absf main_arg7
  let main_cst_12 : FVec F S_ .f32 := constant S_ .f32 0x7F800000#32
  let main_v35 : FVec F S1024x256 .f32 := broadcastInDim S1024x256 ![] bcast_S_S1024x256 main_cst_12
  let main_v36 : IVec S1024x256 1 := cmpf .olt main_v34 main_v35
  let main_c_13 : IVec S_ 1 := constantI S_ 1 1#1
  let main_v37 : IVec S_ 1 := (fun x v => Host.reduce IntOp.andi x v reducesTo_S1024x256_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_v48 main_v49 main_v50

def fn_part1 {F : FTy → Type} [FloatOps F] (main_arg4 : FVec F S256 .f32) (main_arg5 : FVec F S256x1024 .f32) (main_arg6 : FVec F S256 .f32) (main_arg7 : FVec F S1024x256 .f32) (main_arg8 : FVec F S1024 .f32) (main_arg9 : FVec F S1024 .f32) (main_arg10 : FVec F S1024 .f32) (main_v13 : IVec S_ 1) (main_v16 : IVec S256x1024 1) : IVec S_ 1 :=
  let main_c_5 : IVec S_ 1 := constantI S_ 1 1#1
  let main_v17 : IVec S_ 1 := (fun x v => Host.reduce IntOp.andi x v reducesTo_S256x1024_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x1024 .f32 := Host.absf main_arg5
  let main_cst_8 : FVec F S_ .f32 := constant S_ .f32 0x7F800000#32
  let main_v25 : FVec F S256x1024 .f32 := broadcastInDim S256x1024 ![] bcast_S_S256x1024 main_cst_8
  let main_v26 : IVec S256x1024 1 := cmpf .olt main_v24 main_v25
  let main_c_9 : IVec S_ 1 := constantI S_ 1 1#1
  let main_v27 : IVec S_ 1 := (fun x v => Host.reduce IntOp.andi x v reducesTo_S256x1024_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S8x4096x1024 .f32) (main_arg1 : FVec F S256x1024 .f32) (main_arg2 : FVec F S256 .f32) (main_arg3 : FVec F S256x1024 .f32) (main_arg4 : FVec F S256 .f32) (main_arg5 : FVec F S256x1024 .f32) (main_arg6 : FVec F S256 .f32) (main_arg7 : FVec F S1024x256 .f32) (main_arg8 : FVec F S1024 .f32) (main_arg9 : FVec F S1024 .f32) (main_arg10 : FVec F S1024 .f32) : IVec S_ 1 :=
  let main_v0 : FVec F S8x4096x1024 .f32 := Host.absf main_arg0
  let main_cst : FVec F S_ .f32 := constant S_ .f32 0x7F800000#32
  let main_v1 : FVec F S8x4096x1024 .f32 := broadcastInDim S8x4096x1024 ![] bcast_S_S8x4096x1024 main_cst
  let main_v2 : IVec S8x4096x1024 1 := cmpf .olt main_v0 main_v1
  let main_c : IVec S_ 1 := constantI S_ 1 1#1
  let main_v3 : IVec S_ 1 := (fun x v => Host.reduce IntOp.andi x v reducesTo_S8x4096x1024_S_d0_1_2 h_S_) main_v2 main_c
  let main_v4 : FVec F S256x1024 .f32 := Host.absf main_arg1
  let main_cst_0 : FVec F S_ .f32 := constant S_ .f32 0x7F800000#32
  let main_v5 : FVec F S256x1024 .f32 := broadcastInDim S256x1024 ![] bcast_S_S256x1024 main_cst_0
  let main_v6 : IVec S256x1024 1 := cmpf .olt main_v4 main_v5
  let main_c_1 : IVec S_ 1 := constantI S_ 1 1#1
  let main_v7 : IVec S_ 1 := (fun x v => Host.reduce IntOp.andi x v reducesTo_S256x1024_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x1024 .f32 := Host.absf main_arg3
  let main_cst_4 : FVec F S_ .f32 := constant S_ .f32 0x7F800000#32
  let main_v15 : FVec F S256x1024 .f32 := broadcastInDim S256x1024 ![] bcast_S_S256x1024 main_cst_4
  let main_v16 : IVec S256x1024 1 := cmpf .olt main_v14 main_v15
  fn_part1 (F := F) main_arg4 main_arg5 main_arg6 main_arg7 main_arg8 main_arg9 main_arg10 main_v13 main_v16
-- ==== Kernel.lean ====
abbrev S8x4096x1024 : Shape := ⟨3, ![8, 4096, 1024]⟩
abbrev S256x1024 : Shape := ⟨2, ![256, 1024]⟩
abbrev S256 : Shape := ⟨1, ![256]⟩
abbrev S1024x256 : Shape := ⟨2, ![1024, 256]⟩
abbrev S1024 : Shape := ⟨1, ![1024]⟩
abbrev S1x256 : Shape := ⟨2, ![1, 256]⟩
abbrev S1x1024 : Shape := ⟨2, ![1, 1024]⟩
abbrev S8x4096x256 : Shape := ⟨3, ![8, 4096, 256]⟩
abbrev S8x256x256 : Shape := ⟨3, ![8, 256, 256]⟩
abbrev S1x1024x1024 : Shape := ⟨3, ![1, 1024, 1024]⟩
abbrev S1x1024x256 : Shape := ⟨3, ![1, 1024, 256]⟩
abbrev S1x256x256 : Shape := ⟨3, ![1, 256, 256]⟩
abbrev S256x256 : Shape := ⟨2, ![256, 256]⟩
abbrev S1024x1024 : Shape := ⟨2, ![1024, 1024]⟩
abbrev S_ : Shape := ⟨0, ![]⟩

abbrev nBuf : Space → Nat
  | .hbm => 31
  | .vmem => 37
  | .smem => 0
  | _ => 0

abbrev bufTy : (tb : Table) → Fin (tcTables nBuf tb) → BufTy
  | .hbm, ⟨0, _⟩ => ⟨S8x4096x1024, .f32⟩
  | .hbm, ⟨1, _⟩ => ⟨S256x1024, .f32⟩
  | .hbm, ⟨2, _⟩ => ⟨S256, .f32⟩
  | .hbm, ⟨3, _⟩ => ⟨S256x1024, .f32⟩
  | .hbm, ⟨4, _⟩ => ⟨S256, .f32⟩
  | .hbm, ⟨5, _⟩ => ⟨S256x1024, .f32⟩
  | .hbm, ⟨6, _⟩ => ⟨S256, .f32⟩
  | .hbm, ⟨7, _⟩ => ⟨S1024x256, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S1x256, .f32⟩
  | .hbm, ⟨12, _⟩ => ⟨S1x256, .f32⟩
  | .hbm, ⟨13, _⟩ => ⟨S1x256, .f32⟩
  | .hbm, ⟨14, _⟩ => ⟨S1x1024, .f32⟩
  | .hbm, ⟨15, _⟩ => ⟨S1x1024, .f32⟩
  | .hbm, ⟨16, _⟩ => ⟨S1x1024, .f32⟩
  | .hbm, ⟨17, _⟩ => ⟨S8x4096x256, .f32⟩
  | .hbm, ⟨18, _⟩ => ⟨S8x256x256, .f32⟩
  | .hbm, ⟨19, _⟩ => ⟨S8x4096x1024, .f32⟩
  | .hbm, ⟨20, _⟩ => ⟨S1x1024, .f32⟩
  | .hbm, ⟨21, _⟩ => ⟨S1x1024, .f32⟩
  | .hbm, ⟨22, _⟩ => ⟨S_, .f32⟩
  | .hbm, ⟨23, _⟩ => ⟨S1x1024, .f32⟩
  | .hbm, ⟨24, _⟩ => ⟨S1x1024, .f32⟩
  | .hbm, ⟨25, _⟩ => ⟨S_, .f32⟩
  | .hbm, ⟨26, _⟩ => ⟨S1x1024, .f32⟩
  | .hbm, ⟨27, _⟩ => ⟨S1x1024, .f32⟩
  | .hbm, ⟨28, _⟩ => ⟨S1x1024, .f32⟩
  | .hbm, ⟨29, _⟩ => ⟨S1x1024, .f32⟩
  | .hbm, ⟨30, _⟩ => ⟨S8x4096x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S256x1024, .f32⟩
  | .local _ .vmem, ⟨3, _⟩ => ⟨S1x256, .f32⟩
  | .local _ .vmem, ⟨4, _⟩ => ⟨S256x1024, .f32⟩
  | .local _ .vmem, ⟨5, _⟩ => ⟨S1x256, .f32⟩
  | .local _ .vmem, ⟨6, _⟩ => ⟨S256x1024, .f32⟩
  | .local _ .vmem, ⟨7, _⟩ => ⟨S1x256, .f32⟩
  | .local _ .vmem, ⟨8, _⟩ => ⟨S1x1024x256, .f32⟩
  | .local _ .vmem, ⟨9, _⟩ => ⟨S1x1024x256, .f32⟩
  | .local _ .vmem, ⟨10, _⟩ => ⟨S1x256x256, .f32⟩
  | .local _ .vmem, ⟨11, _⟩ => ⟨S1x256x256, .f32⟩
  | .local _ .vmem, ⟨12, _⟩ => ⟨S256x256, .f32⟩
  | .local _ .vmem, ⟨13, _⟩ => ⟨S1x1024x256, .f32⟩
  | .local _ .vmem, ⟨14, _⟩ => ⟨S1x1024x256, .f32⟩
  | .local _ .vmem, ⟨15, _⟩ => ⟨S1x256x256, .f32⟩
  | .local _ .vmem, ⟨16, _⟩ => ⟨S1x256x256, .f32⟩
  | .local _ .vmem, ⟨17, _⟩ => ⟨S1024x256, .f32⟩
  | .local _ .vmem, ⟨18, _⟩ => ⟨S1x1024, .f32⟩
  | .local _ .vmem, ⟨19, _⟩ => ⟨S1x1024x1024, .f32⟩
  | .local _ .vmem, ⟨20, _⟩ => ⟨S1x1024x1024, .f32⟩
  | .local _ .vmem, ⟨21, _⟩ => ⟨S1x1024x1024, .f32⟩
  | .local _ .vmem, ⟨22, _⟩ => ⟨S1x1024x1024, .f32⟩
  | .local _ .vmem, ⟨23, _⟩ => ⟨S1x1024, .f32⟩
  | .local _ .vmem, ⟨24, _⟩ => ⟨S1x1024, .f32⟩
  | .local _ .vmem, ⟨25, _⟩ => ⟨S1x1024, .f32⟩
  | .local _ .vmem, ⟨26, _⟩ => ⟨S1x1024, .f32⟩
  | .local _ .vmem, ⟨27, _⟩ => ⟨S1x1024x1024, .f32⟩
  | .local _ .vmem, ⟨28, _⟩ => ⟨S1x1024x1024, .f32⟩
  | .local _ .vmem, ⟨29, _⟩ => ⟨S1x1024x1024, .f32⟩
  | .local _ .vmem, ⟨30, _⟩ => ⟨S1x1024x1024, .f32⟩
  | .local _ .vmem, ⟨31, _⟩ => ⟨S1x1024, .f32⟩
  | .local _ .vmem, ⟨32, _⟩ => ⟨S1x1024, .f32⟩
  | .local _ .vmem, ⟨33, _⟩ => ⟨S1x1024, .f32⟩
  | .local _ .vmem, ⟨34, _⟩ => ⟨S1x1024, .f32⟩
  | .local _ .vmem, ⟨35, _⟩ => ⟨S1x1024x1024, .f32⟩
  | .local _ .vmem, ⟨36, _⟩ => ⟨S1x1024x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6_0 : Ref sig .tc := ⟨.hbm, 17, rfl⟩
abbrev main_v6_1 : Ref sig .tc := ⟨.hbm, 18, rfl⟩
abbrev main_v7 : Ref sig .tc := ⟨.hbm, 19, rfl⟩
abbrev main_v8_0 : Ref sig .tc := ⟨.hbm, 20, rfl⟩
abbrev main_v8_1 : Ref sig .tc := ⟨.hbm, 21, rfl⟩
abbrev main_cst : Ref sig .tc := ⟨.hbm, 22, rfl⟩
abbrev main_v9 : Ref sig .tc := ⟨.hbm, 23, rfl⟩
abbrev main_v10 : Ref sig .tc := ⟨.hbm, 24, rfl⟩
abbrev main_cst_0 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg4_1 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg2_0 : Ref sig .tc := ⟨.vmem, 24, rfl⟩
abbrev cc2_scratch0 : Ref sig .tc := ⟨.vmem, 25, rfl⟩
abbrev cc2_scratch1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg6_0 : Ref sig .tc := ⟨.vmem, 35, rfl⟩
abbrev cc3_stg6_1 : Ref sig .tc := ⟨.vmem, 36, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem4_1 : DmaSem sig := 19
abbrev cc2_sem0_0 : DmaSem sig := 20
abbrev cc2_sem0_1 : DmaSem sig := 21
abbrev cc2_sem1_0 : DmaSem sig := 22
abbrev cc2_sem2_0 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem3_0 : DmaSem sig := 29
abbrev cc3_sem4_0 : DmaSem sig := 30
abbrev cc3_sem5_0 : DmaSem sig := 31
abbrev cc3_sem6_0 : DmaSem sig := 32
abbrev cc3_sem6_1 : DmaSem sig := 33

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1024x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev grid1 : Pipeline.Grid := ⟨2, ![8, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x1024x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x256x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 1 → Memref sig .tc .vmem S1024x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1x1024x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev grid2 : Pipeline.Grid := ⟨2, ![8, 4], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S1x1024x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S1x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev grid3 : Pipeline.Grid := ⟨2, ![8, 4], ![false, false]⟩

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage3_0 : Fin 2 → Memref sig .tc .vmem S1x1024x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1x1024x1024 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev stage3_2 : Fin 1 → Memref sig .tc .vmem S1x1024 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, false]

abbrev stage3_3 : Fin 1 → Memref sig .tc .vmem S1x1024 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false, false]

abbrev stage3_4 : Fin 1 → Memref sig .tc .vmem S1x1024 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false, false]

abbrev stage3_5 : Fin 1 → Memref sig .tc .vmem S1x1024 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false, false]

abbrev stage3_6 : Fin 2 → Memref sig .tc .vmem S1x1024x1024 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true, true]

class Facts₀ : Prop where
  shapeCasts_S256_S1x256 : S256.ShapeCasts S1x256
  shapeCasts_S1024_S1x1024 : S1024.ShapeCasts S1x1024
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  bitsLt_bf16_f32 : FTy.bits .bf16 < FTy.bits .f32
  inb_S256x1024_S256x1024_0_0 : ∀ a, (![0, 0] : Fin 2 → Nat) a + S256x1024.size a ≤ S256x1024.size a
  h_S256x1024 : 0 < S256x1024.numel
  transposes_S256x1024_p1_0_S1024x256 : S256x1024.Transposes [1, 0] S1024x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  shapeCasts_S1024x256_S1x1024x256 : S1024x256.ShapeCasts S1x1024x256
  transposes_S1024x256_p1_0_S256x1024 : S1024x256.Transposes [1, 0] S256x1024
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  shapeCasts_S256x256_S1x256x256 : S256x256.ShapeCasts S1x256x256
  inb_S1024x256_S1024x256_0_0 : ∀ a, (![0, 0] : Fin 2 → Nat) a + S1024x256.size a ≤ S1024x256.size a
  h_S1024x256 : 0 < S1024x256.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S1024x1024_S1x1024x1024 : S1024x1024.ShapeCasts S1x1024x1024
  reduces_S1024x1024_S1024 : S1024x1024.Reduces [0] S1024
  bcast_S_S1x1024 : S_.BroadcastsInDim S1x1024 (![] : Fin 0 → Fin S1x1024.rank)
  dot_S1024x1024_S1024x256_S1024x256_1_0_0_1_n_n_wf : DotDims.WF S1024x1024 S1024x256 S1024x256 [1] [0] [0] [1] [] []
  dot_S256x1024_S1024x256_S256x256_1_0_0_1_n_n_wf : DotDims.WF S256x1024 S1024x256 S256x256 [1] [0] [0] [1] [] []
  dot_S1024x256_S256x256_S1024x256_1_0_0_1_n_n_wf : DotDims.WF S1024x256 S256x256 S1024x256 [1] [0] [0] [1] [] []
  dot_S1024x256_S256x1024_S1024x1024_1_0_0_1_n_n_wf : DotDims.WF S1024x256 S256x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S8x4096x1024.size a
  hwx0_0 : ∀ i : grid0.Coords, EltTy.bits .f32 = 32 ∨ (Rect.block (s := S8x4096x1024) S1x1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S256x1024.size a
  hwx0_1 : ∀ i : grid0.Coords, EltTy.bits .f32 = 32 ∨ (Rect.block (s := S256x1024) S256x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x1024.size a ≤ S256x1024.size a
  hwx0_3 : ∀ i : grid0.Coords, EltTy.bits .f32 = 32 ∨ (Rect.block (s := S256x1024) S256x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x1024.size a ≤ S256x1024.size a
  hwx0_5 : ∀ i : grid0.Coords, EltTy.bits .f32 = 32 ∨ (Rect.block (s := S256x1024) S256x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1024x256.size a ≤ S8x4096x256.size a
  hwx0_7 : ∀ i : grid0.Coords, EltTy.bits .f32 = 32 ∨ (Rect.block (s := S8x4096x256) S1x1024x256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x256x256.size a ≤ S8x256x256.size a
  hwx0_8 : ∀ i : grid0.Coords, EltTy.bits .f32 = 32 ∨ (Rect.block (s := S8x256x256) S1x256x256.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x256.size a ≤ S8x4096x256.size a
  hwx1_0 : ∀ i : grid1.Coords, EltTy.bits .f32 = 32 ∨ (Rect.block (s := S8x4096x256) S1x1024x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x256x256.size a ≤ S8x256x256.size a
  hwx1_1 : ∀ i : grid1.Coords, EltTy.bits .f32 = 32 ∨ (Rect.block (s := S8x256x256) S1x256x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1024x256.size a ≤ S1024x256.size a
  hwx1_2 : ∀ i : grid1.Coords, EltTy.bits .f32 = 32 ∨ (Rect.block (s := S1024x256) S1024x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1024.size a ≤ S1x1024.size a
  hwx1_3 : ∀ i : grid1.Coords, EltTy.bits .f32 = 32 ∨ (Rect.block (s := S1x1024) S1x1024.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1024x1024.size a ≤ S8x4096x1024.size a
  hwx1_4 : ∀ i : grid1.Coords, EltTy.bits .f32 = 32 ∨ (Rect.block (s := S8x4096x1024) S1x1024x1024.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x1024x1024.size a ≤ S8x4096x1024.size a
  hwx2_0 : ∀ i : grid2.Coords, EltTy.bits .f32 = 32 ∨ (Rect.block (s := S8x4096x1024) S1x1024x1024.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x1024.size a ≤ S1x1024.size a
  hwx2_1 : ∀ i : grid2.Coords, EltTy.bits .f32 = 32 ∨ (Rect.block (s := S1x1024) S1x1024.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x1024x1024.size a ≤ S8x4096x1024.size a
  hwx3_0 : ∀ i : grid3.Coords, EltTy.bits .f32 = 32 ∨ (Rect.block (s := S8x4096x1024) S1x1024x1024.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1x1024x1024.size a ≤ S8x4096x1024.size a
  hwx3_1 : ∀ i : grid3.Coords, EltTy.bits .f32 = 32 ∨ (Rect.block (s := S8x4096x1024) S1x1024x1024.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x1024.size a ≤ S1x1024.size a
  hwx3_2 : ∀ i : grid3.Coords, EltTy.bits .f32 = 32 ∨ (Rect.block (s := S1x1024) S1x1024.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x1024.size a ≤ S1x1024.size a
  hwx3_3 : ∀ i : grid3.Coords, EltTy.bits .f32 = 32 ∨ (Rect.block (s := S1x1024) S1x1024.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x1024.size a ≤ S1x1024.size a
  hwx3_4 : ∀ i : grid3.Coords, EltTy.bits .f32 = 32 ∨ (Rect.block (s := S1x1024) S1x1024.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x1024.size a ≤ S1x1024.size a
  hwx3_5 : ∀ i : grid3.Coords, EltTy.bits .f32 = 32 ∨ (Rect.block (s := S1x1024) S1x1024.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S1x1024x1024.size a ≤ S8x4096x1024.size a
  hwx3_6 : ∀ i : grid3.Coords, EltTy.bits .f32 = 32 ∨ (Rect.block (s := S8x4096x1024) S1x1024x1024.size (cc3_transform_6 i) (hinb3_6 i)).WholeWords (EltTy.packing .f32)

variable [Facts₀]

def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf
def dot_S256x1024_S1024x256_S256x256_1_0_0_1_n_n : DotDims S256x1024 S1024x256 S256x256 where
  lhsContracting := [1]
  rhsContracting := [0]
  lhsNonContracting := [0]
  rhsNonContracting := [1]
  lhsBatch := []
  rhsBatch := []
  wf := dot_S256x1024_S1024x256_S256x256_1_0_0_1_n_n_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf

abbrev win0_0 : Pipeline.Window sig grid0 :=
  Pipeline.Window.ofSpec (Memref.whole main_arg0) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S256x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg1) S256x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6_0) S1x1024x256.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v6_1) S1x256x256.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v6_0) S1x1024x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6_1) S1x256x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S1024x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v7) S1x1024x1024.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v7) S1x1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v8_0) S1x1024.size cc2_transform_1 reads2_1 true true 1 stage2_1 sem2_1
    hrank2 hreads2_1 hinb2_1 nbuf2_1 (Memref.isWhole_whole _) hwx2_1 hstage2_1

abbrev win2_2 : Pipeline.Window sig grid2 :=
  Pipeline.Window.ofSpec (Memref.whole main_v8_1) S1x1024.size cc2_transform_2 reads2_2 true true 1 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v7) S1x1024x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg0) S1x1024x1024.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v10) S1x1024.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v14) S1x1024.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v4) S1x1024.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v5) S1x1024.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v15) S1x1024x1024.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

class Facts : Prop extends Facts₀ where

variable [Facts]
-- ==== ReferenceIdeal.lean ====
abbrev S8x4096x1024 : Shape := ⟨3, ![8, 4096, 1024]⟩
abbrev S256x1024 : Shape := ⟨2, ![256, 1024]⟩
abbrev S256 : Shape := ⟨1, ![256]⟩
abbrev S1024x256 : Shape := ⟨2, ![1024, 256]⟩
abbrev S1024 : Shape := ⟨1, ![1024]⟩
abbrev S8x4096x256 : Shape := ⟨3, ![8, 4096, 256]⟩
abbrev S1x1x256 : Shape := ⟨3, ![1, 1, 256]⟩
abbrev S8x4096x4096 : Shape := ⟨3, ![8, 4096, 4096]⟩
abbrev S_ : Shape := ⟨0, ![]⟩
abbrev S1x1x1024 : Shape := ⟨3, ![1, 1, 1024]⟩

abbrev nBuf : Space → Nat
  | .hbm => 77
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S256x1024, .f32⟩
  | .hbm, ⟨2, _⟩ => ⟨S256, .f32⟩
  | .hbm, ⟨3, _⟩ => ⟨S256x1024, .f32⟩
  | .hbm, ⟨4, _⟩ => ⟨S256, .f32⟩
  | .hbm, ⟨5, _⟩ => ⟨S256x1024, .f32⟩
  | .hbm, ⟨6, _⟩ => ⟨S256, .f32⟩
  | .hbm, ⟨7, _⟩ => ⟨S1024x256, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S8x4096x256, .f32⟩
  | .hbm, ⟨12, _⟩ => ⟨S1x1x256, .f32⟩
  | .hbm, ⟨13, _⟩ => ⟨S8x4096x256, .f32⟩
  | .hbm, ⟨14, _⟩ => ⟨S8x4096x256, .f32⟩
  | .hbm, ⟨15, _⟩ => ⟨S8x4096x256, .f32⟩
  | .hbm, ⟨16, _⟩ => ⟨S1x1x256, .f32⟩
  | .hbm, ⟨17, _⟩ => ⟨S8x4096x256, .f32⟩
  | .hbm, ⟨18, _⟩ => ⟨S8x4096x256, .f32⟩
  | .hbm, ⟨19, _⟩ => ⟨S8x4096x256, .f32⟩
  | .hbm, ⟨20, _⟩ => ⟨S1x1x256, .f32⟩
  | .hbm, ⟨21, _⟩ => ⟨S8x4096x256, .f32⟩
  | .hbm, ⟨22, _⟩ => ⟨S8x4096x256, .f32⟩
  | .hbm, ⟨23, _⟩ => ⟨S8x4096x4096, .f32⟩
  | .hbm, ⟨24, _⟩ => ⟨S_, .f32⟩
  | .hbm, ⟨25, _⟩ => ⟨S8x4096x4096, .f32⟩
  | .hbm, ⟨26, _⟩ => ⟨S8x4096x4096, .f32⟩
  | .hbm, ⟨27, _⟩ => ⟨S8x4096x256, .f32⟩
  | .hbm, ⟨28, _⟩ => ⟨S8x4096x1024, .f32⟩
  | .hbm, ⟨29, _⟩ => ⟨S1x1x1024, .f32⟩
  | .hbm, ⟨30, _⟩ => ⟨S8x4096x1024, .f32⟩
  | .hbm, ⟨31, _⟩ => ⟨S8x4096x1024, .f32⟩
  | .hbm, ⟨32, _⟩ => ⟨S_, .f32⟩
  | .hbm, ⟨33, _⟩ => ⟨S1024, .f32⟩
  | .hbm, ⟨34, _⟩ => ⟨S_, .f32⟩
  | .hbm, ⟨35, _⟩ => ⟨S1024, .f32⟩
  | .hbm, ⟨36, _⟩ => ⟨S1024, .f32⟩
  | .hbm, ⟨37, _⟩ => ⟨S_, .i32⟩
  | .hbm, ⟨38, _⟩ => ⟨S_, .f32⟩
  | .hbm, ⟨39, _⟩ => ⟨S1024, .f32⟩
  | .hbm, ⟨40, _⟩ => ⟨S1x1x1024, .f32⟩
  | .hbm, ⟨41, _⟩ => ⟨S_, .f32⟩
  | .hbm, ⟨42, _⟩ => ⟨S1x1x1024, .f32⟩
  | .hbm, ⟨43, _⟩ => ⟨S1x1x1024, .f32⟩
  | .hbm, ⟨44, _⟩ => ⟨S8x4096x1024, .f32⟩
  | .hbm, ⟨45, _⟩ => ⟨S8x4096x1024, .f32⟩
  | .hbm, ⟨46, _⟩ => ⟨S8x4096x1024, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S1024, .f32⟩
  | .hbm, ⟨52, _⟩ => ⟨S1024, .f32⟩
  | .hbm, ⟨53, _⟩ => ⟨S1024, .f32⟩
  | .hbm, ⟨54, _⟩ => ⟨S_, .f32⟩
  | .hbm, ⟨55, _⟩ => ⟨S_, .i1⟩
  | .hbm, ⟨56, _⟩ => ⟨S_, .f32⟩
  | .hbm, ⟨57, _⟩ => ⟨S_, .f32⟩
  | .hbm, ⟨58, _⟩ => ⟨S1024, .f32⟩
  | .hbm, ⟨59, _⟩ => ⟨S1024, .f32⟩
  | .hbm, ⟨60, _⟩ => ⟨S1x1x1024, .f32⟩
  | .hbm, ⟨61, _⟩ => ⟨S8x4096x1024, .f32⟩
  | .hbm, ⟨62, _⟩ => ⟨S8x4096x1024, .f32⟩
  | .hbm, ⟨63, _⟩ => ⟨S_, .f32⟩
  | .hbm, ⟨64, _⟩ => ⟨S1024, .f32⟩
  | .hbm, ⟨65, _⟩ => ⟨S1024, .f32⟩
  | .hbm, ⟨66, _⟩ => ⟨S1024, .f32⟩
  | .hbm, ⟨67, _⟩ => ⟨S1x1x1024, .f32⟩
  | .hbm, ⟨68, _⟩ => ⟨S8x4096x1024, .f32⟩
  | .hbm, ⟨69, _⟩ => ⟨S8x4096x1024, .f32⟩
  | .hbm, ⟨70, _⟩ => ⟨S1x1x1024, .f32⟩
  | .hbm, ⟨71, _⟩ => ⟨S8x4096x1024, .f32⟩
  | .hbm, ⟨72, _⟩ => ⟨S8x4096x1024, .f32⟩
  | .hbm, ⟨73, _⟩ => ⟨S1x1x1024, .f32⟩
  | .hbm, ⟨74, _⟩ => ⟨S8x4096x1024, .f32⟩
  | .hbm, ⟨75, _⟩ => ⟨S8x4096x1024, .f32⟩
  | .hbm, ⟨76, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_0 : Ref sig .tc := ⟨.hbm, 32, rfl⟩
abbrev main_v20 : Ref sig .tc := ⟨.hbm, 33, rfl⟩
abbrev main_cst_1 : Ref sig .tc := ⟨.hbm, 34, rfl⟩
abbrev main_v21 : Ref sig .tc := ⟨.hbm, 35, rfl⟩
abbrev main_v22 : Ref sig .tc := ⟨.hbm, 36, rfl⟩
abbrev main_c : Ref sig .tc := ⟨.hbm, 37, rfl⟩
abbrev main_call0_cst : Ref sig .tc := ⟨.hbm, 38, rfl⟩
abbrev main_call0_v0 : Ref sig .tc := ⟨.hbm, 39, rfl⟩
abbrev main_call0_v1 : Ref sig .tc := ⟨.hbm, 40, rfl⟩
abbrev main_call0_cst_0 : Ref sig .tc := ⟨.hbm, 41, rfl⟩
abbrev main_call0_v2 : Ref sig .tc := ⟨.hbm, 42, rfl⟩
abbrev main_call0_v3 : Ref sig .tc := ⟨.hbm, 43, rfl⟩
abbrev main_call0_v4 : Ref sig .tc := ⟨.hbm, 44, rfl⟩
abbrev main_call0_v5 : Ref sig .tc := ⟨.hbm, 45, rfl⟩
abbrev main_call0_v6 : Ref sig .tc := ⟨.hbm, 46, rfl⟩
abbrev main_call0_v7 : Ref sig .tc := ⟨.hbm, 47, rfl⟩
abbrev main_call0_cst_1 : Ref sig .tc := ⟨.hbm, 48, rfl⟩
abbrev main_call0_v8 : Ref sig .tc := ⟨.hbm, 49, rfl⟩
abbrev main_call0_cst_2 : Ref sig .tc := ⟨.hbm, 50, rfl⟩
abbrev main_call0_v9 : Ref sig .tc := ⟨.hbm, 51, rfl⟩
abbrev main_call0_v10 : Ref sig .tc := ⟨.hbm, 52, rfl⟩
abbrev main_call0_v11 : Ref sig .tc := ⟨.hbm, 53, rfl⟩
abbrev main_call0_cst_3 : Ref sig .tc := ⟨.hbm, 54, rfl⟩
abbrev main_call0_v12 : Ref sig .tc := ⟨.hbm, 55, rfl⟩
abbrev main_call0_cst_4 : Ref sig .tc := ⟨.hbm, 56, rfl⟩
abbrev main_call0_call0_v0 : Ref sig .tc := ⟨.hbm, 57, rfl⟩
abbrev main_call0_call0_v1 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_cst_2 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩

abbrev nD : Nat := 1
abbrev τ : Topo := Topo.v7x

variable {F : FTy → Type} [FloatOps F]

class Facts₀ : Prop where
  bcast_S256_S1x1x256_2 : S256.BroadcastsInDim S1x1x256 (![2] : Fin 1 → Fin S1x1x256.rank)
  bcast_S1x1x256_S8x4096x256_0_1_2 : S1x1x256.BroadcastsInDim S8x4096x256 (![0, 1, 2] : Fin 3 → Fin S8x4096x256.rank)
  bcast_S_S8x4096x4096 : S_.BroadcastsInDim S8x4096x4096 (![] : Fin 0 → Fin S8x4096x4096.rank)
  bcast_S1024_S1x1x1024_2 : S1024.BroadcastsInDim S1x1x1024 (![2] : Fin 1 → Fin S1x1x1024.rank)
  bcast_S1x1x1024_S8x4096x1024_0_1_2 : S1x1x1024.BroadcastsInDim S8x4096x1024 (![0, 1, 2] : Fin 3 → Fin S8x4096x1024.rank)
  reducesTo_S8x4096x1024_S1024_d0_1 : S8x4096x1024.ReducesTo [0, 1] S1024
  h_S_ : 0 < S_.numel
  bcast_S_S1024 : S_.BroadcastsInDim S1024 (![] : Fin 0 → Fin S1024.rank)
  bcast_S_S1x1x1024 : S_.BroadcastsInDim S1x1x1024 (![] : Fin 0 → Fin S1x1x1024.rank)
  dot_S8x4096x1024_S256x1024_S8x4096x256_2_1_01_0_n_n_wf : DotDims.WF S8x4096x1024 S256x1024 S8x4096x256 [2] [1] [0, 1] [0] [] []
  dot_S8x4096x256_S8x4096x256_S8x4096x4096_2_2_1_1_0_0_wf : DotDims.WF S8x4096x256 S8x4096x256 S8x4096x4096 [2] [2] [1] [1] [0] [0]
  dot_S8x4096x4096_S8x4096x256_S8x4096x256_2_1_1_2_0_0_wf : DotDims.WF S8x4096x4096 S8x4096x256 S8x4096x256 [2] [1] [1] [2] [0] [0]
  dot_S8x4096x256_S1024x256_S8x4096x1024_2_1_01_0_n_n_wf : DotDims.WF S8x4096x256 S1024x256 S8x4096x1024 [2] [1] [0, 1] [0] [] []

variable [Facts₀]

def dot_S8x4096x1024_S256x1024_S8x4096x256_2_1_01_0_n_n : DotDims S8x4096x1024 S256x1024 S8x4096x256 where
  lhsContracting := [2]
  rhsContracting := [1]
  lhsNonContracting := [0, 1]
  rhsNonContracting := [0]
  lhsBatch := []
  rhsBatch := []
  wf := dot_S8x4096x1024_S256x1024_S8x4096x256_2_1_01_0_n_n_wf
def dot_S8x4096x256_S8x4096x256_S8x4096x4096_2_2_1_1_0_0 : DotDims S8x4096x256 S8x4096x256 S8x4096x4096 where
  lhsContracting := [2]
  rhsContracting := [2]
  lhsNonContracting := [1]
  rhsNonContracting := [1]
  lhsBatch := [0]
  rhsBatch := [0]
  wf := dot_S8x4096x256_S8x4096x256_S8x4096x4096_2_2_1_1_0_0_wf
def dot_S8x4096x4096_S8x4096x256_S8x4096x256_2_1_1_2_0_0 : DotDims S8x4096x4096 S8x4096x256 S8x4096x256 where
  lhsContracting := [2]
  rhsContracting := [1]
  lhsNonContracting := [1]
  rhsNonContracting := [2]
  lhsBatch := [0]
  rhsBatch := [0]
  wf := dot_S8x4096x4096_S8x4096x256_S8x4096x256_2_1_1_2_0_0_wf
def dot_S8x4096x256_S1024x256_S8x4096x1024_2_1_01_0_n_n : DotDims S8x4096x256 S1024x256 S8x4096x1024 where
  lhsContracting := [2]
  rhsContracting := [1]
  lhsNonContracting := [0, 1]
  rhsNonContracting := [0]
  lhsBatch := []
  rhsBatch := []
  wf := dot_S8x4096x256_S1024x256_S8x4096x1024_2_1_01_0_n_n_wf

class Facts : Prop extends Facts₀ where

variable [Facts]
-- ==== Proof.K.R0.lean ====
import proofs.«145685_j29137058136127_1_alg».proof.Proof.Gen.Kernel.Launch
import proofs.«145685_j29137058136127_1_alg».proof.Proof.Gen.Kernel.Skeleton
import proofs.«145685_j29137058136127_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

universe u

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev cond0_0 (i : grid0.Coords) : Prop := (Scalar.cmpi .ne (Scalar.extui (Scalar.cmpi .eq (BitVec.ofNat 32 (i 1).val) 0#32)) 0#32) = 1#1

theorem hcond0_0 : ∀ t : Fin cfg0.N, cond0_0 (grid0.coords t) ↔ t.val % 4 = 0 :=
  (by decide +kernel : ∀ t : Fin grid0.N, cond0_0 (grid0.coords t) ↔ t.val % 4 = 0)

abbrev VO0_7 : View sig .tc .vmem S1x1024x256 .f32 := (Memref.whole cc0_stg7_0 : Memref sig .tc .vmem S1x1024x256 .f32).view
abbrev VO0_8 : View sig .tc .vmem S1x256x256 .f32 := (Memref.whole cc0_stg8_0 : Memref sig .tc .vmem S1x256x256 .f32).view
abbrev ms0_0 (t : Fin cfg0.N) : Memref sig .tc .vmem S1x1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1024x256 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x256x256 .f32 := win0_8.stage (cfg0.slots t 8)
abbrev hs0_8 (t : Fin cfg0.N) : (ms0_8 t).IsWhole := hstage0_8 ((cfg0.slots t 8).cast nbuf0_8)
abbrev scM0_0 : Memref sig .tc .vmem S256x256 .f32 := Memref.whole cc0_scratch0
abbrev VS0_0 : View sig .tc .vmem S256x256 .f32 := scM0_0.view

theorem PhiA0_eq (c : Dev nD) :
    (Pipeline.ΦA spec0 c : sProp 𝕄)
      = iprop(iprop(iprop((∃ d, owns (c : Thread nD τ) scM0_0 fullShare d)) ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [scM0_0, owns_whole]; try rfl

section
variable (c : Dev nD) (i : grid0.Coords) (arg2 : Memref sig .tc .vmem S1x1024x1024 .f32) (harg2 : arg2.IsWhole) (arg3 : Memref sig .tc .vmem S256x1024 .f32) (harg3 : arg3.IsWhole) (arg4 : Memref sig .tc .vmem S1x256 .f32) (harg4 : arg4.IsWhole) (arg5 : Memref sig .tc .vmem S256x1024 .f32) (harg5 : arg5.IsWhole) (arg6 : Memref sig .tc .vmem S1x256 .f32) (harg6 : arg6.IsWhole) (arg7 : Memref sig .tc .vmem S256x1024 .f32) (harg7 : arg7.IsWhole) (arg8 : Memref sig .tc .vmem S1x256 .f32) (harg8 : arg8.IsWhole) (arg9 : Memref sig .tc .vmem S1x1024x256 .f32) (harg9 : arg9.IsWhole) (arg10 : Memref sig .tc .vmem S1x256x256 .f32) (harg10 : arg10.IsWhole) (arg11 : Memref sig .tc .vmem S256x256 .f32) (harg11 : arg11.IsWhole)

section
variable (hc0 : cond0_0 i) (x0 : Vec F S1x1024x1024 .f32) (x1 : Vec F S256x1024 .f32) (x2 : Vec F S1x256 .f32) (x3 : Vec F S256x1024 .f32) (x4 : Vec F S1x256 .f32) (x5 : Vec F S256x1024 .f32) (x6 : Vec F S1x256 .f32)

-- The body on a grid point where the running sums restart: the pieces it writes, and that it runs safely to them.
set_option maxHeartbeats 4000000 in
noncomputable def kernelRun0_A :
    Σ' (L7 : List (View.Piece (Elt F) S1x1024x256 .f32)) (L8 : List (View.Piece (Elt F) S1x256x256 .f32)), { LS0 : List (View.Piece (Elt F) S256x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f LS0)) -∗ K ⟨⟩))
          ⊢ wp frame (wpE (defs₀ (F := F)) Variants.none c none) E (cc0__k1_kernel i arg2 harg2 arg3 harg3 arg4 harg4 arg5 harg5 arg6 harg6 arg7 harg7 arg8 harg8 arg9 harg9 arg10 harg10 arg11 harg11) K } := by
  refine ⟨?_, ?_, ?_, fun E K => ?run⟩
  case run =>
    simp only [cc0__k1_kernel_eq_skeleton]; unfold cc0__k1_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [H8]; · iexists _; iexact H8
    iexists _; iexact HS0

theorem cover0_A_7 (y : S1x1024x256.Idx) :
    ∃ pc ∈ (kernelRun0_A c i arg2 harg2 arg3 harg3 arg4 harg4 arg5 harg5 arg6 harg6 arg7 harg7 arg8 harg8 arg9 harg9 arg10 harg10 arg11 harg11 hc0 x0 x1 x2 x3 x4 x5 x6).1, y ∈ pc.1.set :=
  View.cover_of_tiledL (kernelRun0_A c i arg2 harg2 arg3 harg3 arg4 harg4 arg5 harg5 arg6 harg6 arg7 harg7 arg8 harg8 arg9 harg9 arg10 harg10 arg11 harg11 hc0 x0 x1 x2 x3 x4 x5 x6).1 S1x1024x256.size (by sl_kernel_rfl) y

def out0_A_7 : Vec F S1x1024x256 .f32 :=
  VO0_7.read (Elt F) (VO0_7.writes (Elt F) VO0_7.junk (kernelRun0_A c i arg2 harg2 arg3 harg3 arg4 harg4 arg5 harg5 arg6 harg6 arg7 harg7 arg8 harg8 arg9 harg9 arg10 harg10 arg11 harg11 hc0 x0 x1 x2 x3 x4 x5 x6).1)

theorem cover0_A_8 (y : S1x256x256.Idx) :
    ∃ pc ∈ (kernelRun0_A c i arg2 harg2 arg3 harg3 arg4 harg4 arg5 harg5 arg6 harg6 arg7 harg7 arg8 harg8 arg9 harg9 arg10 harg10 arg11 harg11 hc0 x0 x1 x2 x3 x4 x5 x6).2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 x0 x1 x2 x3 x4 x5 x6).2.1 S1x256x256.size (by sl_kernel_rfl) y

def out0_A_8 : Vec F S1x256x256 .f32 :=
  VO0_8.read (Elt F) (VO0_8.writes (Elt F) VO0_8.junk (kernelRun0_A c i arg2 harg2 arg3 harg3 arg4 harg4 arg5 harg5 arg6 harg6 arg7 harg7 arg8 harg8 arg9 harg9 arg10 harg10 arg11 harg11 hc0 x0 x1 x2 x3 x4 x5 x6).2.1)

theorem scover0_A_0 (y : S256x256.Idx) :
    ∃ pc ∈ (kernelRun0_A c i arg2 harg2 arg3 harg3 arg4 harg4 arg5 harg5 arg6 harg6 arg7 harg7 arg8 harg8 arg9 harg9 arg10 harg10 arg11 harg11 hc0 x0 x1 x2 x3 x4 x5 x6).2.2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 x0 x1 x2 x3 x4 x5 x6).2.2.1 S256x256.size (by sl_kernel_rfl) y

def sout0_A_0 : Vec F S256x256 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 hc0 x0 x1 x2 x3 x4 x5 x6).2.2.1)

end

section
variable (hc0 : ¬cond0_0 i) (x0 : Vec F S1x1024x1024 .f32) (x1 : Vec F S256x1024 .f32) (x2 : Vec F S1x256 .f32) (x3 : Vec F S256x1024 .f32) (x4 : Vec F S1x256 .f32) (x5 : Vec F S256x1024 .f32) (x6 : Vec F S1x256 .f32) (xs0 : Vec F S256x256 .f32)

-- The same on a grid point where the running sums continue from the point before.
set_option maxHeartbeats 4000000 in
noncomputable def kernelRun0_B :
    Σ' (L7 : List (View.Piece (Elt F) S1x1024x256 .f32)) (L8 : List (View.Piece (Elt F) S1x256x256 .f32)), { LS0 : List (View.Piece (Elt F) S256x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ owns (c : Thread nD τ) arg11 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f LS0)) -∗ K ⟨⟩))
          ⊢ wp frame (wpE (defs₀ (F := F)) Variants.none c none) E (cc0__k1_kernel i arg2 harg2 arg3 harg3 arg4 harg4 arg5 harg5 arg6 harg6 arg7 harg7 arg8 harg8 arg9 harg9 arg10 harg10 arg11 harg11) K } := by
  refine ⟨?_, ?_, ?_, fun E K => ?run⟩
  case run =>
    simp only [cc0__k1_kernel_eq_skeleton]; unfold cc0__k1_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg11.eq_unread hfs0
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [H8]; · iexists _; iexact H8
    iexists _; iexact HS0

theorem cover0_B_7 (y : S1x1024x256.Idx) :
    ∃ pc ∈ (kernelRun0_B c i arg2 harg2 arg3 harg3 arg4 harg4 arg5 harg5 arg6 harg6 arg7 harg7 arg8 harg8 arg9 harg9 arg10 harg10 arg11 harg11 hc0 x0 x1 x2 x3 x4 x5 x6 xs0).1, y ∈ pc.1.set :=
  View.cover_of_tiledL (kernelRun0_B c i arg2 harg2 arg3 harg3 arg4 harg4 arg5 harg5 arg6 harg6 arg7 harg7 arg8 harg8 arg9 harg9 arg10 harg10 arg11 harg11 hc0 x0 x1 x2 x3 x4 x5 x6 xs0).1 S1x1024x256.size (by sl_kernel_rfl) y

def out0_B_7 : Vec F S1x1024x256 .f32 :=
  VO0_7.read (Elt F) (VO0_7.writes (Elt F) VO0_7.junk (kernelRun0_B c i arg2 harg2 arg3 harg3 arg4 harg4 arg5 harg5 arg6 harg6 arg7 harg7 arg8 harg8 arg9 harg9 arg10 harg10 arg11 harg11 hc0 x0 x1 x2 x3 x4 x5 x6 xs0).1)

theorem cover0_B_8 (y : S1x256x256.Idx) :
    ∃ pc ∈ (kernelRun0_B c i arg2 harg2 arg3 harg3 arg4 harg4 arg5 harg5 arg6 harg6 arg7 harg7 arg8 harg8 arg9 harg9 arg10 harg10 arg11 harg11 hc0 x0 x1 x2 x3 x4 x5 x6 xs0).2.1, y ∈ pc.1.set :=
  View.cover_of_tiledL (kernelRun0_B c i arg2 harg2 arg3 harg3 arg4 harg4 arg5 harg5 arg6 harg6 arg7 harg7 arg8 harg8 arg9 harg9 arg10 harg10 arg11 harg11 hc0 x0 x1 x2 x3 x4 x5 x6 xs0).2.1 S1x256x256.size (by sl_kernel_rfl) y

def out0_B_8 : Vec F S1x256x256 .f32 :=
  VO0_8.read (Elt F) (VO0_8.writes (Elt F) VO0_8.junk (kernelRun0_B c i arg2 harg2 arg3 harg3 arg4 harg4 arg5 harg5 arg6 harg6 arg7 harg7 arg8 harg8 arg9 harg9 arg10 harg10 arg11 harg11 hc0 x0 x1 x2 x3 x4 x5 x6 xs0).2.1)

theorem scover0_B_0 (y : S256x256.Idx) :
    ∃ pc ∈ (kernelRun0_B c i arg2 harg2 arg3 harg3 arg4 harg4 arg5 harg5 arg6 harg6 arg7 harg7 arg8 harg8 arg9 harg9 arg10 harg10 arg11 harg11 hc0 x0 x1 x2 x3 x4 x5 x6 xs0).2.2.1, y ∈ pc.1.set :=
  View.cover_of_tiledL (kernelRun0_B c i arg2 harg2 arg3 harg3 arg4 harg4 arg5 harg5 arg6 harg6 arg7 harg7 arg8 harg8 arg9 harg9 arg10 harg10 arg11 harg11 hc0 x0 x1 x2 x3 x4 x5 x6 xs0).2.2.1 S256x256.size (by sl_kernel_rfl) y

def sout0_B_0 : Vec F S256x256 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 hc0 x0 x1 x2 x3 x4 x5 x6 xs0).2.2.1)

end

end

-- `f` applied to everything grid point `t` determines, when `t` opens a group of 4 points.
abbrev at0_A {γ : ∀ (i : grid0.Coords) (arg2 : Memref sig .tc .vmem S1x1024x1024 .f32) (harg2 : arg2.IsWhole) (arg3 : Memref sig .tc .vmem S256x1024 .f32) (harg3 : arg3.IsWhole) (arg4 : Memref sig .tc .vmem S1x256 .f32) (harg4 : arg4.IsWhole) (arg5 : Memref sig .tc .vmem S256x1024 .f32) (harg5 : arg5.IsWhole) (arg6 : Memref sig .tc .vmem S1x256 .f32) (harg6 : arg6.IsWhole) (arg7 : Memref sig .tc .vmem S256x1024 .f32) (harg7 : arg7.IsWhole) (arg8 : Memref sig .tc .vmem S1x256 .f32) (harg8 : arg8.IsWhole) (arg9 : Memref sig .tc .vmem S1x1024x256 .f32) (harg9 : arg9.IsWhole) (arg10 : Memref sig .tc .vmem S1x256x256 .f32) (harg10 : arg10.IsWhole) (arg11 : Memref sig .tc .vmem S256x256 .f32) (harg11 : arg11.IsWhole) (hc0 : cond0_0 i) (x0 : Vec F S1x1024x1024 .f32) (x1 : Vec F S256x1024 .f32) (x2 : Vec F S1x256 .f32) (x3 : Vec F S256x1024 .f32) (x4 : Vec F S1x256 .f32) (x5 : Vec F S256x1024 .f32) (x6 : Vec F S1x256 .f32), Sort u} (c : Dev nD)
    (f : ∀ i arg2 harg2 arg3 harg3 arg4 harg4 arg5 harg5 arg6 harg6 arg7 harg7 arg8 harg8 arg9 harg9 arg10 harg10 arg11 harg11 hc0 x0 x1 x2 x3 x4 x5 x6, γ i arg2 harg2 arg3 harg3 arg4 harg4 arg5 harg5 arg6 harg6 arg7 harg7 arg8 harg8 arg9 harg9 arg10 harg10 arg11 harg11 hc0 x0 x1 x2 x3 x4 x5 x6) (t : Fin cfg0.N) (h0 : t.val % 4 = 0) :
    γ (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (iblk0 V c 0 t) (iblk0 V c 1 t) (iblk0 V c 2 t) (iblk0 V c 3 t) (iblk0 V c 4 t) (iblk0 V c 5 t) (iblk0 V c 6 t) :=
  f (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (iblk0 V c 0 t) (iblk0 V c 1 t) (iblk0 V c 2 t) (iblk0 V c 3 t) (iblk0 V c 4 t) (iblk0 V c 5 t) (iblk0 V c 6 t)

-- The same when `t` is inside a group.
abbrev at0_B {γ : ∀ (i : grid0.Coords) (arg2 : Memref sig .tc .vmem S1x1024x1024 .f32) (harg2 : arg2.IsWhole) (arg3 : Memref sig .tc .vmem S256x1024 .f32) (harg3 : arg3.IsWhole) (arg4 : Memref sig .tc .vmem S1x256 .f32) (harg4 : arg4.IsWhole) (arg5 : Memref sig .tc .vmem S256x1024 .f32) (harg5 : arg5.IsWhole) (arg6 : Memref sig .tc .vmem S1x256 .f32) (harg6 : arg6.IsWhole) (arg7 : Memref sig .tc .vmem S256x1024 .f32) (harg7 : arg7.IsWhole) (arg8 : Memref sig .tc .vmem S1x256 .f32) (harg8 : arg8.IsWhole) (arg9 : Memref sig .tc .vmem S1x1024x256 .f32) (harg9 : arg9.IsWhole) (arg10 : Memref sig .tc .vmem S1x256x256 .f32) (harg10 : arg10.IsWhole) (arg11 : Memref sig .tc .vmem S256x256 .f32) (harg11 : arg11.IsWhole) (hc0 : ¬cond0_0 i) (x0 : Vec F S1x1024x1024 .f32) (x1 : Vec F S256x1024 .f32) (x2 : Vec F S1x256 .f32) (x3 : Vec F S256x1024 .f32) (x4 : Vec F S1x256 .f32) (x5 : Vec F S256x1024 .f32) (x6 : Vec F S1x256 .f32), Sort u} (c : Dev nD)
    (f : ∀ i arg2 harg2 arg3 harg3 arg4 harg4 arg5 harg5 arg6 harg6 arg7 harg7 arg8 harg8 arg9 harg9 arg10 harg10 arg11 harg11 hc0 x0 x1 x2 x3 x4 x5 x6, γ i arg2 harg2 arg3 harg3 arg4 harg4 arg5 harg5 arg6 harg6 arg7 harg7 arg8 harg8 arg9 harg9 arg10 harg10 arg11 harg11 hc0 x0 x1 x2 x3 x4 x5 x6) (t : Fin cfg0.N) (h0 : ¬t.val % 4 = 0) :
    γ (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (iblk0 V c 0 t) (iblk0 V c 1 t) (iblk0 V c 2 t) (iblk0 V c 3 t) (iblk0 V c 4 t) (iblk0 V c 5 t) (iblk0 V c 6 t) :=
  f (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (iblk0 V c 0 t) (iblk0 V c 1 t) (iblk0 V c 2 t) (iblk0 V c 3 t) (iblk0 V c 4 t) (iblk0 V c 5 t) (iblk0 V c 6 t)

-- What the `n`-th grid point leaves: the outputs, then the running sums, by recursion on `n`.
def outsAt0 (c : Dev nD) : (n : ℕ) → n < cfg0.N → Vec F S1x1024x256 .f32 × Vec F S1x256x256 .f32 × Vec F S256x256 .f32
  | 0, hn => (at0_A V c (out0_A_7 c) ⟨0, hn⟩ (Nat.zero_mod _), at0_A V c (out0_A_8 c) ⟨0, hn⟩ (Nat.zero_mod _), at0_A V c (sout0_A_0 c) ⟨0, hn⟩ (Nat.zero_mod _))
  | n + 1, hn =>
    if h0 : (n + 1) % 4 = 0 then
      (at0_A V c (out0_A_7 c) ⟨n + 1, hn⟩ h0, at0_A V c (out0_A_8 c) ⟨n + 1, hn⟩ h0, at0_A V c (sout0_A_0 c) ⟨n + 1, hn⟩ h0)
    else
      (at0_B V c (out0_B_7 c) ⟨n + 1, hn⟩ h0 (outsAt0 c n (Nat.lt_of_succ_lt hn)).2.2, at0_B V c (out0_B_8 c) ⟨n + 1, hn⟩ h0 (outsAt0 c n (Nat.lt_of_succ_lt hn)).2.2, at0_B V c (sout0_B_0 c) ⟨n + 1, hn⟩ h0 (outsAt0 c n (Nat.lt_of_succ_lt hn)).2.2)

theorem outsAt0_A (c : Dev nD) (t : Fin cfg0.N) (h0 : t.val % 4 = 0) :
    outsAt0 V c t.val t.isLt = (at0_A V c (out0_A_7 c) t h0, at0_A V c (out0_A_8 c) t h0, at0_A V c (sout0_A_0 c) t h0) := by
  obtain ⟨n, hn⟩ := t
  cases n with
  | zero => exact rfl
  | succ n => exact (dif_pos h0).trans rfl

theorem outsAt0_B (c : Dev nD) (t : Fin cfg0.N) (h0 : ¬t.val % 4 = 0) :
    outsAt0 V c t.val t.isLt = (at0_B V c (out0_B_7 c) t h0 (outsAt0 V c (t.val - 1) (Nat.lt_of_le_of_lt (Nat.sub_le _ _) t.isLt)).2.2, at0_B V c (out0_B_8 c) t h0 (outsAt0 V c (t.val - 1) (Nat.lt_of_le_of_lt (Nat.sub_le _ _) t.isLt)).2.2, at0_B V c (sout0_B_0 c) t h0 (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

def PhiS0 (c : Dev nD) : (n : ℕ) → n ≤ cfg0.N → sProp 𝕄
  | 0, _ => Pipeline.ΦA spec0 c
  | n + 1, hn => iprop(iprop(iprop(owns (c : Thread nD τ) scM0_0 fullShare ((outsAt0 V c n hn).2.2)) ∗ Pipeline.scopedRestBut (Ix := Unit) (Name := ℕ) (U := UR sig nD τ) (Lvl := ℕ) (Val := Elt F) spec0 c [cc0_scratch0]) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(iprop(owns (c : Thread nD τ) scM0_0 fullShare ((outsAt0 V c n hn).2.2)) ∗ Pipeline.scopedRestBut (Ix := Unit) (Name := ℕ) (U := UR sig nD τ) (Lvl := ℕ) (Val := Elt F) spec0 c [cc0_scratch0]) ∗ (∃ r, prngReg c r)) := rfl

theorem PhiS0_pos (c : Dev nD) (n : ℕ) (h : n ≤ cfg0.N) (hz : n ≠ 0) :
    PhiS0 V c n h = iprop(iprop(iprop(owns (c : Thread nD τ) scM0_0 fullShare ((outsAt0 V c (n - 1) (by omega)).2.2)) ∗ Pipeline.scopedRestBut (Ix := Unit) (Name := ℕ) (U := UR sig nD τ) (Lvl := ℕ) (Val := Elt F) spec0 c [cc0_scratch0]) ∗ (∃ r, prngReg c r)) := by
  cases n with
  | zero => exact absurd rfl hz
  | succ n => rfl

-- Whatever the running sums hold, the invariant between two points gives back the region's own.
theorem PhiS0_any (c : Dev nD) : ∀ (n : ℕ) (h : n ≤ cfg0.N), PhiS0 V c n h ⊢ Pipeline.ΦA spec0 c
  | 0, _ => .rfl
  | n + 1, hn => by
    rw [PhiS0_succ, PhiA0_eq]
    iintro ⟨⟨HS0, Hrest⟩, Hg⟩
    isplitl [HS0 Hrest]
    · isplitl [HS0]
      · iexists _; iexact HS0
      iexact Hrest
    iexact Hg

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => (outsAt0 V c t.val t.isLt).1
    | ⟨8, _⟩ => (outsAt0 V c t.val t.isLt).2.1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = (outsAt0 V c t.val t.isLt).1 := by dsimp only [dat0]
theorem after0_8 (c : Dev nD) (t : Fin cfg0.N) : (dat0 V c).after 8 t = (outsAt0 V c t.val t.isLt).2.1 := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun _ => rfl) t d).trans rfl
theorem before0_1 (c : Dev nD) (t : Fin cfg0.N) (d) : (dat0 V c).before 1 t d = iblk0 V c 1 t :=
  ((dat0 V c).before_in_eq_fetched 1 rfl (fun _ => rfl) (fun _ _ _ => rfl) (fun _ => rfl) t d).trans rfl
theorem before0_2 (c : Dev nD) (t : Fin cfg0.N) (d) : (dat0 V c).before 2 t d = iblk0 V c 2 t :=
  ((dat0 V c).before_in_eq_fetched 2 rfl (fun _ => rfl) (fun _ _ _ => rfl) (fun _ => rfl) t d).trans rfl
theorem before0_3 (c : Dev nD) (t : Fin cfg0.N) (d) : (dat0 V c).before 3 t d = iblk0 V c 3 t :=
  ((dat0 V c).before_in_eq_fetched 3 rfl (fun _ => rfl) (fun _ _ _ => rfl) (fun _ => rfl) t d).trans rfl
theorem before0_4 (c : Dev nD) (t : Fin cfg0.N) (d) : (dat0 V c).before 4 t d = iblk0 V c 4 t :=
  ((dat0 V c).before_in_eq_fetched 4 rfl (fun _ => rfl) (fun _ _ _ => rfl) (fun _ => rfl) t d).trans rfl
theorem before0_5 (c : Dev nD) (t : Fin cfg0.N) (d) : (dat0 V c).before 5 t d = iblk0 V c 5 t :=
  ((dat0 V c).before_in_eq_fetched 5 rfl (fun _ => rfl) (fun _ _ _ => rfl) (fun _ => rfl) t d).trans rfl
theorem before0_6 (c : Dev nD) (t : Fin cfg0.N) (d) : (dat0 V c).before 6 t d = iblk0 V c 6 t :=
  ((dat0 V c).before_in_eq_fetched 6 rfl (fun _ => rfl) (fun _ _ _ => rfl) (fun _ => rfl) t d).trans rfl

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d)))

def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t)
    ∗ owns (c : Thread nD τ) (ms0_7 t) fullShare ((dat0 V c).after 7 t)
    ∗ owns (c : Thread nD τ) (ms0_8 t) fullShare ((dat0 V c).after 8 t))

-- One grid point meets its obligation: split on whether it opens a group.
set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).owesAt () t.succ = (dat0 V c).owesAt () t.castSucc from rfl]
  rw [show (dat0 V c).Φ t.succ = PhiS0 V c (t.val + 1) t.isLt from rfl, PhiS0_succ]
  rw [after0_0, after0_1, after0_2, after0_3, after0_4, after0_5, after0_6, after0_7, after0_8]
  by_cases h0 : t.val % 4 = 0
  · rw [outsAt0_A V c t h0]
    unfold at0_A out0_A_7 out0_A_8 sout0_A_0; (try dsimp only)
    rw [PhiS0_castSucc V c t]
    refine (sep_mono_left (PhiS0_any V c _ _)).trans ?_
    rw [PhiA0_eq]
    iintro ⟨⟨⟨HS0, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun0_A c (grid0.coords t) _ _ _ _ _ _ _ _ _ _ _ _ _ _ _ _ _ _ _ _ ((hcond0_0 t).mpr h0) (iblk0 V c 0 t) (iblk0 V c 1 t) (iblk0 V c 2 t) (iblk0 V c 3 t) (iblk0 V c 4 t) (iblk0 V c 5 t) (iblk0 V c 6 t)).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [HS0]; · iexact HS0
    iintro ⟨H0, H1, H2, H3, H4, H5, H6, ⟨%e7, H7⟩, ⟨%e8, H8⟩, ⟨%es0, HS0⟩⟩
    isplitl [HS0 Hrest Hg]
    · isplitl [HS0 Hrest]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; exact View.read_writes_of_cover _ _ _ _ _ (cover0_A_7 c _ _ _ _ _ _ _ _ _ _ _ _ _ _ _ _ _ _ _ _ _ _ _ _ _ _ _ _ _)
    unfold owns; iexists _; isplitr
    swap; · iexact H8
    ipureintro; exact View.read_writes_of_cover _ _ _ _ _ (cover0_A_8 c _ _ _ _ _ _ _ _ _ _ _ _ _ _ _ _ _ _ _ _ _ _ _ _ _ _ _ _ _)

  · rw [outsAt0_B V c t h0]
    unfold at0_B out0_B_7 out0_B_8 sout0_B_0; (try dsimp only)
    by_cases hz : t.val = 0
    · exfalso; rw [hz] at h0; exact h0 (Nat.zero_mod _)
    · rw [PhiS0_castSucc V c t, PhiS0_pos V c _ _ hz]
      iintro ⟨⟨⟨HS0, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_B c (grid0.coords t) _ _ _ _ _ _ _ _ _ _ _ _ _ _ _ _ _ _ _ _ (fun h => h0 ((hcond0_0 t).mp h)) (iblk0 V c 0 t) (iblk0 V c 1 t) (iblk0 V c 2 t) (iblk0 V c 3 t) (iblk0 V c 4 t) (iblk0 V c 5 t) (iblk0 V c 6 t) _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [HS0]; · iexact HS0
      iintro ⟨H0, H1, H2, H3, H4, H5, H6, ⟨%e7, H7⟩, ⟨%e8, H8⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; iexists _; isplitr
        swap; · iexact H7
        ipureintro; exact View.read_writes_of_cover _ _ _ _ _ (cover0_B_7 c _ _ _ _ _ _ _ _ _ _ _ _ _ _ _ _ _ _ _ _ _ _ _ _ _ _ _ _ _ _)
      unfold owns; iexists _; isplitr
      swap; · iexact H8
      ipureintro; exact View.read_writes_of_cover _ _ _ _ _ (cover0_B_8 c _ _ _ _ _ _ _ _ _ _ _ _ _ _ _ _ _ _ _ _ _ _ _ _ _ _ _ _ _ _)

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

theorem hout0 (c : Dev nD) : (dat0 V c).Φ (Fin.last cfg0.N) ⊢ Pipeline.ΦA spec0 c :=
  PhiS0_any V c _ (Nat.le_of_lt_succ (Fin.last cfg0.N).isLt)

end Region0

end Cert.Kernel.Hand

end
-- ==== Proof.K.R1.lean ====
import proofs.«145685_j29137058136127_1_alg».proof.Proof.Gen.Kernel.Launch
import proofs.«145685_j29137058136127_1_alg».proof.Proof.Gen.Kernel.Skeleton
import proofs.«145685_j29137058136127_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_a : Rect S1x1024x256 := Rect.unit (s := S1x1024x256) ![0, 0, 0] S1x1024x256.size inb_S1x1024x256_S1x1024x256_0_0_0
abbrev r1_b : Rect S1x256x256 := Rect.unit (s := S1x256x256) ![0, 0, 0] S1x256x256.size inb_S1x256x256_S1x256x256_0_0_0
abbrev r1_c : Rect S1024x256 := Rect.unit (s := S1024x256) ![0, 0] S1024x256.size inb_S1024x256_S1024x256_0_0
abbrev r1_d : Rect S1x1024 := Rect.unit (s := S1x1024) ![0, 0] S1x1024.size inb_S1x1024_S1x1024_0_0
abbrev r1_o : Rect S1x1024x1024 := Rect.unit (s := S1x1024x1024) ![0, 0, 0] S1x1024x1024.size inb_S1x1024x1024_S1x1024x1024_0_0_0

def out1_4 (x0 : Vec F S1x1024x256 .f32) (x1 : Vec F S1x256x256 .f32) (x2 : Vec F S1024x256 .f32) (x3 : Vec F S1x1024 .f32) : Vec F S1x1024x1024 .f32 :=
  View.canon [⟨r1_o, k1_pay1 (View.ld x0 r1_a) (View.ld x1 r1_b) (View.ld x2 r1_c) (View.ld x3 r1_d)⟩]

theorem cover1_4 (p0 : Vec F S1x1024x1024 .f32) (y : S1x1024x1024.Idx) :
    ∃ pc ∈ ([⟨r1_o, p0⟩] : List (View.Piece (Elt F) S1x1024x1024 .f32)), y ∈ pc.1.set :=
  View.cover_of_tiled [⟨r1_o, p0⟩] S1x1024x1024.size (by rfl) y

-- The body is one pure function of the blocks it loads: it runs safely and leaves that function's value in the output block.
set_option maxHeartbeats 1000000 in
theorem sound_kernel1 (c : Dev nD) (E : Set ℕ) (i : grid1.Coords)
    (arg2 : Memref sig .tc .vmem S1x1024x256 .f32) (harg2 : arg2.IsWhole) (arg3 : Memref sig .tc .vmem S1x256x256 .f32) (harg3 : arg3.IsWhole)
    (arg4 : Memref sig .tc .vmem S1024x256 .f32) (harg4 : arg4.IsWhole) (arg5 : Memref sig .tc .vmem S1x1024 .f32) (harg5 : arg5.IsWhole)
    (arg6 : Memref sig .tc .vmem S1x1024x1024 .f32) (harg6 : arg6.IsWhole)
    (x0 : Vec F S1x1024x256 .f32) (x1 : Vec F S1x256x256 .f32) (x2 : Vec F S1024x256 .f32) (x3 : Vec F S1x1024 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (out1_4 x0 x1 x2 x3)) -∗ K ⟨⟩))
      ⊢ wp frame (wpE (defs₀ (F := F)) Variants.none c none) E (cc1__k2_kernel i arg2 harg2 arg3 harg3 arg4 harg4 arg5 harg5 arg6 harg6) K := by
  simp only [cc1__k2_kernel_eq_skeleton]; unfold cc1__k2_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun _ => rfl) t d).trans rfl
theorem before1_1 (c : Dev nD) (t : Fin cfg1.N) (d) : (dat1 V c).before 1 t d = iblk1 V c 1 t :=
  ((dat1 V c).before_in_eq_fetched 1 rfl (fun _ => rfl) (fun _ _ _ => rfl) (fun _ => rfl) t d).trans rfl
theorem before1_2 (c : Dev nD) (t : Fin cfg1.N) (d) : (dat1 V c).before 2 t d = iblk1 V c 2 t :=
  ((dat1 V c).before_in_eq_fetched 2 rfl (fun _ => rfl) (fun _ _ _ => rfl) (fun _ => rfl) t d).trans rfl
theorem before1_3 (c : Dev nD) (t : Fin cfg1.N) (d) : (dat1 V c).before 3 t d = iblk1 V c 3 t :=
  ((dat1 V c).before_in_eq_fetched 3 rfl (fun _ => rfl) (fun _ _ _ => rfl) (fun _ => rfl) t d).trans rfl

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

-- One grid point meets its obligation; nothing is carried from point to point.
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation1 (c : Dev nD) : BodyObligation (dat1 (F := F) V c) (defs₀ (F := F)) Variants.none () Set.univ := fun t => by
  rw [bigSep_W1, bigSep_W1]
  exact sound_body1 V c t

end Region1

end Cert.Kernel.Hand

end
-- ==== Proof.K.R2.lean ====
import proofs.«145685_j29137058136127_1_alg».proof.Proof.Gen.Kernel.Launch
import proofs.«145685_j29137058136127_1_alg».proof.Proof.Gen.Kernel.Skeleton
import proofs.«145685_j29137058136127_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

universe u

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev cond2_0 (i : grid2.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1

theorem hcond2_0 : ∀ t : Fin cfg2.N, cond2_0 (grid2.coords t) ↔ t.val % 32 = 0 :=
  (by decide +kernel : ∀ t : Fin grid2.N, cond2_0 (grid2.coords t) ↔ t.val % 32 = 0)

abbrev VO2_1 : View sig .tc .vmem S1x1024 .f32 := (Memref.whole cc2_stg1_0 : Memref sig .tc .vmem S1x1024 .f32).view
abbrev VO2_2 : View sig .tc .vmem S1x1024 .f32 := (Memref.whole cc2_stg2_0 : Memref sig .tc .vmem S1x1024 .f32).view
abbrev ms2_0 (t : Fin cfg2.N) : Memref sig .tc .vmem S1x1024x1024 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1x1024 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x1024 .f32 := win2_2.stage (cfg2.slots t 2)
abbrev hs2_2 (t : Fin cfg2.N) : (ms2_2 t).IsWhole := hstage2_2 ((cfg2.slots t 2).cast nbuf2_2)
abbrev scM2_0 : Memref sig .tc .vmem S1x1024 .f32 := Memref.whole cc2_scratch0
abbrev VS2_0 : View sig .tc .vmem S1x1024 .f32 := scM2_0.view
abbrev scM2_1 : Memref sig .tc .vmem S1x1024 .f32 := Memref.whole cc2_scratch1
abbrev VS2_1 : View sig .tc .vmem S1x1024 .f32 := scM2_1.view

theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d)) ∗ Pipeline.scopedRestBut (Ix := Unit) (Name := ℕ) (U := UR sig nD τ) (Lvl := ℕ) (Val := Elt F) spec2 c [cc2_scratch0, cc2_scratch1]) ∗ (∃ r, prngReg c r)) := by
  unfold Pipeline.ΦA; rw [scopedRest2_split]; simp only [scM2_0, scM2_1, owns_whole]; try rfl

section
variable (c : Dev nD) (i : grid2.Coords) (arg2 : Memref sig .tc .vmem S1x1024x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole)

section
variable (hc0 : cond2_0 i) (x0 : Vec F S1x1024x1024 .f32)

-- The body on a grid point where the running sums restart: the pieces it writes, and that it runs safely to them.
set_option maxHeartbeats 4000000 in
noncomputable def kernelRun2_A :
    Σ' (L1 : List (View.Piece (Elt F) S1x1024 .f32)) (L2 : List (View.Piece (Elt F) S1x1024 .f32)) (LS0 : List (View.Piece (Elt F) S1x1024 .f32)), { LS1 : List (View.Piece (Elt F) S1x1024 .f32) //
      ∀ (E : Set ℕ) (K : PUnit → sProp 𝕄),
        iprop(owns (c : Thread nD τ) arg2 fullShare x0 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc2__kstats_kernel i arg2 harg2 arg3 harg3 arg4 harg4 arg5 harg5 arg6 harg6) K } := by
  refine ⟨?_, ?_, ?_, ?_, fun E K => ?run⟩
  case run =>
    simp only [cc2__kstats_kernel_eq_skeleton]; unfold cc2__kstats_kernel_skel
    unfold owns
    iintro ⟨⟨%f0, %hf0, H0⟩, ⟨%d1, %f1, -, H1⟩, ⟨%d2, %f2, -, H2⟩, ⟨%ds0, %fs0, -, HS0⟩, ⟨%ds1, %fs1, -, HS1⟩, Hk⟩
    obtain rfl := harg2.eq_unread hf0
    sl_exec (disch := first | exact hc0)
    sl_step
    iapply Hk
    isplitl [H0]
    · iexists _; isplitr; · ipureintro; exact harg2.read_unread _
      iexact H0
    isplitl [H1]; · iexists _; iexact H1
    isplitl [H2]; · iexists _; iexact H2
    isplitl [HS0]; · iexists _; iexact HS0
    iexists _; iexact HS1

theorem cover2_A_1 (y : S1x1024.Idx) :
    ∃ pc ∈ (kernelRun2_A c i arg2 harg2 arg3 harg3 arg4 harg4 arg5 harg5 arg6 harg6 hc0 x0).1, y ∈ pc.1.set :=
  View.cover_of_tiledL (kernelRun2_A c i arg2 harg2 arg3 harg3 arg4 harg4 arg5 harg5 arg6 harg6 hc0 x0).1 S1x1024.size (by sl_kernel_rfl) y

def out2_A_1 : Vec F S1x1024 .f32 :=
  VO2_1.read (Elt F) (VO2_1.writes (Elt F) VO2_1.junk (kernelRun2_A c i arg2 harg2 arg3 harg3 arg4 harg4 arg5 harg5 arg6 harg6 hc0 x0).1)

theorem cover2_A_2 (y : S1x1024.Idx) :
    ∃ pc ∈ (kernelRun2_A c i arg2 harg2 arg3 harg3 arg4 harg4 arg5 harg5 arg6 harg6 hc0 x0).2.1, y ∈ pc.1.set :=
  View.cover_of_tiledL (kernelRun2_A c i arg2 harg2 arg3 harg3 arg4 harg4 arg5 harg5 arg6 harg6 hc0 x0).2.1 S1x1024.size (by sl_kernel_rfl) y

def out2_A_2 : Vec F S1x1024 .f32 :=
  VO2_2.read (Elt F) (VO2_2.writes (Elt F) VO2_2.junk (kernelRun2_A c i arg2 harg2 arg3 harg3 arg4 harg4 arg5 harg5 arg6 harg6 hc0 x0).2.1)

theorem scover2_A_0 (y : S1x1024.Idx) :
    ∃ pc ∈ (kernelRun2_A c i arg2 harg2 arg3 harg3 arg4 harg4 arg5 harg5 arg6 harg6 hc0 x0).2.2.1, y ∈ pc.1.set :=
  View.cover_of_tiledL (kernelRun2_A c i arg2 harg2 arg3 harg3 arg4 harg4 arg5 harg5 arg6 harg6 hc0 x0).2.2.1 S1x1024.size (by sl_kernel_rfl) y

def sout2_A_0 : Vec F S1x1024 .f32 :=
  VS2_0.read (Elt F) (VS2_0.writes (Elt F) VS2_0.junk (kernelRun2_A c i arg2 harg2 arg3 harg3 arg4 harg4 arg5 harg5 arg6 harg6 hc0 x0).2.2.1)

theorem scover2_A_1 (y : S1x1024.Idx) :
    ∃ pc ∈ (kernelRun2_A c i arg2 harg2 arg3 harg3 arg4 harg4 arg5 harg5 arg6 harg6 hc0 x0).2.2.2.1, y ∈ pc.1.set :=
  View.cover_of_tiledL (kernelRun2_A c i arg2 harg2 arg3 harg3 arg4 harg4 arg5 harg5 arg6 harg6 hc0 x0).2.2.2.1 S1x1024.size (by sl_kernel_rfl) y

def sout2_A_1 : Vec F S1x1024 .f32 :=
  VS2_1.read (Elt F) (VS2_1.writes (Elt F) VS2_1.junk (kernelRun2_A c i arg2 harg2 arg3 harg3 arg4 harg4 arg5 harg5 arg6 harg6 hc0 x0).2.2.2.1)

end

section
variable (hc0 : ¬cond2_0 i) (x0 : Vec F S1x1024x1024 .f32) (xs0 : Vec F S1x1024 .f32) (xs1 : Vec F S1x1024 .f32)

-- The same on a grid point where the running sums continue from the point before.
set_option maxHeartbeats 4000000 in
noncomputable def kernelRun2_B :
    Σ' (L1 : List (View.Piece (Elt F) S1x1024 .f32)) (L2 : List (View.Piece (Elt F) S1x1024 .f32)) (LS0 : List (View.Piece (Elt F) S1x1024 .f32)), { LS1 : List (View.Piece (Elt F) S1x1024 .f32) //
      ∀ (E : Set ℕ) (K : PUnit → sProp 𝕄),
        iprop(owns (c : Thread nD τ) arg2 fullShare x0 ∗ (∃ d, owns (c : Thread nD τ) arg3 fullShare d) ∗ (∃ d, owns (c : Thread nD τ) arg4 fullShare d) ∗ owns (c : Thread nD τ) arg5 fullShare xs0 ∗ owns (c : Thread nD τ) arg6 fullShare xs1
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc2__kstats_kernel i arg2 harg2 arg3 harg3 arg4 harg4 arg5 harg5 arg6 harg6) K } := by
  refine ⟨?_, ?_, ?_, ?_, fun E K => ?run⟩
  case run =>
    simp only [cc2__kstats_kernel_eq_skeleton]; unfold cc2__kstats_kernel_skel
    unfold owns
    iintro ⟨⟨%f0, %hf0, H0⟩, ⟨%d1, %f1, -, H1⟩, ⟨%d2, %f2, -, H2⟩, ⟨%fs0, %hfs0, HS0⟩, ⟨%fs1, %hfs1, HS1⟩, Hk⟩
    obtain rfl := harg2.eq_unread hf0; obtain rfl := harg5.eq_unread hfs0; obtain rfl := harg6.eq_unread hfs1
    sl_exec (disch := first | exact hc0)
    sl_step
    iapply Hk
    isplitl [H0]
    · iexists _; isplitr; · ipureintro; exact harg2.read_unread _
      iexact H0
    isplitl [H1]; · iexists _; iexact H1
    isplitl [H2]; · iexists _; iexact H2
    isplitl [HS0]; · iexists _; iexact HS0
    iexists _; iexact HS1

theorem cover2_B_1 (y : S1x1024.Idx) :
    ∃ pc ∈ (kernelRun2_B c i arg2 harg2 arg3 harg3 arg4 harg4 arg5 harg5 arg6 harg6 hc0 x0 xs0 xs1).1, y ∈ pc.1.set :=
  View.cover_of_tiledL (kernelRun2_B c i arg2 harg2 arg3 harg3 arg4 harg4 arg5 harg5 arg6 harg6 hc0 x0 xs0 xs1).1 S1x1024.size (by sl_kernel_rfl) y

def out2_B_1 : Vec F S1x1024 .f32 :=
  VO2_1.read (Elt F) (VO2_1.writes (Elt F) VO2_1.junk (kernelRun2_B c i arg2 harg2 arg3 harg3 arg4 harg4 arg5 harg5 arg6 harg6 hc0 x0 xs0 xs1).1)

theorem cover2_B_2 (y : S1x1024.Idx) :
    ∃ pc ∈ (kernelRun2_B c i arg2 harg2 arg3 harg3 arg4 harg4 arg5 harg5 arg6 harg6 hc0 x0 xs0 xs1).2.1, y ∈ pc.1.set :=
  View.cover_of_tiledL (kernelRun2_B c i arg2 harg2 arg3 harg3 arg4 harg4 arg5 harg5 arg6 harg6 hc0 x0 xs0 xs1).2.1 S1x1024.size (by sl_kernel_rfl) y

def out2_B_2 : Vec F S1x1024 .f32 :=
  VO2_2.read (Elt F) (VO2_2.writes (Elt F) VO2_2.junk (kernelRun2_B c i arg2 harg2 arg3 harg3 arg4 harg4 arg5 harg5 arg6 harg6 hc0 x0 xs0 xs1).2.1)

theorem scover2_B_0 (y : S1x1024.Idx) :
    ∃ pc ∈ (kernelRun2_B c i arg2 harg2 arg3 harg3 arg4 harg4 arg5 harg5 arg6 harg6 hc0 x0 xs0 xs1).2.2.1, y ∈ pc.1.set :=
  View.cover_of_tiledL (kernelRun2_B c i arg2 harg2 arg3 harg3 arg4 harg4 arg5 harg5 arg6 harg6 hc0 x0 xs0 xs1).2.2.1 S1x1024.size (by sl_kernel_rfl) y

def sout2_B_0 : Vec F S1x1024 .f32 :=
  VS2_0.read (Elt F) (VS2_0.writes (Elt F) VS2_0.junk (kernelRun2_B c i arg2 harg2 arg3 harg3 arg4 harg4 arg5 harg5 arg6 harg6 hc0 x0 xs0 xs1).2.2.1)

theorem scover2_B_1 (y : S1x1024.Idx) :
    ∃ pc ∈ (kernelRun2_B c i arg2 harg2 arg3 harg3 arg4 harg4 arg5 harg5 arg6 harg6 hc0 x0 xs0 xs1).2.2.2.1, y ∈ pc.1.set :=
  View.cover_of_tiledL (kernelRun2_B c i arg2 harg2 arg3 harg3 arg4 harg4 arg5 harg5 arg6 harg6 hc0 x0 xs0 xs1).2.2.2.1 S1x1024.size (by sl_kernel_rfl) y

def sout2_B_1 : Vec F S1x1024 .f32 :=
  VS2_1.read (Elt F) (VS2_1.writes (Elt F) VS2_1.junk (kernelRun2_B c i arg2 harg2 arg3 harg3 arg4 harg4 arg5 harg5 arg6 harg6 hc0 x0 xs0 xs1).2.2.2.1)

end

end

-- `f` applied to everything grid point `t` determines, when `t` opens a group of 32 points.
abbrev at2_A {γ : ∀ (i : grid2.Coords) (arg2 : Memref sig .tc .vmem S1x1024x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (hc0 : cond2_0 i) (x0 : Vec F S1x1024x1024 .f32), Sort u} (c : Dev nD)
    (f : ∀ i arg2 harg2 arg3 harg3 arg4 harg4 arg5 harg5 arg6 harg6 hc0 x0, γ i arg2 harg2 arg3 harg3 arg4 harg4 arg5 harg5 arg6 harg6 hc0 x0) (t : Fin cfg2.N) (h0 : t.val % 32 = 0) :
    γ (grid2.coords t) (ms2_0 t) (hs2_0 t) (ms2_1 t) (hs2_1 t) (ms2_2 t) (hs2_2 t) scM2_0 (Memref.isWhole_whole _) scM2_1 (Memref.isWhole_whole _) ((hcond2_0 t).mpr h0) (iblk2 V c 0 t) :=
  f (grid2.coords t) (ms2_0 t) (hs2_0 t) (ms2_1 t) (hs2_1 t) (ms2_2 t) (hs2_2 t) scM2_0 (Memref.isWhole_whole _) scM2_1 (Memref.isWhole_whole _) ((hcond2_0 t).mpr h0) (iblk2 V c 0 t)

-- The same when `t` is inside a group.
abbrev at2_B {γ : ∀ (i : grid2.Coords) (arg2 : Memref sig .tc .vmem S1x1024x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (hc0 : ¬cond2_0 i) (x0 : Vec F S1x1024x1024 .f32), Sort u} (c : Dev nD)
    (f : ∀ i arg2 harg2 arg3 harg3 arg4 harg4 arg5 harg5 arg6 harg6 hc0 x0, γ i arg2 harg2 arg3 harg3 arg4 harg4 arg5 harg5 arg6 harg6 hc0 x0) (t : Fin cfg2.N) (h0 : ¬t.val % 32 = 0) :
    γ (grid2.coords t) (ms2_0 t) (hs2_0 t) (ms2_1 t) (hs2_1 t) (ms2_2 t) (hs2_2 t) scM2_0 (Memref.isWhole_whole _) scM2_1 (Memref.isWhole_whole _) (fun h => h0 ((hcond2_0 t).mp h)) (iblk2 V c 0 t) :=
  f (grid2.coords t) (ms2_0 t) (hs2_0 t) (ms2_1 t) (hs2_1 t) (ms2_2 t) (hs2_2 t) scM2_0 (Memref.isWhole_whole _) scM2_1 (Memref.isWhole_whole _) (fun h => h0 ((hcond2_0 t).mp h)) (iblk2 V c 0 t)

-- What the `n`-th grid point leaves: the outputs, then the running sums, by recursion on `n`.
def outsAt2 (c : Dev nD) : (n : ℕ) → n < cfg2.N → Vec F S1x1024 .f32 × Vec F S1x1024 .f32 × Vec F S1x1024 .f32 × Vec F S1x1024 .f32
  | 0, hn => (at2_A V c (out2_A_1 c) ⟨0, hn⟩ (Nat.zero_mod _), at2_A V c (out2_A_2 c) ⟨0, hn⟩ (Nat.zero_mod _), at2_A V c (sout2_A_0 c) ⟨0, hn⟩ (Nat.zero_mod _), at2_A V c (sout2_A_1 c) ⟨0, hn⟩ (Nat.zero_mod _))
  | n + 1, hn =>
    if h0 : (n + 1) % 32 = 0 then
      (at2_A V c (out2_A_1 c) ⟨n + 1, hn⟩ h0, at2_A V c (out2_A_2 c) ⟨n + 1, hn⟩ h0, at2_A V c (sout2_A_0 c) ⟨n + 1, hn⟩ h0, at2_A V c (sout2_A_1 c) ⟨n + 1, hn⟩ h0)
    else
      (at2_B V c (out2_B_1 c) ⟨n + 1, hn⟩ h0 (outsAt2 c n (Nat.lt_of_succ_lt hn)).2.2.1 (outsAt2 c n (Nat.lt_of_succ_lt hn)).2.2.2, at2_B V c (out2_B_2 c) ⟨n + 1, hn⟩ h0 (outsAt2 c n (Nat.lt_of_succ_lt hn)).2.2.1 (outsAt2 c n (Nat.lt_of_succ_lt hn)).2.2.2, at2_B V c (sout2_B_0 c) ⟨n + 1, hn⟩ h0 (outsAt2 c n (Nat.lt_of_succ_lt hn)).2.2.1 (outsAt2 c n (Nat.lt_of_succ_lt hn)).2.2.2, at2_B V c (sout2_B_1 c) ⟨n + 1, hn⟩ h0 (outsAt2 c n (Nat.lt_of_succ_lt hn)).2.2.1 (outsAt2 c n (Nat.lt_of_succ_lt hn)).2.2.2)

theorem outsAt2_A (c : Dev nD) (t : Fin cfg2.N) (h0 : t.val % 32 = 0) :
    outsAt2 V c t.val t.isLt = (at2_A V c (out2_A_1 c) t h0, at2_A V c (out2_A_2 c) t h0, at2_A V c (sout2_A_0 c) t h0, at2_A V c (sout2_A_1 c) t h0) := by
  obtain ⟨n, hn⟩ := t
  cases n with
  | zero => exact rfl
  | succ n => exact (dif_pos h0).trans rfl

theorem outsAt2_B (c : Dev nD) (t : Fin cfg2.N) (h0 : ¬t.val % 32 = 0) :
    outsAt2 V c t.val t.isLt = (at2_B V c (out2_B_1 c) t h0 (outsAt2 V c (t.val - 1) (Nat.lt_of_le_of_lt (Nat.sub_le _ _) t.isLt)).2.2.1 (outsAt2 V c (t.val - 1) (Nat.lt_of_le_of_lt (Nat.sub_le _ _) t.isLt)).2.2.2, at2_B V c (out2_B_2 c) t h0 (outsAt2 V c (t.val - 1) (Nat.lt_of_le_of_lt (Nat.sub_le _ _) t.isLt)).2.2.1 (outsAt2 V c (t.val - 1) (Nat.lt_of_le_of_lt (Nat.sub_le _ _) t.isLt)).2.2.2, at2_B V c (sout2_B_0 c) t h0 (outsAt2 V c (t.val - 1) (Nat.lt_of_le_of_lt (Nat.sub_le _ _) t.isLt)).2.2.1 (outsAt2 V c (t.val - 1) (Nat.lt_of_le_of_lt (Nat.sub_le _ _) t.isLt)).2.2.2, at2_B V c (sout2_B_1 c) t h0 (outsAt2 V c (t.val - 1) (Nat.lt_of_le_of_lt (Nat.sub_le _ _) t.isLt)).2.2.1 (outsAt2 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans rfl

def PhiS2 (c : Dev nD) : (n : ℕ) → n ≤ cfg2.N → sProp 𝕄
  | 0, _ => Pipeline.ΦA spec2 c
  | n + 1, hn => iprop(iprop(iprop(owns (c : Thread nD τ) scM2_0 fullShare ((outsAt2 V c n hn).2.2.1) ∗ owns (c : Thread nD τ) scM2_1 fullShare ((outsAt2 V c n hn).2.2.2)) ∗ Pipeline.scopedRestBut (Ix := Unit) (Name := ℕ) (U := UR sig nD τ) (Lvl := ℕ) (Val := Elt F) spec2 c [cc2_scratch0, cc2_scratch1]) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(iprop(owns (c : Thread nD τ) scM2_0 fullShare ((outsAt2 V c n hn).2.2.1) ∗ owns (c : Thread nD τ) scM2_1 fullShare ((outsAt2 V c n hn).2.2.2)) ∗ Pipeline.scopedRestBut (Ix := Unit) (Name := ℕ) (U := UR sig nD τ) (Lvl := ℕ) (Val := Elt F) spec2 c [cc2_scratch0, cc2_scratch1]) ∗ (∃ r, prngReg c r)) := rfl

theorem PhiS2_pos (c : Dev nD) (n : ℕ) (h : n ≤ cfg2.N) (hz : n ≠ 0) :
    PhiS2 V c n h = iprop(iprop(iprop(owns (c : Thread nD τ) scM2_0 fullShare ((outsAt2 V c (n - 1) (by omega)).2.2.1) ∗ owns (c : Thread nD τ) scM2_1 fullShare ((outsAt2 V c (n - 1) (by omega)).2.2.2)) ∗ Pipeline.scopedRestBut (Ix := Unit) (Name := ℕ) (U := UR sig nD τ) (Lvl := ℕ) (Val := Elt F) spec2 c [cc2_scratch0, cc2_scratch1]) ∗ (∃ r, prngReg c r)) := by
  cases n with
  | zero => exact absurd rfl hz
  | succ n => rfl

-- Whatever the running sums hold, the invariant between two points gives back the region's own.
theorem PhiS2_any (c : Dev nD) : ∀ (n : ℕ) (h : n ≤ cfg2.N), PhiS2 V c n h ⊢ Pipeline.ΦA spec2 c
  | 0, _ => .rfl
  | n + 1, hn => by
    rw [PhiS2_succ, PhiA2_eq]
    iintro ⟨⟨⟨HS0, HS1⟩, Hrest⟩, Hg⟩
    isplitl [HS0 HS1 Hrest]
    · isplitl [HS0 HS1]
      · isplitl [HS0]; · iexists _; iexact HS0
        iexists _; iexact HS1
      iexact Hrest
    iexact Hg

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => (outsAt2 V c t.val t.isLt).1
    | ⟨2, _⟩ => (outsAt2 V c t.val t.isLt).2.1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = (outsAt2 V c t.val t.isLt).1 := by dsimp only [dat2]
theorem after2_2 (c : Dev nD) (t : Fin cfg2.N) : (dat2 V c).after 2 t = (outsAt2 V c t.val t.isLt).2.1 := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl) (fun _ => rfl) t d).trans rfl

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t))

-- One grid point meets its obligation: split on whether it opens a group.
set_option maxHeartbeats 4800000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0]
  rw [show (dat2 V c).owesAt () t.succ = (dat2 V c).owesAt () t.castSucc from rfl]
  rw [show (dat2 V c).Φ t.succ = PhiS2 V c (t.val + 1) t.isLt from rfl, PhiS2_succ]
  rw [after2_0, after2_1, after2_2]
  by_cases h0 : t.val % 32 = 0
  · rw [outsAt2_A V c t h0]
    unfold at2_A out2_A_1 out2_A_2 sout2_A_0 sout2_A_1; (try dsimp only)
    rw [PhiS2_castSucc V c t]
    refine (sep_mono_left (PhiS2_any V c _ _)).trans ?_
    rw [PhiA2_eq]
    iintro ⟨⟨⟨⟨HS0, HS1⟩, Hrest⟩, Hg⟩, Ho, ⟨%d0, H0⟩, ⟨%d1, H1⟩, ⟨%d2, H2⟩⟩
    iapply ((kernelRun2_A c (grid2.coords t) _ _ _ _ _ _ _ _ _ _ ((hcond2_0 t).mpr h0) (iblk2 V c 0 t)).2.2.2.2 Set.univ _)
    isplitl [H0]; · iexact H0
    isplitl [H1]; · iexists _; iexact H1
    isplitl [H2]; · iexists _; iexact H2
    isplitl [HS0]; · iexact HS0
    isplitl [HS1]; · iexact HS1
    iintro ⟨H0, ⟨%e1, H1⟩, ⟨%e2, H2⟩, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_of_cover _ _ _ _ _ (scover2_A_0 c _ _ _ _ _ _ _ _ _ _ _ _ _)
          unfold owns; iexists _; isplitr
          swap; · iexact HS1
          ipureintro; exact View.read_writes_of_cover _ _ _ _ _ (scover2_A_1 c _ _ _ _ _ _ _ _ _ _ _ _ _)
        iexact Hrest
      iexact Hg
    isplitl [Ho]; · iexact Ho
    isplitl [H0]; · iexact H0
    isplitl [H1]
    · unfold owns; iexists _; isplitr
      swap; · iexact H1
      ipureintro; exact View.read_writes_of_cover _ _ _ _ _ (cover2_A_1 c _ _ _ _ _ _ _ _ _ _ _ _ _)
    unfold owns; iexists _; isplitr
    swap; · iexact H2
    ipureintro; exact View.read_writes_of_cover _ _ _ _ _ (cover2_A_2 c _ _ _ _ _ _ _ _ _ _ _ _ _)

  · rw [outsAt2_B V c t h0]
    unfold at2_B out2_B_1 out2_B_2 sout2_B_0 sout2_B_1; (try dsimp only)
    by_cases hz : t.val = 0
    · exfalso; rw [hz] at h0; exact h0 (Nat.zero_mod _)
    · rw [PhiS2_castSucc V c t, PhiS2_pos V c _ _ hz]
      iintro ⟨⟨⟨⟨HS0, HS1⟩, Hrest⟩, Hg⟩, Ho, ⟨%d0, H0⟩, ⟨%d1, H1⟩, ⟨%d2, H2⟩⟩
      iapply ((kernelRun2_B c (grid2.coords t) _ _ _ _ _ _ _ _ _ _ (fun h => h0 ((hcond2_0 t).mp h)) (iblk2 V c 0 t) _ _).2.2.2.2 Set.univ _)
      isplitl [H0]; · iexact H0
      isplitl [H1]; · iexists _; iexact H1
      isplitl [H2]; · iexists _; iexact H2
      isplitl [HS0]; · iexact HS0
      isplitl [HS1]; · iexact HS1
      iintro ⟨H0, ⟨%e1, H1⟩, ⟨%e2, H2⟩, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover2_B_0 c _ _ _ _ _ _ _ _ _ _ _ _ _ _ _)
            unfold owns; iexists _; isplitr
            swap; · iexact HS1
            ipureintro; exact View.read_writes_of_cover _ _ _ _ _ (scover2_B_1 c _ _ _ _ _ _ _ _ _ _ _ _ _ _ _)
          iexact Hrest
        iexact Hg
      isplitl [Ho]; · iexact Ho
      isplitl [H0]; · iexact H0
      isplitl [H1]
      · unfold owns; iexists _; isplitr
        swap; · iexact H1
        ipureintro; exact View.read_writes_of_cover _ _ _ _ _ (cover2_B_1 c _ _ _ _ _ _ _ _ _ _ _ _ _ _ _)
      unfold owns; iexists _; isplitr
      swap; · iexact H2
      ipureintro; exact View.read_writes_of_cover _ _ _ _ _ (cover2_B_2 c _ _ _ _ _ _ _ _ _ _ _ _ _ _ _)

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

theorem hout2 (c : Dev nD) : (dat2 V c).Φ (Fin.last cfg2.N) ⊢ Pipeline.ΦA spec2 c :=
  PhiS2_any V c _ (Nat.le_of_lt_succ (Fin.last cfg2.N).isLt)

end Region2

end Cert.Kernel.Hand

end
-- ==== Proof.K.R3.lean ====
import proofs.«145685_j29137058136127_1_alg».proof.Proof.Gen.Kernel.Launch
import proofs.«145685_j29137058136127_1_alg».proof.Proof.Gen.Kernel.Skeleton
import proofs.«145685_j29137058136127_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region3

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_0 : Rect S1x1024x1024 := Rect.unit (s := S1x1024x1024) ![0, 0, 0] S1x1024x1024.size inb_S1x1024x1024_S1x1024x1024_0_0_0
abbrev r3_1 : Rect S1x1024x1024 := Rect.unit (s := S1x1024x1024) ![0, 0, 0] S1x1024x1024.size inb_S1x1024x1024_S1x1024x1024_0_0_0
abbrev r3_2 : Rect S1x1024 := Rect.unit (s := S1x1024) ![0, 0] S1x1024.size inb_S1x1024_S1x1024_0_0
abbrev r3_3 : Rect S1x1024 := Rect.unit (s := S1x1024) ![0, 0] S1x1024.size inb_S1x1024_S1x1024_0_0
abbrev r3_4 : Rect S1x1024 := Rect.unit (s := S1x1024) ![0, 0] S1x1024.size inb_S1x1024_S1x1024_0_0
abbrev r3_5 : Rect S1x1024 := Rect.unit (s := S1x1024) ![0, 0] S1x1024.size inb_S1x1024_S1x1024_0_0
abbrev r3_6 : Rect S1x1024x1024 := Rect.unit (s := S1x1024x1024) ![0, 0, 0] S1x1024x1024.size inb_S1x1024x1024_S1x1024x1024_0_0_0

def out3_6 (x0 : Vec F S1x1024x1024 .f32) (x1 : Vec F S1x1024x1024 .f32) (x2 : Vec F S1x1024 .f32) (x3 : Vec F S1x1024 .f32) (x4 : Vec F S1x1024 .f32) (x5 : Vec F S1x1024 .f32) : Vec F S1x1024x1024 .f32 :=
  View.canon [⟨r3_6, k3_pay1 (View.ld x0 r3_0) (View.ld x1 r3_1) (View.ld x2 r3_2) (View.ld x3 r3_3) (View.ld x4 r3_4) (View.ld x5 r3_5)⟩]

theorem cover3_6 (p0 : Vec F S1x1024x1024 .f32) (y : S1x1024x1024.Idx) :
    ∃ pc ∈ ([⟨r3_6, p0⟩] : List (View.Piece (Elt F) S1x1024x1024 .f32)), y ∈ pc.1.set :=
  View.cover_of_tiled [⟨r3_6, p0⟩] S1x1024x1024.size (by rfl) y

-- The body is one pure function of the blocks it loads: it runs safely and leaves that function's value in the output block.
set_option maxHeartbeats 1000000 in
theorem sound_kernel3 (c : Dev nD) (E : Set ℕ) (i : grid3.Coords)
    (arg2 : Memref sig .tc .vmem S1x1024x1024 .f32) (harg2 : arg2.IsWhole) (arg3 : Memref sig .tc .vmem S1x1024x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024x1024 .f32) (harg8 : arg8.IsWhole)
    (x0 : Vec F S1x1024x1024 .f32) (x1 : Vec F S1x1024x1024 .f32) (x2 : Vec F S1x1024 .f32) (x3 : Vec F S1x1024 .f32) (x4 : Vec F S1x1024 .f32) (x5 : Vec F S1x1024 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (out3_6 x0 x1 x2 x3 x4 x5)) -∗ K ⟨⟩))
      ⊢ wp frame (wpE (defs₀ (F := F)) Variants.none c none) E (cc3__k3_kernel i arg2 harg2 arg3 harg3 arg4 harg4 arg5 harg5 arg6 harg6 arg7 harg7 arg8 harg8) K := by
  simp only [cc3__k3_kernel_eq_skeleton]; unfold cc3__k3_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover3_6 _)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => out3_6 (iblk3 V c 0 t) (iblk3 V c 1 t) (iblk3 V c 2 t) (iblk3 V c 3 t) (iblk3 V c 4 t) (iblk3 V c 5 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) :
    (dat3 V c).after 6 t = out3_6 (iblk3 V c 0 t) (iblk3 V c 1 t) (iblk3 V c 2 t) (iblk3 V c 3 t) (iblk3 V c 4 t) (iblk3 V c 5 t) := by dsimp only [dat3]

theorem before3_0 (c : Dev nD) (t : Fin cfg3.N) (d) : (dat3 V c).before 0 t d = iblk3 V c 0 t :=
  ((dat3 V c).before_in_eq_fetched 0 rfl (fun _ => rfl) (fun _ _ _ => rfl) (fun _ => rfl) t d).trans rfl
theorem before3_1 (c : Dev nD) (t : Fin cfg3.N) (d) : (dat3 V c).before 1 t d = iblk3 V c 1 t :=
  ((dat3 V c).before_in_eq_fetched 1 rfl (fun _ => rfl) (fun _ _ _ => rfl) (fun _ => rfl) t d).trans rfl
theorem before3_2 (c : Dev nD) (t : Fin cfg3.N) (d) : (dat3 V c).before 2 t d = iblk3 V c 2 t :=
  ((dat3 V c).before_in_eq_fetched 2 rfl (fun _ => rfl) (fun _ _ _ => rfl) (fun _ => rfl) t d).trans rfl
theorem before3_3 (c : Dev nD) (t : Fin cfg3.N) (d) : (dat3 V c).before 3 t d = iblk3 V c 3 t :=
  ((dat3 V c).before_in_eq_fetched 3 rfl (fun _ => rfl) (fun _ _ _ => rfl) (fun _ => rfl) t d).trans rfl
theorem before3_4 (c : Dev nD) (t : Fin cfg3.N) (d) : (dat3 V c).before 4 t d = iblk3 V c 4 t :=
  ((dat3 V c).before_in_eq_fetched 4 rfl (fun _ => rfl) (fun _ _ _ => rfl) (fun _ => rfl) t d).trans rfl
theorem before3_5 (c : Dev nD) (t : Fin cfg3.N) (d) : (dat3 V c).before 5 t d = iblk3 V c 5 t :=
  ((dat3 V c).before_in_eq_fetched 5 rfl (fun _ => rfl) (fun _ _ _ => rfl) (fun _ => rfl) t d).trans rfl

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t))

-- One grid point meets its obligation; nothing is carried from point to point.
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel3 c Set.univ _ _ _ _ _ _ _ _ _ _ _ _ _ _ _ (iblk3 V c 0 t) (iblk3 V c 1 t) (iblk3 V c 2 t) (iblk3 V c 3 t) (iblk3 V c 4 t) (iblk3 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation3 (c : Dev nD) : BodyObligation (dat3 (F := F) V c) (defs₀ (F := F)) Variants.none () Set.univ := fun t => by
  rw [bigSep_W3, bigSep_W3]
  exact sound_body3 V c t

end Region3

end Cert.Kernel.Hand

end
-- ==== Proof.K.Run.lean ====
import proofs.«145685_j29137058136127_1_alg».proof.Proof.K.R0
import proofs.«145685_j29137058136127_1_alg».proof.Proof.K.R1
import proofs.«145685_j29137058136127_1_alg».proof.Proof.K.R2
import proofs.«145685_j29137058136127_1_alg».proof.Proof.K.R3
import proofs.«145685_j29137058136127_1_alg».proof.Proof.Gen.Kernel.Regions

set_option backward.isDefEq.respectTransparency.types false

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)

variable {F : FTy → Type} [FloatOps F]

local notation "𝕄" => MT nD τ sig Unit (Elt F) ℕ (UR sig nD τ) ℕ

section
variable {cfg : Cfg sig Λ₀} {c : Dev nD} (d : Dat τ (Elt F) Unit ℕ (UR sig nD τ) ℕ cfg c) (V : Valuation τ sig (Elt F))

/-- `V` updated at the arrays with the data's last contents. -/
def exitV : Valuation τ sig (Elt F) := Pipeline.withArrays cfg.spec c V fun w => d.arrAt w cfg.N

theorem exitV_arr (hinj : Function.Injective (Pipeline.arrRef cfg.spec)) (w : Fin cfg.W) :
    exitV d V (Proc.devRef .tc (Pipeline.arrRef cfg.spec w)) = d.arrAt w cfg.N := Pipeline.withArrays_arr _ hinj c _ _ w

/-- Off the output arrays the update is the identity: an input array's contents do not depend on the point. -/
theorem exitV_keep (hinj : Function.Injective (Pipeline.arrRef cfg.spec))
    (hA : ∀ w, d.A w = V (Proc.devRef .tc (Pipeline.arrRef cfg.spec w))) (b : Ref sig .tc)
    (hb : ∀ w, (cfg.win w).isOut = true → Pipeline.arrRef cfg.spec w ≠ b) : exitV d V (Proc.devRef .tc b) = V (Proc.devRef .tc b) := by
  by_cases h : ∃ w, Pipeline.arrRef cfg.spec w = b
  · obtain ⟨w, rfl⟩ := h
    exact (exitV_arr d V hinj w).trans ((d.arrAt_in w (Bool.eq_false_iff.2 fun hh => hb w hh rfl) _).trans (hA w))
  · exact Pipeline.withArrays_of_ne _ c _ _ b fun w e => h ⟨w, e⟩
end

variable (m : (ℓ : Loc nD τ sig) → Buf (Elt F) ℓ)

abbrev toV (W : Dev nD → Valuation τ sig (Elt F)) (c : Dev nD) (b : Ref sig .tc) : Buf (Elt F) ((c : Thread nD τ).loc b) := W c b

abbrev W0 : Dev nD → Valuation τ sig (Elt F) := fun c b => m (c, b)
abbrev W1 : Dev nD → Valuation τ sig (Elt F) := fun c => StableHlo.after hostOps0 (W0 m c)
abbrev V1 := toV (W1 m)
def W2 (c : Dev nD) : Valuation τ sig (Elt F) := exitV (dat0 (V1 m) c) (W1 m c)
abbrev V2 := toV (W2 m)
def W3 (c : Dev nD) : Valuation τ sig (Elt F) := exitV (dat1 (V2 m) c) (W2 m c)
abbrev V3 := toV (W3 m)
def W4 (c : Dev nD) : Valuation τ sig (Elt F) := exitV (dat2 (V3 m) c) (W3 m c)
abbrev W5 : Dev nD → Valuation τ sig (Elt F) := fun c => StableHlo.after hostOps3 (W4 m c)
abbrev V5 := toV (W5 m)
def W6 (c : Dev nD) : Valuation τ sig (Elt F) := exitV (dat3 (V5 m) c) (W5 m c)

theorem W2_arr (c : Dev nD) (w : Fin cfg0.W) :
    W2 m c (Proc.devRef .tc (Pipeline.arrRef spec0 w)) = (dat0 (V1 m) c).arrAt w cfg0.N :=
  exitV_arr _ _ launch0.win.arr_inj w
theorem W3_arr (c : Dev nD) (w : Fin cfg1.W) :
    W3 m c (Proc.devRef .tc (Pipeline.arrRef spec1 w)) = (dat1 (V2 m) c).arrAt w cfg1.N :=
  exitV_arr _ _ launch1.win.arr_inj w
theorem W4_arr (c : Dev nD) (w : Fin cfg2.W) :
    W4 m c (Proc.devRef .tc (Pipeline.arrRef spec2 w)) = (dat2 (V3 m) c).arrAt w cfg2.N :=
  exitV_arr _ _ launch2.win.arr_inj w

theorem W1_keep (c : Dev nD) (r : Ref sig .tc) (h : r ∉ hostOps0_W) : W1 m c (Proc.devRef .tc r) = W0 m c (Proc.devRef .tc r) :=
  StableHlo.after_of_writes_sub hostOps0 _ hostOps0_writes h
theorem W2_keep (c : Dev nD) (b : Ref sig .tc) (hb : ∀ w, (cfg0.win w).isOut = true → Pipeline.arrRef spec0 w ≠ b) :
    W2 m c (Proc.devRef .tc b) = W1 m c (Proc.devRef .tc b) :=
  exitV_keep _ _ launch0.win.arr_inj (A_eq0 (V1 m) c) b hb
theorem W3_keep (c : Dev nD) (b : Ref sig .tc) (hb : ∀ w, (cfg1.win w).isOut = true → Pipeline.arrRef spec1 w ≠ b) :
    W3 m c (Proc.devRef .tc b) = W2 m c (Proc.devRef .tc b) :=
  exitV_keep _ _ launch1.win.arr_inj (A_eq1 (V2 m) c) b hb
theorem W4_keep (c : Dev nD) (b : Ref sig .tc) (hb : ∀ w, (cfg2.win w).isOut = true → Pipeline.arrRef spec2 w ≠ b) :
    W4 m c (Proc.devRef .tc b) = W3 m c (Proc.devRef .tc b) :=
  exitV_keep _ _ launch2.win.arr_inj (A_eq2 (V3 m) c) b hb
theorem W5_keep (c : Dev nD) (r : Ref sig .tc) (h : r ∉ hostOps3_W) : W5 m c (Proc.devRef .tc r) = W4 m c (Proc.devRef .tc r) :=
  StableHlo.after_of_writes_sub hostOps3 _ hostOps3_writes h
theorem W6_keep (c : Dev nD) (b : Ref sig .tc) (hb : ∀ w, (cfg3.win w).isOut = true → Pipeline.arrRef spec3 w ≠ b) :
    W6 m c (Proc.devRef .tc b) = W5 m c (Proc.devRef .tc b) :=
  exitV_keep _ _ launch3.win.arr_inj (A_eq3 (V5 m) c) b hb

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The six identities composed, at a reference none of the six updates changes. -/
theorem ends {s : MemSt nD τ sig (Elt F)} {c : Dev nD} (h : ∀ b ∈ Pipeline.ucRefs τ sig, s.mem (((c : Thread nD τ)).1, b) = W6 m c b) (b : Ref sig .tc)
    (hb : ¬ (Proc.devRef .tc b : DevRef τ sig).isScoped ∧ b ∉ hostOps0_W ∧ b ∉ hostOps3_W
      ∧ (∀ w, (cfg0.win w).isOut = true → Pipeline.arrRef spec0 w ≠ b) ∧ (∀ w, (cfg1.win w).isOut = true → Pipeline.arrRef spec1 w ≠ b)
      ∧ (∀ w, (cfg2.win w).isOut = true → Pipeline.arrRef spec2 w ≠ b) ∧ ∀ w, (cfg3.win w).isOut = true → Pipeline.arrRef spec3 w ≠ b) :
    s.mem ((c.tc : Thread nD τ).loc b) = m ((c.tc : Thread nD τ).loc b) := by
  obtain ⟨hs, h0, h3, k0, k1, k2, k3⟩ := hb
  exact (h _ (mem_uc b hs)).trans <| (W6_keep m c b k3).trans <| (W5_keep m c b h3).trans <| (W4_keep m c b k2).trans <|
    (W3_keep m c b k1).trans <| (W2_keep m c b k0).trans <| (W1_keep m c b h0).trans rfl

def pdats : (p : Fin 4) → (c : Dev nD) → Dat τ (Elt F) Unit ℕ (UR sig nD τ) ℕ (cfgs p) c
  | ⟨0, _⟩ => dat0 (V1 m)
  | ⟨1, _⟩ => dat1 (V2 m)
  | ⟨2, _⟩ => dat2 (V3 m)
  | ⟨3, _⟩ => dat3 (V5 m)
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev T (W : Dev nD → Valuation τ sig (Elt F)) (c : Dev nD) : sProp 𝕄 :=
  iprop(StableHlo.held (c : Thread nD τ) (Pipeline.ucRefs τ sig) (W c) ∗ R c)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- The segment record of pipeline `p` from the state at `V` to the state at `V` updated at its arrays. -/
def reg {p : Fin 4} (la : Pipeline.LaunchFacts (nD := nD) (τ := τ) cfgs p) (V : Dev nD → Valuation τ sig (Elt F))
    (hbody : ∀ c, BodyObligation (pdats m p c) (defs₀ (F := F)) 𝒱₀ () Set.univ)
    (hq : ∀ c w, (pdats m p c).q w = fullShare)
    (hA : ∀ c w, (pdats m p c).A w = V c (Proc.devRef .tc (Pipeline.arrRef (cfgs p).spec w)))
    (h0 : ∀ c t, (pdats m p c).owed t = 0) (hr : ∀ c, (pdats m p c).recorded 0 = Set.univ)
    (hi : ∀ c, Pipeline.ΦA (cfgs p).spec c ⊢ (pdats m p c).Φ 0)
    (ho : ∀ c, (pdats m p c).Φ (Fin.last _) ⊢ Pipeline.ΦA (cfgs p).spec c) :
    Pipeline.RegionSeg (pcfgs (F := F)) adm (pdats m) () defs₀ 𝒱₀ L lv p where
  win := la.win.to₀
  block_pos := la.block_pos
  stage_whole := la.stage_whole
  K := PEmpty
  osem k := k.elim
  ho := Pipeline.OwnSemFacts.none _
  hbody c := (hbody c).loose
  hwaits := Pipeline.hwaits_of_owed_zero _ _ _ _ L lv p h0
  pre := T V
  post := T fun c => exitV (pdats m p c) (V c)
  X c := iprop(∃ r, prngReg c r)
  Y c := iprop(∃ r, prngReg c r)
  Z c := Pipeline.unscopedRest (Ix := Unit) (Name := ℕ) (U := UR sig nD τ) (Lvl := ℕ) (cfgs p).spec c fun b => V c b
  hentry c := by
    rw [Pipeline.ownSems0_none]
    have hs := Pipeline.arrays_of_unscopedBufs (p := p) (pcfgs (F := F)) adm (pdats m) la.win la.arr_whole c
      ((pdats m p c).share_full (hq c)) (fun b => V c b) (hA c)
    rw [Pipeline.unscopedBufs_held] at hs
    iintro ⟨⟨Hub, Hp, HO⟩, -, -⟩
    ihave H := hs $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [h0 c]
      icases HO with ⟨%W, HO⟩; iexists W; isplitr; · ipureintro; exact fun x _ => Or.inl (hr c ▸ Set.mem_univ x)
      iexact HO
    isplitl [Hp] <;> iassumption
  hin c := by
    refine .trans ?_ (hi c); unfold Pipeline.ΦA
    iintro ⟨Hp, -, Hr⟩
    isplitl [Hr] <;> iassumption
  hout c := by
    refine (ho c).trans ?_; rw [Pipeline.ownSems0_none]; unfold Pipeline.ΦA
    iintro ⟨Hr, Hp⟩
    isplitl [Hp]; · iexact Hp
    isplitr; · iempintro
    iexact Hr
  hexit c := by
    have hj := Pipeline.unscopedBufs_of_arrays (p := p) (pcfgs (F := F)) adm (Ix := Unit) (Name := ℕ) (U := UR sig nD τ) (Lvl := ℕ)
      la.win la.arr_whole c (pdats m) ((pdats m p c).share_full (hq c))
      (fun b => V c b) (fun b => exitV (pdats m p c) (V c) b) ((pdats m p c).arrAt · (cfgs p).N)
      (fun w => (exitV_arr _ _ la.win.arr_inj w).symm)
      fun b hb => Pipeline.withArrays_of_ne _ c _ _ b fun w e => hb (Finset.mem_image.mpr ⟨w, Finset.mem_univ _, e⟩)
    rw [Pipeline.unscopedBufs_held] at hj
    iintro ⟨Ha, HO, HY, Hrest⟩
    imodintro
    isplitl [Ha Hrest]
    · iapply hj; isplitl [Ha] <;> iassumption
    isplitl [HY]; · iexact HY
    unfold Pipeline.Dat.owesAt Pipeline.owesWithin
    rw [h0 c]
    icases HO with ⟨%W, -, HO⟩; iexists W; iexact HO

abbrev segs : List (Pipeline.Seg (pcfgs (F := F)) adm (pdats m) () defs₀ 𝒱₀ L lv) :=
  [ .host (hseg hostOps0 hostOps0_sub hostOps0_fresh (W0 m)),
    .region (reg m launch0 (W1 m) (body_obligation0 (V1 m)) (fun _ _ => rfl) (fun _ _ => rfl) (fun _ _ => rfl) (fun _ => rfl) (hin0 (V1 m)) (hout0 (V1 m))),
    .region (reg m launch1 (W2 m) (body_obligation1 (V2 m)) (fun _ _ => rfl) (fun _ _ => rfl) (fun _ _ => rfl) (fun _ => rfl) (fun _ => .rfl) fun _ => .rfl),
    .region (reg m launch2 (W3 m) (body_obligation2 (V3 m)) (fun _ _ => rfl) (fun _ _ => rfl) (fun _ _ => rfl) (fun _ => rfl) (hin2 (V3 m)) (hout2 (V3 m))),
    .host (hseg hostOps3 hostOps3_sub hostOps3_fresh (W4 m)),
    .region (reg m launch3 (W5 m) (body_obligation3 (V5 m)) (fun _ _ => rfl) (fun _ _ => rfl) (fun _ _ => rfl) (fun _ => rfl) (fun _ => .rfl) fun _ => .rfl) ]
theorem main_run (c : Dev nD) : main (F := F) c = Pipeline.Seg.run (segs m) := (main_chain c).trans (by chain_rfl)

theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W6 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => BI.emp)
    (u₀ := initOf (Pipeline.cells cfgs cellOf_inj) (Pipeline.launchToks cfgs cellOf_inj))
    (hu₀ := by rw [BI.bigSep_emp_const]; exact sep_emp.mpr.trans fupd_intro)
    (T₀ := T (W0 m)) (Tₙ := fun c => iprop(StableHlo.held (c : Thread nD τ) (Pipeline.ucRefs τ sig) (W6 m c) ∗ ∃ r, prngReg c r))
    (hch := ⟨fun _ => .rfl, fun _ => .rfl, fun _ => .rfl, fun _ => .rfl, fun _ => .rfl, fun _ => .rfl, fun _ => sep_assoc.mpr⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h => h)

theorem run_value (ρ : Dev nD → PrngReg) : θ_run defs (onTc (τ := τ) (main (F := F))) ⟨m, fun _ => 0, ρ⟩ (fun r => ∀ c : Dev nD,
      r.2.mem ((c.tc : Thread nD τ).loc main_v15) = (dat3 (V5 m) c).arrAt 6 cfg3.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c _ (mem_uc main_v15 (by decide))).trans (exitV_arr _ _ launch3.win.arr_inj (6 : Fin cfg3.W)),
    ends m (h c) main_arg0 (by decide), ends m (h c) main_arg1 (by decide), ends m (h c) main_arg2 (by decide),
    ends m (h c) main_arg3 (by decide), ends m (h c) main_arg4 (by decide), ends m (h c) main_arg5 (by decide),
    ends m (h c) main_arg6 (by decide), ends m (h c) main_arg7 (by decide), ends m (h c) main_arg8 (by decide),
    ends m (h c) main_arg9 (by decide), ends m (h c) main_arg10 (by decide)⟩) (run_all m ρ)

end Cert.Kernel.Hand

end
-- ==== Proof.KI.R0.lean ====
import proofs.«145685_j29137058136127_1_alg».proof.Proof.Gen.KernelIdeal.Launch
import proofs.«145685_j29137058136127_1_alg».proof.Proof.Gen.KernelIdeal.Skeleton
import proofs.«145685_j29137058136127_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

universe u

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev cond0_0 (i : grid0.Coords) : Prop := (Scalar.cmpi .ne (Scalar.extui (Scalar.cmpi .eq (BitVec.ofNat 32 (i 1).val) 0#32)) 0#32) = 1#1

theorem hcond0_0 : ∀ t : Fin cfg0.N, cond0_0 (grid0.coords t) ↔ t.val % 4 = 0 :=
  (by decide +kernel : ∀ t : Fin grid0.N, cond0_0 (grid0.coords t) ↔ t.val % 4 = 0)

abbrev VO0_7 : View sig .tc .vmem S1x1024x256 .f32 := (Memref.whole cc0_stg7_0 : Memref sig .tc .vmem S1x1024x256 .f32).view
abbrev VO0_8 : View sig .tc .vmem S1x256x256 .f32 := (Memref.whole cc0_stg8_0 : Memref sig .tc .vmem S1x256x256 .f32).view
abbrev ms0_0 (t : Fin cfg0.N) : Memref sig .tc .vmem S1x1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1024x256 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x256x256 .f32 := win0_8.stage (cfg0.slots t 8)
abbrev hs0_8 (t : Fin cfg0.N) : (ms0_8 t).IsWhole := hstage0_8 ((cfg0.slots t 8).cast nbuf0_8)
abbrev scM0_0 : Memref sig .tc .vmem S256x256 .f32 := Memref.whole cc0_scratch0
abbrev VS0_0 : View sig .tc .vmem S256x256 .f32 := scM0_0.view

theorem PhiA0_eq (c : Dev nD) :
    (Pipeline.ΦA spec0 c : sProp 𝕄)
      = iprop(iprop(iprop((∃ d, owns (c : Thread nD τ) scM0_0 fullShare d)) ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [scM0_0, owns_whole]; try rfl

section
variable (c : Dev nD) (i : grid0.Coords) (arg2 : Memref sig .tc .vmem S1x1024x1024 .f32) (harg2 : arg2.IsWhole) (arg3 : Memref sig .tc .vmem S256x1024 .f32) (harg3 : arg3.IsWhole) (arg4 : Memref sig .tc .vmem S1x256 .f32) (harg4 : arg4.IsWhole) (arg5 : Memref sig .tc .vmem S256x1024 .f32) (harg5 : arg5.IsWhole) (arg6 : Memref sig .tc .vmem S1x256 .f32) (harg6 : arg6.IsWhole) (arg7 : Memref sig .tc .vmem S256x1024 .f32) (harg7 : arg7.IsWhole) (arg8 : Memref sig .tc .vmem S1x256 .f32) (harg8 : arg8.IsWhole) (arg9 : Memref sig .tc .vmem S1x1024x256 .f32) (harg9 : arg9.IsWhole) (arg10 : Memref sig .tc .vmem S1x256x256 .f32) (harg10 : arg10.IsWhole) (arg11 : Memref sig .tc .vmem S256x256 .f32) (harg11 : arg11.IsWhole)

section
variable (hc0 : cond0_0 i) (x0 : Vec F S1x1024x1024 .f32) (x1 : Vec F S256x1024 .f32) (x2 : Vec F S1x256 .f32) (x3 : Vec F S256x1024 .f32) (x4 : Vec F S1x256 .f32) (x5 : Vec F S256x1024 .f32) (x6 : Vec F S1x256 .f32)

-- The body on a grid point where the running sums restart: the pieces it writes, and that it runs safely to them.
set_option maxHeartbeats 4000000 in
noncomputable def kernelRun0_A :
    Σ' (L7 : List (View.Piece (Elt F) S1x1024x256 .f32)) (L8 : List (View.Piece (Elt F) S1x256x256 .f32)), { LS0 : List (View.Piece (Elt F) S256x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f LS0)) -∗ K ⟨⟩))
          ⊢ wp frame (wpE (defs₀ (F := F)) Variants.none c none) E (cc0__k1_kernel i arg2 harg2 arg3 harg3 arg4 harg4 arg5 harg5 arg6 harg6 arg7 harg7 arg8 harg8 arg9 harg9 arg10 harg10 arg11 harg11) K } := by
  refine ⟨?_, ?_, ?_, fun E K => ?run⟩
  case run =>
    simp only [cc0__k1_kernel_eq_skeleton]; unfold cc0__k1_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [H8]; · iexists _; iexact H8
    iexists _; iexact HS0

theorem cover0_A_7 (y : S1x1024x256.Idx) :
    ∃ pc ∈ (kernelRun0_A c i arg2 harg2 arg3 harg3 arg4 harg4 arg5 harg5 arg6 harg6 arg7 harg7 arg8 harg8 arg9 harg9 arg10 harg10 arg11 harg11 hc0 x0 x1 x2 x3 x4 x5 x6).1, y ∈ pc.1.set :=
  View.cover_of_tiledL (kernelRun0_A c i arg2 harg2 arg3 harg3 arg4 harg4 arg5 harg5 arg6 harg6 arg7 harg7 arg8 harg8 arg9 harg9 arg10 harg10 arg11 harg11 hc0 x0 x1 x2 x3 x4 x5 x6).1 S1x1024x256.size (by sl_kernel_rfl) y

def out0_A_7 : Vec F S1x1024x256 .f32 :=
  VO0_7.read (Elt F) (VO0_7.writes (Elt F) VO0_7.junk (kernelRun0_A c i arg2 harg2 arg3 harg3 arg4 harg4 arg5 harg5 arg6 harg6 arg7 harg7 arg8 harg8 arg9 harg9 arg10 harg10 arg11 harg11 hc0 x0 x1 x2 x3 x4 x5 x6).1)

theorem cover0_A_8 (y : S1x256x256.Idx) :
    ∃ pc ∈ (kernelRun0_A c i arg2 harg2 arg3 harg3 arg4 harg4 arg5 harg5 arg6 harg6 arg7 harg7 arg8 harg8 arg9 harg9 arg10 harg10 arg11 harg11 hc0 x0 x1 x2 x3 x4 x5 x6).2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 x0 x1 x2 x3 x4 x5 x6).2.1 S1x256x256.size (by sl_kernel_rfl) y

def out0_A_8 : Vec F S1x256x256 .f32 :=
  VO0_8.read (Elt F) (VO0_8.writes (Elt F) VO0_8.junk (kernelRun0_A c i arg2 harg2 arg3 harg3 arg4 harg4 arg5 harg5 arg6 harg6 arg7 harg7 arg8 harg8 arg9 harg9 arg10 harg10 arg11 harg11 hc0 x0 x1 x2 x3 x4 x5 x6).2.1)

theorem scover0_A_0 (y : S256x256.Idx) :
    ∃ pc ∈ (kernelRun0_A c i arg2 harg2 arg3 harg3 arg4 harg4 arg5 harg5 arg6 harg6 arg7 harg7 arg8 harg8 arg9 harg9 arg10 harg10 arg11 harg11 hc0 x0 x1 x2 x3 x4 x5 x6).2.2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 x0 x1 x2 x3 x4 x5 x6).2.2.1 S256x256.size (by sl_kernel_rfl) y

def sout0_A_0 : Vec F S256x256 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 hc0 x0 x1 x2 x3 x4 x5 x6).2.2.1)

end

section
variable (hc0 : ¬cond0_0 i) (x0 : Vec F S1x1024x1024 .f32) (x1 : Vec F S256x1024 .f32) (x2 : Vec F S1x256 .f32) (x3 : Vec F S256x1024 .f32) (x4 : Vec F S1x256 .f32) (x5 : Vec F S256x1024 .f32) (x6 : Vec F S1x256 .f32) (xs0 : Vec F S256x256 .f32)

-- The same on a grid point where the running sums continue from the point before.
set_option maxHeartbeats 4000000 in
noncomputable def kernelRun0_B :
    Σ' (L7 : List (View.Piece (Elt F) S1x1024x256 .f32)) (L8 : List (View.Piece (Elt F) S1x256x256 .f32)), { LS0 : List (View.Piece (Elt F) S256x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ owns (c : Thread nD τ) arg11 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f LS0)) -∗ K ⟨⟩))
          ⊢ wp frame (wpE (defs₀ (F := F)) Variants.none c none) E (cc0__k1_kernel i arg2 harg2 arg3 harg3 arg4 harg4 arg5 harg5 arg6 harg6 arg7 harg7 arg8 harg8 arg9 harg9 arg10 harg10 arg11 harg11) K } := by
  refine ⟨?_, ?_, ?_, fun E K => ?run⟩
  case run =>
    simp only [cc0__k1_kernel_eq_skeleton]; unfold cc0__k1_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg11.eq_unread hfs0
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [H8]; · iexists _; iexact H8
    iexists _; iexact HS0

theorem cover0_B_7 (y : S1x1024x256.Idx) :
    ∃ pc ∈ (kernelRun0_B c i arg2 harg2 arg3 harg3 arg4 harg4 arg5 harg5 arg6 harg6 arg7 harg7 arg8 harg8 arg9 harg9 arg10 harg10 arg11 harg11 hc0 x0 x1 x2 x3 x4 x5 x6 xs0).1, y ∈ pc.1.set :=
  View.cover_of_tiledL (kernelRun0_B c i arg2 harg2 arg3 harg3 arg4 harg4 arg5 harg5 arg6 harg6 arg7 harg7 arg8 harg8 arg9 harg9 arg10 harg10 arg11 harg11 hc0 x0 x1 x2 x3 x4 x5 x6 xs0).1 S1x1024x256.size (by sl_kernel_rfl) y

def out0_B_7 : Vec F S1x1024x256 .f32 :=
  VO0_7.read (Elt F) (VO0_7.writes (Elt F) VO0_7.junk (kernelRun0_B c i arg2 harg2 arg3 harg3 arg4 harg4 arg5 harg5 arg6 harg6 arg7 harg7 arg8 harg8 arg9 harg9 arg10 harg10 arg11 harg11 hc0 x0 x1 x2 x3 x4 x5 x6 xs0).1)

theorem cover0_B_8 (y : S1x256x256.Idx) :
    ∃ pc ∈ (kernelRun0_B c i arg2 harg2 arg3 harg3 arg4 harg4 arg5 harg5 arg6 harg6 arg7 harg7 arg8 harg8 arg9 harg9 arg10 harg10 arg11 harg11 hc0 x0 x1 x2 x3 x4 x5 x6 xs0).2.1, y ∈ pc.1.set :=
  View.cover_of_tiledL (kernelRun0_B c i arg2 harg2 arg3 harg3 arg4 harg4 arg5 harg5 arg6 harg6 arg7 harg7 arg8 harg8 arg9 harg9 arg10 harg10 arg11 harg11 hc0 x0 x1 x2 x3 x4 x5 x6 xs0).2.1 S1x256x256.size (by sl_kernel_rfl) y

def out0_B_8 : Vec F S1x256x256 .f32 :=
  VO0_8.read (Elt F) (VO0_8.writes (Elt F) VO0_8.junk (kernelRun0_B c i arg2 harg2 arg3 harg3 arg4 harg4 arg5 harg5 arg6 harg6 arg7 harg7 arg8 harg8 arg9 harg9 arg10 harg10 arg11 harg11 hc0 x0 x1 x2 x3 x4 x5 x6 xs0).2.1)

theorem scover0_B_0 (y : S256x256.Idx) :
    ∃ pc ∈ (kernelRun0_B c i arg2 harg2 arg3 harg3 arg4 harg4 arg5 harg5 arg6 harg6 arg7 harg7 arg8 harg8 arg9 harg9 arg10 harg10 arg11 harg11 hc0 x0 x1 x2 x3 x4 x5 x6 xs0).2.2.1, y ∈ pc.1.set :=
  View.cover_of_tiledL (kernelRun0_B c i arg2 harg2 arg3 harg3 arg4 harg4 arg5 harg5 arg6 harg6 arg7 harg7 arg8 harg8 arg9 harg9 arg10 harg10 arg11 harg11 hc0 x0 x1 x2 x3 x4 x5 x6 xs0).2.2.1 S256x256.size (by sl_kernel_rfl) y

def sout0_B_0 : Vec F S256x256 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 hc0 x0 x1 x2 x3 x4 x5 x6 xs0).2.2.1)

end

end

-- `f` applied to everything grid point `t` determines, when `t` opens a group of 4 points.
abbrev at0_A {γ : ∀ (i : grid0.Coords) (arg2 : Memref sig .tc .vmem S1x1024x1024 .f32) (harg2 : arg2.IsWhole) (arg3 : Memref sig .tc .vmem S256x1024 .f32) (harg3 : arg3.IsWhole) (arg4 : Memref sig .tc .vmem S1x256 .f32) (harg4 : arg4.IsWhole) (arg5 : Memref sig .tc .vmem S256x1024 .f32) (harg5 : arg5.IsWhole) (arg6 : Memref sig .tc .vmem S1x256 .f32) (harg6 : arg6.IsWhole) (arg7 : Memref sig .tc .vmem S256x1024 .f32) (harg7 : arg7.IsWhole) (arg8 : Memref sig .tc .vmem S1x256 .f32) (harg8 : arg8.IsWhole) (arg9 : Memref sig .tc .vmem S1x1024x256 .f32) (harg9 : arg9.IsWhole) (arg10 : Memref sig .tc .vmem S1x256x256 .f32) (harg10 : arg10.IsWhole) (arg11 : Memref sig .tc .vmem S256x256 .f32) (harg11 : arg11.IsWhole) (hc0 : cond0_0 i) (x0 : Vec F S1x1024x1024 .f32) (x1 : Vec F S256x1024 .f32) (x2 : Vec F S1x256 .f32) (x3 : Vec F S256x1024 .f32) (x4 : Vec F S1x256 .f32) (x5 : Vec F S256x1024 .f32) (x6 : Vec F S1x256 .f32), Sort u} (c : Dev nD)
    (f : ∀ i arg2 harg2 arg3 harg3 arg4 harg4 arg5 harg5 arg6 harg6 arg7 harg7 arg8 harg8 arg9 harg9 arg10 harg10 arg11 harg11 hc0 x0 x1 x2 x3 x4 x5 x6, γ i arg2 harg2 arg3 harg3 arg4 harg4 arg5 harg5 arg6 harg6 arg7 harg7 arg8 harg8 arg9 harg9 arg10 harg10 arg11 harg11 hc0 x0 x1 x2 x3 x4 x5 x6) (t : Fin cfg0.N) (h0 : t.val % 4 = 0) :
    γ (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (iblk0 V c 0 t) (iblk0 V c 1 t) (iblk0 V c 2 t) (iblk0 V c 3 t) (iblk0 V c 4 t) (iblk0 V c 5 t) (iblk0 V c 6 t) :=
  f (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (iblk0 V c 0 t) (iblk0 V c 1 t) (iblk0 V c 2 t) (iblk0 V c 3 t) (iblk0 V c 4 t) (iblk0 V c 5 t) (iblk0 V c 6 t)

-- The same when `t` is inside a group.
abbrev at0_B {γ : ∀ (i : grid0.Coords) (arg2 : Memref sig .tc .vmem S1x1024x1024 .f32) (harg2 : arg2.IsWhole) (arg3 : Memref sig .tc .vmem S256x1024 .f32) (harg3 : arg3.IsWhole) (arg4 : Memref sig .tc .vmem S1x256 .f32) (harg4 : arg4.IsWhole) (arg5 : Memref sig .tc .vmem S256x1024 .f32) (harg5 : arg5.IsWhole) (arg6 : Memref sig .tc .vmem S1x256 .f32) (harg6 : arg6.IsWhole) (arg7 : Memref sig .tc .vmem S256x1024 .f32) (harg7 : arg7.IsWhole) (arg8 : Memref sig .tc .vmem S1x256 .f32) (harg8 : arg8.IsWhole) (arg9 : Memref sig .tc .vmem S1x1024x256 .f32) (harg9 : arg9.IsWhole) (arg10 : Memref sig .tc .vmem S1x256x256 .f32) (harg10 : arg10.IsWhole) (arg11 : Memref sig .tc .vmem S256x256 .f32) (harg11 : arg11.IsWhole) (hc0 : ¬cond0_0 i) (x0 : Vec F S1x1024x1024 .f32) (x1 : Vec F S256x1024 .f32) (x2 : Vec F S1x256 .f32) (x3 : Vec F S256x1024 .f32) (x4 : Vec F S1x256 .f32) (x5 : Vec F S256x1024 .f32) (x6 : Vec F S1x256 .f32), Sort u} (c : Dev nD)
    (f : ∀ i arg2 harg2 arg3 harg3 arg4 harg4 arg5 harg5 arg6 harg6 arg7 harg7 arg8 harg8 arg9 harg9 arg10 harg10 arg11 harg11 hc0 x0 x1 x2 x3 x4 x5 x6, γ i arg2 harg2 arg3 harg3 arg4 harg4 arg5 harg5 arg6 harg6 arg7 harg7 arg8 harg8 arg9 harg9 arg10 harg10 arg11 harg11 hc0 x0 x1 x2 x3 x4 x5 x6) (t : Fin cfg0.N) (h0 : ¬t.val % 4 = 0) :
    γ (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (iblk0 V c 0 t) (iblk0 V c 1 t) (iblk0 V c 2 t) (iblk0 V c 3 t) (iblk0 V c 4 t) (iblk0 V c 5 t) (iblk0 V c 6 t) :=
  f (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (iblk0 V c 0 t) (iblk0 V c 1 t) (iblk0 V c 2 t) (iblk0 V c 3 t) (iblk0 V c 4 t) (iblk0 V c 5 t) (iblk0 V c 6 t)

-- What the `n`-th grid point leaves: the outputs, then the running sums, by recursion on `n`.
def outsAt0 (c : Dev nD) : (n : ℕ) → n < cfg0.N → Vec F S1x1024x256 .f32 × Vec F S1x256x256 .f32 × Vec F S256x256 .f32
  | 0, hn => (at0_A V c (out0_A_7 c) ⟨0, hn⟩ (Nat.zero_mod _), at0_A V c (out0_A_8 c) ⟨0, hn⟩ (Nat.zero_mod _), at0_A V c (sout0_A_0 c) ⟨0, hn⟩ (Nat.zero_mod _))
  | n + 1, hn =>
    if h0 : (n + 1) % 4 = 0 then
      (at0_A V c (out0_A_7 c) ⟨n + 1, hn⟩ h0, at0_A V c (out0_A_8 c) ⟨n + 1, hn⟩ h0, at0_A V c (sout0_A_0 c) ⟨n + 1, hn⟩ h0)
    else
      (at0_B V c (out0_B_7 c) ⟨n + 1, hn⟩ h0 (outsAt0 c n (Nat.lt_of_succ_lt hn)).2.2, at0_B V c (out0_B_8 c) ⟨n + 1, hn⟩ h0 (outsAt0 c n (Nat.lt_of_succ_lt hn)).2.2, at0_B V c (sout0_B_0 c) ⟨n + 1, hn⟩ h0 (outsAt0 c n (Nat.lt_of_succ_lt hn)).2.2)

theorem outsAt0_A (c : Dev nD) (t : Fin cfg0.N) (h0 : t.val % 4 = 0) :
    outsAt0 V c t.val t.isLt = (at0_A V c (out0_A_7 c) t h0, at0_A V c (out0_A_8 c) t h0, at0_A V c (sout0_A_0 c) t h0) := by
  obtain ⟨n, hn⟩ := t
  cases n with
  | zero => exact rfl
  | succ n => exact (dif_pos h0).trans rfl

theorem outsAt0_B (c : Dev nD) (t : Fin cfg0.N) (h0 : ¬t.val % 4 = 0) :
    outsAt0 V c t.val t.isLt = (at0_B V c (out0_B_7 c) t h0 (outsAt0 V c (t.val - 1) (Nat.lt_of_le_of_lt (Nat.sub_le _ _) t.isLt)).2.2, at0_B V c (out0_B_8 c) t h0 (outsAt0 V c (t.val - 1) (Nat.lt_of_le_of_lt (Nat.sub_le _ _) t.isLt)).2.2, at0_B V c (sout0_B_0 c) t h0 (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

def PhiS0 (c : Dev nD) : (n : ℕ) → n ≤ cfg0.N → sProp 𝕄
  | 0, _ => Pipeline.ΦA spec0 c
  | n + 1, hn => iprop(iprop(iprop(owns (c : Thread nD τ) scM0_0 fullShare ((outsAt0 V c n hn).2.2)) ∗ Pipeline.scopedRestBut (Ix := Unit) (Name := ℕ) (U := UR sig nD τ) (Lvl := ℕ) (Val := Elt F) spec0 c [cc0_scratch0]) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(iprop(owns (c : Thread nD τ) scM0_0 fullShare ((outsAt0 V c n hn).2.2)) ∗ Pipeline.scopedRestBut (Ix := Unit) (Name := ℕ) (U := UR sig nD τ) (Lvl := ℕ) (Val := Elt F) spec0 c [cc0_scratch0]) ∗ (∃ r, prngReg c r)) := rfl

theorem PhiS0_pos (c : Dev nD) (n : ℕ) (h : n ≤ cfg0.N) (hz : n ≠ 0) :
    PhiS0 V c n h = iprop(iprop(iprop(owns (c : Thread nD τ) scM0_0 fullShare ((outsAt0 V c (n - 1) (by omega)).2.2)) ∗ Pipeline.scopedRestBut (Ix := Unit) (Name := ℕ) (U := UR sig nD τ) (Lvl := ℕ) (Val := Elt F) spec0 c [cc0_scratch0]) ∗ (∃ r, prngReg c r)) := by
  cases n with
  | zero => exact absurd rfl hz
  | succ n => rfl

-- Whatever the running sums hold, the invariant between two points gives back the region's own.
theorem PhiS0_any (c : Dev nD) : ∀ (n : ℕ) (h : n ≤ cfg0.N), PhiS0 V c n h ⊢ Pipeline.ΦA spec0 c
  | 0, _ => .rfl
  | n + 1, hn => by
    rw [PhiS0_succ, PhiA0_eq]
    iintro ⟨⟨HS0, Hrest⟩, Hg⟩
    isplitl [HS0 Hrest]
    · isplitl [HS0]
      · iexists _; iexact HS0
      iexact Hrest
    iexact Hg

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => (outsAt0 V c t.val t.isLt).1
    | ⟨8, _⟩ => (outsAt0 V c t.val t.isLt).2.1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = (outsAt0 V c t.val t.isLt).1 := by dsimp only [dat0]
theorem after0_8 (c : Dev nD) (t : Fin cfg0.N) : (dat0 V c).after 8 t = (outsAt0 V c t.val t.isLt).2.1 := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun _ => rfl) t d).trans rfl
theorem before0_1 (c : Dev nD) (t : Fin cfg0.N) (d) : (dat0 V c).before 1 t d = iblk0 V c 1 t :=
  ((dat0 V c).before_in_eq_fetched 1 rfl (fun _ => rfl) (fun _ _ _ => rfl) (fun _ => rfl) t d).trans rfl
theorem before0_2 (c : Dev nD) (t : Fin cfg0.N) (d) : (dat0 V c).before 2 t d = iblk0 V c 2 t :=
  ((dat0 V c).before_in_eq_fetched 2 rfl (fun _ => rfl) (fun _ _ _ => rfl) (fun _ => rfl) t d).trans rfl
theorem before0_3 (c : Dev nD) (t : Fin cfg0.N) (d) : (dat0 V c).before 3 t d = iblk0 V c 3 t :=
  ((dat0 V c).before_in_eq_fetched 3 rfl (fun _ => rfl) (fun _ _ _ => rfl) (fun _ => rfl) t d).trans rfl
theorem before0_4 (c : Dev nD) (t : Fin cfg0.N) (d) : (dat0 V c).before 4 t d = iblk0 V c 4 t :=
  ((dat0 V c).before_in_eq_fetched 4 rfl (fun _ => rfl) (fun _ _ _ => rfl) (fun _ => rfl) t d).trans rfl
theorem before0_5 (c : Dev nD) (t : Fin cfg0.N) (d) : (dat0 V c).before 5 t d = iblk0 V c 5 t :=
  ((dat0 V c).before_in_eq_fetched 5 rfl (fun _ => rfl) (fun _ _ _ => rfl) (fun _ => rfl) t d).trans rfl
theorem before0_6 (c : Dev nD) (t : Fin cfg0.N) (d) : (dat0 V c).before 6 t d = iblk0 V c 6 t :=
  ((dat0 V c).before_in_eq_fetched 6 rfl (fun _ => rfl) (fun _ _ _ => rfl) (fun _ => rfl) t d).trans rfl

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d)))

def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t)
    ∗ owns (c : Thread nD τ) (ms0_7 t) fullShare ((dat0 V c).after 7 t)
    ∗ owns (c : Thread nD τ) (ms0_8 t) fullShare ((dat0 V c).after 8 t))

-- One grid point meets its obligation: split on whether it opens a group.
set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).owesAt () t.succ = (dat0 V c).owesAt () t.castSucc from rfl]
  rw [show (dat0 V c).Φ t.succ = PhiS0 V c (t.val + 1) t.isLt from rfl, PhiS0_succ]
  rw [after0_0, after0_1, after0_2, after0_3, after0_4, after0_5, after0_6, after0_7, after0_8]
  by_cases h0 : t.val % 4 = 0
  · rw [outsAt0_A V c t h0]
    unfold at0_A out0_A_7 out0_A_8 sout0_A_0; (try dsimp only)
    rw [PhiS0_castSucc V c t]
    refine (sep_mono_left (PhiS0_any V c _ _)).trans ?_
    rw [PhiA0_eq]
    iintro ⟨⟨⟨HS0, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun0_A c (grid0.coords t) _ _ _ _ _ _ _ _ _ _ _ _ _ _ _ _ _ _ _ _ ((hcond0_0 t).mpr h0) (iblk0 V c 0 t) (iblk0 V c 1 t) (iblk0 V c 2 t) (iblk0 V c 3 t) (iblk0 V c 4 t) (iblk0 V c 5 t) (iblk0 V c 6 t)).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [HS0]; · iexact HS0
    iintro ⟨H0, H1, H2, H3, H4, H5, H6, ⟨%e7, H7⟩, ⟨%e8, H8⟩, ⟨%es0, HS0⟩⟩
    isplitl [HS0 Hrest Hg]
    · isplitl [HS0 Hrest]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; exact View.read_writes_of_cover _ _ _ _ _ (cover0_A_7 c _ _ _ _ _ _ _ _ _ _ _ _ _ _ _ _ _ _ _ _ _ _ _ _ _ _ _ _ _)
    unfold owns; iexists _; isplitr
    swap; · iexact H8
    ipureintro; exact View.read_writes_of_cover _ _ _ _ _ (cover0_A_8 c _ _ _ _ _ _ _ _ _ _ _ _ _ _ _ _ _ _ _ _ _ _ _ _ _ _ _ _ _)

  · rw [outsAt0_B V c t h0]
    unfold at0_B out0_B_7 out0_B_8 sout0_B_0; (try dsimp only)
    by_cases hz : t.val = 0
    · exfalso; rw [hz] at h0; exact h0 (Nat.zero_mod _)
    · rw [PhiS0_castSucc V c t, PhiS0_pos V c _ _ hz]
      iintro ⟨⟨⟨HS0, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_B c (grid0.coords t) _ _ _ _ _ _ _ _ _ _ _ _ _ _ _ _ _ _ _ _ (fun h => h0 ((hcond0_0 t).mp h)) (iblk0 V c 0 t) (iblk0 V c 1 t) (iblk0 V c 2 t) (iblk0 V c 3 t) (iblk0 V c 4 t) (iblk0 V c 5 t) (iblk0 V c 6 t) _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [HS0]; · iexact HS0
      iintro ⟨H0, H1, H2, H3, H4, H5, H6, ⟨%e7, H7⟩, ⟨%e8, H8⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; iexists _; isplitr
        swap; · iexact H7
        ipureintro; exact View.read_writes_of_cover _ _ _ _ _ (cover0_B_7 c _ _ _ _ _ _ _ _ _ _ _ _ _ _ _ _ _ _ _ _ _ _ _ _ _ _ _ _ _ _)
      unfold owns; iexists _; isplitr
      swap; · iexact H8
      ipureintro; exact View.read_writes_of_cover _ _ _ _ _ (cover0_B_8 c _ _ _ _ _ _ _ _ _ _ _ _ _ _ _ _ _ _ _ _ _ _ _ _ _ _ _ _ _ _)

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

theorem hout0 (c : Dev nD) : (dat0 V c).Φ (Fin.last cfg0.N) ⊢ Pipeline.ΦA spec0 c :=
  PhiS0_any V c _ (Nat.le_of_lt_succ (Fin.last cfg0.N).isLt)

end Region0

end Cert.KernelIdeal.Hand

end
-- ==== Proof.KI.R1.lean ====
import proofs.«145685_j29137058136127_1_alg».proof.Proof.Gen.KernelIdeal.Launch
import proofs.«145685_j29137058136127_1_alg».proof.Proof.Gen.KernelIdeal.Skeleton
import proofs.«145685_j29137058136127_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_a : Rect S1x1024x256 := Rect.unit (s := S1x1024x256) ![0, 0, 0] S1x1024x256.size inb_S1x1024x256_S1x1024x256_0_0_0
abbrev r1_b : Rect S1x256x256 := Rect.unit (s := S1x256x256) ![0, 0, 0] S1x256x256.size inb_S1x256x256_S1x256x256_0_0_0
abbrev r1_c : Rect S1024x256 := Rect.unit (s := S1024x256) ![0, 0] S1024x256.size inb_S1024x256_S1024x256_0_0
abbrev r1_d : Rect S1x1024 := Rect.unit (s := S1x1024) ![0, 0] S1x1024.size inb_S1x1024_S1x1024_0_0
abbrev r1_o : Rect S1x1024x1024 := Rect.unit (s := S1x1024x1024) ![0, 0, 0] S1x1024x1024.size inb_S1x1024x1024_S1x1024x1024_0_0_0

def out1_4 (x0 : Vec F S1x1024x256 .f32) (x1 : Vec F S1x256x256 .f32) (x2 : Vec F S1024x256 .f32) (x3 : Vec F S1x1024 .f32) : Vec F S1x1024x1024 .f32 :=
  View.canon [⟨r1_o, k1_pay1 (View.ld x0 r1_a) (View.ld x1 r1_b) (View.ld x2 r1_c) (View.ld x3 r1_d)⟩]

theorem cover1_4 (p0 : Vec F S1x1024x1024 .f32) (y : S1x1024x1024.Idx) :
    ∃ pc ∈ ([⟨r1_o, p0⟩] : List (View.Piece (Elt F) S1x1024x1024 .f32)), y ∈ pc.1.set :=
  View.cover_of_tiled [⟨r1_o, p0⟩] S1x1024x1024.size (by rfl) y

-- The body is one pure function of the blocks it loads: it runs safely and leaves that function's value in the output block.
set_option maxHeartbeats 1000000 in
theorem sound_kernel1 (c : Dev nD) (E : Set ℕ) (i : grid1.Coords)
    (arg2 : Memref sig .tc .vmem S1x1024x256 .f32) (harg2 : arg2.IsWhole) (arg3 : Memref sig .tc .vmem S1x256x256 .f32) (harg3 : arg3.IsWhole)
    (arg4 : Memref sig .tc .vmem S1024x256 .f32) (harg4 : arg4.IsWhole) (arg5 : Memref sig .tc .vmem S1x1024 .f32) (harg5 : arg5.IsWhole)
    (arg6 : Memref sig .tc .vmem S1x1024x1024 .f32) (harg6 : arg6.IsWhole)
    (x0 : Vec F S1x1024x256 .f32) (x1 : Vec F S1x256x256 .f32) (x2 : Vec F S1024x256 .f32) (x3 : Vec F S1x1024 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (out1_4 x0 x1 x2 x3)) -∗ K ⟨⟩))
      ⊢ wp frame (wpE (defs₀ (F := F)) Variants.none c none) E (cc1__k2_kernel i arg2 harg2 arg3 harg3 arg4 harg4 arg5 harg5 arg6 harg6) K := by
  simp only [cc1__k2_kernel_eq_skeleton]; unfold cc1__k2_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun _ => rfl) t d).trans rfl
theorem before1_1 (c : Dev nD) (t : Fin cfg1.N) (d) : (dat1 V c).before 1 t d = iblk1 V c 1 t :=
  ((dat1 V c).before_in_eq_fetched 1 rfl (fun _ => rfl) (fun _ _ _ => rfl) (fun _ => rfl) t d).trans rfl
theorem before1_2 (c : Dev nD) (t : Fin cfg1.N) (d) : (dat1 V c).before 2 t d = iblk1 V c 2 t :=
  ((dat1 V c).before_in_eq_fetched 2 rfl (fun _ => rfl) (fun _ _ _ => rfl) (fun _ => rfl) t d).trans rfl
theorem before1_3 (c : Dev nD) (t : Fin cfg1.N) (d) : (dat1 V c).before 3 t d = iblk1 V c 3 t :=
  ((dat1 V c).before_in_eq_fetched 3 rfl (fun _ => rfl) (fun _ _ _ => rfl) (fun _ => rfl) t d).trans rfl

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

-- One grid point meets its obligation; nothing is carried from point to point.
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation1 (c : Dev nD) : BodyObligation (dat1 (F := F) V c) (defs₀ (F := F)) Variants.none () Set.univ := fun t => by
  rw [bigSep_W1, bigSep_W1]
  exact sound_body1 V c t

end Region1

end Cert.KernelIdeal.Hand

end
-- ==== Proof.KI.R2.lean ====
import proofs.«145685_j29137058136127_1_alg».proof.Proof.Gen.KernelIdeal.Launch
import proofs.«145685_j29137058136127_1_alg».proof.Proof.Gen.KernelIdeal.Skeleton
import proofs.«145685_j29137058136127_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

universe u

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev cond2_0 (i : grid2.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1

theorem hcond2_0 : ∀ t : Fin cfg2.N, cond2_0 (grid2.coords t) ↔ t.val % 32 = 0 :=
  (by decide +kernel : ∀ t : Fin grid2.N, cond2_0 (grid2.coords t) ↔ t.val % 32 = 0)

abbrev VO2_1 : View sig .tc .vmem S1x1024 .f32 := (Memref.whole cc2_stg1_0 : Memref sig .tc .vmem S1x1024 .f32).view
abbrev VO2_2 : View sig .tc .vmem S1x1024 .f32 := (Memref.whole cc2_stg2_0 : Memref sig .tc .vmem S1x1024 .f32).view
abbrev ms2_0 (t : Fin cfg2.N) : Memref sig .tc .vmem S1x1024x1024 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1x1024 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x1024 .f32 := win2_2.stage (cfg2.slots t 2)
abbrev hs2_2 (t : Fin cfg2.N) : (ms2_2 t).IsWhole := hstage2_2 ((cfg2.slots t 2).cast nbuf2_2)
abbrev scM2_0 : Memref sig .tc .vmem S1x1024 .f32 := Memref.whole cc2_scratch0
abbrev VS2_0 : View sig .tc .vmem S1x1024 .f32 := scM2_0.view
abbrev scM2_1 : Memref sig .tc .vmem S1x1024 .f32 := Memref.whole cc2_scratch1
abbrev VS2_1 : View sig .tc .vmem S1x1024 .f32 := scM2_1.view

theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d)) ∗ Pipeline.scopedRestBut (Ix := Unit) (Name := ℕ) (U := UR sig nD τ) (Lvl := ℕ) (Val := Elt F) spec2 c [cc2_scratch0, cc2_scratch1]) ∗ (∃ r, prngReg c r)) := by
  unfold Pipeline.ΦA; rw [scopedRest2_split]; simp only [scM2_0, scM2_1, owns_whole]; try rfl

section
variable (c : Dev nD) (i : grid2.Coords) (arg2 : Memref sig .tc .vmem S1x1024x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole)

section
variable (hc0 : cond2_0 i) (x0 : Vec F S1x1024x1024 .f32)

-- The body on a grid point where the running sums restart: the pieces it writes, and that it runs safely to them.
set_option maxHeartbeats 4000000 in
noncomputable def kernelRun2_A :
    Σ' (L1 : List (View.Piece (Elt F) S1x1024 .f32)) (L2 : List (View.Piece (Elt F) S1x1024 .f32)) (LS0 : List (View.Piece (Elt F) S1x1024 .f32)), { LS1 : List (View.Piece (Elt F) S1x1024 .f32) //
      ∀ (E : Set ℕ) (K : PUnit → sProp 𝕄),
        iprop(owns (c : Thread nD τ) arg2 fullShare x0 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc2__kstats_kernel i arg2 harg2 arg3 harg3 arg4 harg4 arg5 harg5 arg6 harg6) K } := by
  refine ⟨?_, ?_, ?_, ?_, fun E K => ?run⟩
  case run =>
    simp only [cc2__kstats_kernel_eq_skeleton]; unfold cc2__kstats_kernel_skel
    unfold owns
    iintro ⟨⟨%f0, %hf0, H0⟩, ⟨%d1, %f1, -, H1⟩, ⟨%d2, %f2, -, H2⟩, ⟨%ds0, %fs0, -, HS0⟩, ⟨%ds1, %fs1, -, HS1⟩, Hk⟩
    obtain rfl := harg2.eq_unread hf0
    sl_exec (disch := first | exact hc0)
    sl_step
    iapply Hk
    isplitl [H0]
    · iexists _; isplitr; · ipureintro; exact harg2.read_unread _
      iexact H0
    isplitl [H1]; · iexists _; iexact H1
    isplitl [H2]; · iexists _; iexact H2
    isplitl [HS0]; · iexists _; iexact HS0
    iexists _; iexact HS1

theorem cover2_A_1 (y : S1x1024.Idx) :
    ∃ pc ∈ (kernelRun2_A c i arg2 harg2 arg3 harg3 arg4 harg4 arg5 harg5 arg6 harg6 hc0 x0).1, y ∈ pc.1.set :=
  View.cover_of_tiledL (kernelRun2_A c i arg2 harg2 arg3 harg3 arg4 harg4 arg5 harg5 arg6 harg6 hc0 x0).1 S1x1024.size (by sl_kernel_rfl) y

def out2_A_1 : Vec F S1x1024 .f32 :=
  VO2_1.read (Elt F) (VO2_1.writes (Elt F) VO2_1.junk (kernelRun2_A c i arg2 harg2 arg3 harg3 arg4 harg4 arg5 harg5 arg6 harg6 hc0 x0).1)

theorem cover2_A_2 (y : S1x1024.Idx) :
    ∃ pc ∈ (kernelRun2_A c i arg2 harg2 arg3 harg3 arg4 harg4 arg5 harg5 arg6 harg6 hc0 x0).2.1, y ∈ pc.1.set :=
  View.cover_of_tiledL (kernelRun2_A c i arg2 harg2 arg3 harg3 arg4 harg4 arg5 harg5 arg6 harg6 hc0 x0).2.1 S1x1024.size (by sl_kernel_rfl) y

def out2_A_2 : Vec F S1x1024 .f32 :=
  VO2_2.read (Elt F) (VO2_2.writes (Elt F) VO2_2.junk (kernelRun2_A c i arg2 harg2 arg3 harg3 arg4 harg4 arg5 harg5 arg6 harg6 hc0 x0).2.1)

theorem scover2_A_0 (y : S1x1024.Idx) :
    ∃ pc ∈ (kernelRun2_A c i arg2 harg2 arg3 harg3 arg4 harg4 arg5 harg5 arg6 harg6 hc0 x0).2.2.1, y ∈ pc.1.set :=
  View.cover_of_tiledL (kernelRun2_A c i arg2 harg2 arg3 harg3 arg4 harg4 arg5 harg5 arg6 harg6 hc0 x0).2.2.1 S1x1024.size (by sl_kernel_rfl) y

def sout2_A_0 : Vec F S1x1024 .f32 :=
  VS2_0.read (Elt F) (VS2_0.writes (Elt F) VS2_0.junk (kernelRun2_A c i arg2 harg2 arg3 harg3 arg4 harg4 arg5 harg5 arg6 harg6 hc0 x0).2.2.1)

theorem scover2_A_1 (y : S1x1024.Idx) :
    ∃ pc ∈ (kernelRun2_A c i arg2 harg2 arg3 harg3 arg4 harg4 arg5 harg5 arg6 harg6 hc0 x0).2.2.2.1, y ∈ pc.1.set :=
  View.cover_of_tiledL (kernelRun2_A c i arg2 harg2 arg3 harg3 arg4 harg4 arg5 harg5 arg6 harg6 hc0 x0).2.2.2.1 S1x1024.size (by sl_kernel_rfl) y

def sout2_A_1 : Vec F S1x1024 .f32 :=
  VS2_1.read (Elt F) (VS2_1.writes (Elt F) VS2_1.junk (kernelRun2_A c i arg2 harg2 arg3 harg3 arg4 harg4 arg5 harg5 arg6 harg6 hc0 x0).2.2.2.1)

end

section
variable (hc0 : ¬cond2_0 i) (x0 : Vec F S1x1024x1024 .f32) (xs0 : Vec F S1x1024 .f32) (xs1 : Vec F S1x1024 .f32)

-- The same on a grid point where the running sums continue from the point before.
set_option maxHeartbeats 4000000 in
noncomputable def kernelRun2_B :
    Σ' (L1 : List (View.Piece (Elt F) S1x1024 .f32)) (L2 : List (View.Piece (Elt F) S1x1024 .f32)) (LS0 : List (View.Piece (Elt F) S1x1024 .f32)), { LS1 : List (View.Piece (Elt F) S1x1024 .f32) //
      ∀ (E : Set ℕ) (K : PUnit → sProp 𝕄),
        iprop(owns (c : Thread nD τ) arg2 fullShare x0 ∗ (∃ d, owns (c : Thread nD τ) arg3 fullShare d) ∗ (∃ d, owns (c : Thread nD τ) arg4 fullShare d) ∗ owns (c : Thread nD τ) arg5 fullShare xs0 ∗ owns (c : Thread nD τ) arg6 fullShare xs1
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc2__kstats_kernel i arg2 harg2 arg3 harg3 arg4 harg4 arg5 harg5 arg6 harg6) K } := by
  refine ⟨?_, ?_, ?_, ?_, fun E K => ?run⟩
  case run =>
    simp only [cc2__kstats_kernel_eq_skeleton]; unfold cc2__kstats_kernel_skel
    unfold owns
    iintro ⟨⟨%f0, %hf0, H0⟩, ⟨%d1, %f1, -, H1⟩, ⟨%d2, %f2, -, H2⟩, ⟨%fs0, %hfs0, HS0⟩, ⟨%fs1, %hfs1, HS1⟩, Hk⟩
    obtain rfl := harg2.eq_unread hf0; obtain rfl := harg5.eq_unread hfs0; obtain rfl := harg6.eq_unread hfs1
    sl_exec (disch := first | exact hc0)
    sl_step
    iapply Hk
    isplitl [H0]
    · iexists _; isplitr; · ipureintro; exact harg2.read_unread _
      iexact H0
    isplitl [H1]; · iexists _; iexact H1
    isplitl [H2]; · iexists _; iexact H2
    isplitl [HS0]; · iexists _; iexact HS0
    iexists _; iexact HS1

theorem cover2_B_1 (y : S1x1024.Idx) :
    ∃ pc ∈ (kernelRun2_B c i arg2 harg2 arg3 harg3 arg4 harg4 arg5 harg5 arg6 harg6 hc0 x0 xs0 xs1).1, y ∈ pc.1.set :=
  View.cover_of_tiledL (kernelRun2_B c i arg2 harg2 arg3 harg3 arg4 harg4 arg5 harg5 arg6 harg6 hc0 x0 xs0 xs1).1 S1x1024.size (by sl_kernel_rfl) y

def out2_B_1 : Vec F S1x1024 .f32 :=
  VO2_1.read (Elt F) (VO2_1.writes (Elt F) VO2_1.junk (kernelRun2_B c i arg2 harg2 arg3 harg3 arg4 harg4 arg5 harg5 arg6 harg6 hc0 x0 xs0 xs1).1)

theorem cover2_B_2 (y : S1x1024.Idx) :
    ∃ pc ∈ (kernelRun2_B c i arg2 harg2 arg3 harg3 arg4 harg4 arg5 harg5 arg6 harg6 hc0 x0 xs0 xs1).2.1, y ∈ pc.1.set :=
  View.cover_of_tiledL (kernelRun2_B c i arg2 harg2 arg3 harg3 arg4 harg4 arg5 harg5 arg6 harg6 hc0 x0 xs0 xs1).2.1 S1x1024.size (by sl_kernel_rfl) y

def out2_B_2 : Vec F S1x1024 .f32 :=
  VO2_2.read (Elt F) (VO2_2.writes (Elt F) VO2_2.junk (kernelRun2_B c i arg2 harg2 arg3 harg3 arg4 harg4 arg5 harg5 arg6 harg6 hc0 x0 xs0 xs1).2.1)

theorem scover2_B_0 (y : S1x1024.Idx) :
    ∃ pc ∈ (kernelRun2_B c i arg2 harg2 arg3 harg3 arg4 harg4 arg5 harg5 arg6 harg6 hc0 x0 xs0 xs1).2.2.1, y ∈ pc.1.set :=
  View.cover_of_tiledL (kernelRun2_B c i arg2 harg2 arg3 harg3 arg4 harg4 arg5 harg5 arg6 harg6 hc0 x0 xs0 xs1).2.2.1 S1x1024.size (by sl_kernel_rfl) y

def sout2_B_0 : Vec F S1x1024 .f32 :=
  VS2_0.read (Elt F) (VS2_0.writes (Elt F) VS2_0.junk (kernelRun2_B c i arg2 harg2 arg3 harg3 arg4 harg4 arg5 harg5 arg6 harg6 hc0 x0 xs0 xs1).2.2.1)

theorem scover2_B_1 (y : S1x1024.Idx) :
    ∃ pc ∈ (kernelRun2_B c i arg2 harg2 arg3 harg3 arg4 harg4 arg5 harg5 arg6 harg6 hc0 x0 xs0 xs1).2.2.2.1, y ∈ pc.1.set :=
  View.cover_of_tiledL (kernelRun2_B c i arg2 harg2 arg3 harg3 arg4 harg4 arg5 harg5 arg6 harg6 hc0 x0 xs0 xs1).2.2.2.1 S1x1024.size (by sl_kernel_rfl) y

def sout2_B_1 : Vec F S1x1024 .f32 :=
  VS2_1.read (Elt F) (VS2_1.writes (Elt F) VS2_1.junk (kernelRun2_B c i arg2 harg2 arg3 harg3 arg4 harg4 arg5 harg5 arg6 harg6 hc0 x0 xs0 xs1).2.2.2.1)

end

end

-- `f` applied to everything grid point `t` determines, when `t` opens a group of 32 points.
abbrev at2_A {γ : ∀ (i : grid2.Coords) (arg2 : Memref sig .tc .vmem S1x1024x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (hc0 : cond2_0 i) (x0 : Vec F S1x1024x1024 .f32), Sort u} (c : Dev nD)
    (f : ∀ i arg2 harg2 arg3 harg3 arg4 harg4 arg5 harg5 arg6 harg6 hc0 x0, γ i arg2 harg2 arg3 harg3 arg4 harg4 arg5 harg5 arg6 harg6 hc0 x0) (t : Fin cfg2.N) (h0 : t.val % 32 = 0) :
    γ (grid2.coords t) (ms2_0 t) (hs2_0 t) (ms2_1 t) (hs2_1 t) (ms2_2 t) (hs2_2 t) scM2_0 (Memref.isWhole_whole _) scM2_1 (Memref.isWhole_whole _) ((hcond2_0 t).mpr h0) (iblk2 V c 0 t) :=
  f (grid2.coords t) (ms2_0 t) (hs2_0 t) (ms2_1 t) (hs2_1 t) (ms2_2 t) (hs2_2 t) scM2_0 (Memref.isWhole_whole _) scM2_1 (Memref.isWhole_whole _) ((hcond2_0 t).mpr h0) (iblk2 V c 0 t)

-- The same when `t` is inside a group.
abbrev at2_B {γ : ∀ (i : grid2.Coords) (arg2 : Memref sig .tc .vmem S1x1024x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (hc0 : ¬cond2_0 i) (x0 : Vec F S1x1024x1024 .f32), Sort u} (c : Dev nD)
    (f : ∀ i arg2 harg2 arg3 harg3 arg4 harg4 arg5 harg5 arg6 harg6 hc0 x0, γ i arg2 harg2 arg3 harg3 arg4 harg4 arg5 harg5 arg6 harg6 hc0 x0) (t : Fin cfg2.N) (h0 : ¬t.val % 32 = 0) :
    γ (grid2.coords t) (ms2_0 t) (hs2_0 t) (ms2_1 t) (hs2_1 t) (ms2_2 t) (hs2_2 t) scM2_0 (Memref.isWhole_whole _) scM2_1 (Memref.isWhole_whole _) (fun h => h0 ((hcond2_0 t).mp h)) (iblk2 V c 0 t) :=
  f (grid2.coords t) (ms2_0 t) (hs2_0 t) (ms2_1 t) (hs2_1 t) (ms2_2 t) (hs2_2 t) scM2_0 (Memref.isWhole_whole _) scM2_1 (Memref.isWhole_whole _) (fun h => h0 ((hcond2_0 t).mp h)) (iblk2 V c 0 t)

-- What the `n`-th grid point leaves: the outputs, then the running sums, by recursion on `n`.
def outsAt2 (c : Dev nD) : (n : ℕ) → n < cfg2.N → Vec F S1x1024 .f32 × Vec F S1x1024 .f32 × Vec F S1x1024 .f32 × Vec F S1x1024 .f32
  | 0, hn => (at2_A V c (out2_A_1 c) ⟨0, hn⟩ (Nat.zero_mod _), at2_A V c (out2_A_2 c) ⟨0, hn⟩ (Nat.zero_mod _), at2_A V c (sout2_A_0 c) ⟨0, hn⟩ (Nat.zero_mod _), at2_A V c (sout2_A_1 c) ⟨0, hn⟩ (Nat.zero_mod _))
  | n + 1, hn =>
    if h0 : (n + 1) % 32 = 0 then
      (at2_A V c (out2_A_1 c) ⟨n + 1, hn⟩ h0, at2_A V c (out2_A_2 c) ⟨n + 1, hn⟩ h0, at2_A V c (sout2_A_0 c) ⟨n + 1, hn⟩ h0, at2_A V c (sout2_A_1 c) ⟨n + 1, hn⟩ h0)
    else
      (at2_B V c (out2_B_1 c) ⟨n + 1, hn⟩ h0 (outsAt2 c n (Nat.lt_of_succ_lt hn)).2.2.1 (outsAt2 c n (Nat.lt_of_succ_lt hn)).2.2.2, at2_B V c (out2_B_2 c) ⟨n + 1, hn⟩ h0 (outsAt2 c n (Nat.lt_of_succ_lt hn)).2.2.1 (outsAt2 c n (Nat.lt_of_succ_lt hn)).2.2.2, at2_B V c (sout2_B_0 c) ⟨n + 1, hn⟩ h0 (outsAt2 c n (Nat.lt_of_succ_lt hn)).2.2.1 (outsAt2 c n (Nat.lt_of_succ_lt hn)).2.2.2, at2_B V c (sout2_B_1 c) ⟨n + 1, hn⟩ h0 (outsAt2 c n (Nat.lt_of_succ_lt hn)).2.2.1 (outsAt2 c n (Nat.lt_of_succ_lt hn)).2.2.2)

theorem outsAt2_A (c : Dev nD) (t : Fin cfg2.N) (h0 : t.val % 32 = 0) :
    outsAt2 V c t.val t.isLt = (at2_A V c (out2_A_1 c) t h0, at2_A V c (out2_A_2 c) t h0, at2_A V c (sout2_A_0 c) t h0, at2_A V c (sout2_A_1 c) t h0) := by
  obtain ⟨n, hn⟩ := t
  cases n with
  | zero => exact rfl
  | succ n => exact (dif_pos h0).trans rfl

theorem outsAt2_B (c : Dev nD) (t : Fin cfg2.N) (h0 : ¬t.val % 32 = 0) :
    outsAt2 V c t.val t.isLt = (at2_B V c (out2_B_1 c) t h0 (outsAt2 V c (t.val - 1) (Nat.lt_of_le_of_lt (Nat.sub_le _ _) t.isLt)).2.2.1 (outsAt2 V c (t.val - 1) (Nat.lt_of_le_of_lt (Nat.sub_le _ _) t.isLt)).2.2.2, at2_B V c (out2_B_2 c) t h0 (outsAt2 V c (t.val - 1) (Nat.lt_of_le_of_lt (Nat.sub_le _ _) t.isLt)).2.2.1 (outsAt2 V c (t.val - 1) (Nat.lt_of_le_of_lt (Nat.sub_le _ _) t.isLt)).2.2.2, at2_B V c (sout2_B_0 c) t h0 (outsAt2 V c (t.val - 1) (Nat.lt_of_le_of_lt (Nat.sub_le _ _) t.isLt)).2.2.1 (outsAt2 V c (t.val - 1) (Nat.lt_of_le_of_lt (Nat.sub_le _ _) t.isLt)).2.2.2, at2_B V c (sout2_B_1 c) t h0 (outsAt2 V c (t.val - 1) (Nat.lt_of_le_of_lt (Nat.sub_le _ _) t.isLt)).2.2.1 (outsAt2 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans rfl

def PhiS2 (c : Dev nD) : (n : ℕ) → n ≤ cfg2.N → sProp 𝕄
  | 0, _ => Pipeline.ΦA spec2 c
  | n + 1, hn => iprop(iprop(iprop(owns (c : Thread nD τ) scM2_0 fullShare ((outsAt2 V c n hn).2.2.1) ∗ owns (c : Thread nD τ) scM2_1 fullShare ((outsAt2 V c n hn).2.2.2)) ∗ Pipeline.scopedRestBut (Ix := Unit) (Name := ℕ) (U := UR sig nD τ) (Lvl := ℕ) (Val := Elt F) spec2 c [cc2_scratch0, cc2_scratch1]) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(iprop(owns (c : Thread nD τ) scM2_0 fullShare ((outsAt2 V c n hn).2.2.1) ∗ owns (c : Thread nD τ) scM2_1 fullShare ((outsAt2 V c n hn).2.2.2)) ∗ Pipeline.scopedRestBut (Ix := Unit) (Name := ℕ) (U := UR sig nD τ) (Lvl := ℕ) (Val := Elt F) spec2 c [cc2_scratch0, cc2_scratch1]) ∗ (∃ r, prngReg c r)) := rfl

theorem PhiS2_pos (c : Dev nD) (n : ℕ) (h : n ≤ cfg2.N) (hz : n ≠ 0) :
    PhiS2 V c n h = iprop(iprop(iprop(owns (c : Thread nD τ) scM2_0 fullShare ((outsAt2 V c (n - 1) (by omega)).2.2.1) ∗ owns (c : Thread nD τ) scM2_1 fullShare ((outsAt2 V c (n - 1) (by omega)).2.2.2)) ∗ Pipeline.scopedRestBut (Ix := Unit) (Name := ℕ) (U := UR sig nD τ) (Lvl := ℕ) (Val := Elt F) spec2 c [cc2_scratch0, cc2_scratch1]) ∗ (∃ r, prngReg c r)) := by
  cases n with
  | zero => exact absurd rfl hz
  | succ n => rfl

-- Whatever the running sums hold, the invariant between two points gives back the region's own.
theorem PhiS2_any (c : Dev nD) : ∀ (n : ℕ) (h : n ≤ cfg2.N), PhiS2 V c n h ⊢ Pipeline.ΦA spec2 c
  | 0, _ => .rfl
  | n + 1, hn => by
    rw [PhiS2_succ, PhiA2_eq]
    iintro ⟨⟨⟨HS0, HS1⟩, Hrest⟩, Hg⟩
    isplitl [HS0 HS1 Hrest]
    · isplitl [HS0 HS1]
      · isplitl [HS0]; · iexists _; iexact HS0
        iexists _; iexact HS1
      iexact Hrest
    iexact Hg

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => (outsAt2 V c t.val t.isLt).1
    | ⟨2, _⟩ => (outsAt2 V c t.val t.isLt).2.1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = (outsAt2 V c t.val t.isLt).1 := by dsimp only [dat2]
theorem after2_2 (c : Dev nD) (t : Fin cfg2.N) : (dat2 V c).after 2 t = (outsAt2 V c t.val t.isLt).2.1 := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl) (fun _ => rfl) t d).trans rfl

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t))

-- One grid point meets its obligation: split on whether it opens a group.
set_option maxHeartbeats 4800000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0]
  rw [show (dat2 V c).owesAt () t.succ = (dat2 V c).owesAt () t.castSucc from rfl]
  rw [show (dat2 V c).Φ t.succ = PhiS2 V c (t.val + 1) t.isLt from rfl, PhiS2_succ]
  rw [after2_0, after2_1, after2_2]
  by_cases h0 : t.val % 32 = 0
  · rw [outsAt2_A V c t h0]
    unfold at2_A out2_A_1 out2_A_2 sout2_A_0 sout2_A_1; (try dsimp only)
    rw [PhiS2_castSucc V c t]
    refine (sep_mono_left (PhiS2_any V c _ _)).trans ?_
    rw [PhiA2_eq]
    iintro ⟨⟨⟨⟨HS0, HS1⟩, Hrest⟩, Hg⟩, Ho, ⟨%d0, H0⟩, ⟨%d1, H1⟩, ⟨%d2, H2⟩⟩
    iapply ((kernelRun2_A c (grid2.coords t) _ _ _ _ _ _ _ _ _ _ ((hcond2_0 t).mpr h0) (iblk2 V c 0 t)).2.2.2.2 Set.univ _)
    isplitl [H0]; · iexact H0
    isplitl [H1]; · iexists _; iexact H1
    isplitl [H2]; · iexists _; iexact H2
    isplitl [HS0]; · iexact HS0
    isplitl [HS1]; · iexact HS1
    iintro ⟨H0, ⟨%e1, H1⟩, ⟨%e2, H2⟩, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_of_cover _ _ _ _ _ (scover2_A_0 c _ _ _ _ _ _ _ _ _ _ _ _ _)
          unfold owns; iexists _; isplitr
          swap; · iexact HS1
          ipureintro; exact View.read_writes_of_cover _ _ _ _ _ (scover2_A_1 c _ _ _ _ _ _ _ _ _ _ _ _ _)
        iexact Hrest
      iexact Hg
    isplitl [Ho]; · iexact Ho
    isplitl [H0]; · iexact H0
    isplitl [H1]
    · unfold owns; iexists _; isplitr
      swap; · iexact H1
      ipureintro; exact View.read_writes_of_cover _ _ _ _ _ (cover2_A_1 c _ _ _ _ _ _ _ _ _ _ _ _ _)
    unfold owns; iexists _; isplitr
    swap; · iexact H2
    ipureintro; exact View.read_writes_of_cover _ _ _ _ _ (cover2_A_2 c _ _ _ _ _ _ _ _ _ _ _ _ _)

  · rw [outsAt2_B V c t h0]
    unfold at2_B out2_B_1 out2_B_2 sout2_B_0 sout2_B_1; (try dsimp only)
    by_cases hz : t.val = 0
    · exfalso; rw [hz] at h0; exact h0 (Nat.zero_mod _)
    · rw [PhiS2_castSucc V c t, PhiS2_pos V c _ _ hz]
      iintro ⟨⟨⟨⟨HS0, HS1⟩, Hrest⟩, Hg⟩, Ho, ⟨%d0, H0⟩, ⟨%d1, H1⟩, ⟨%d2, H2⟩⟩
      iapply ((kernelRun2_B c (grid2.coords t) _ _ _ _ _ _ _ _ _ _ (fun h => h0 ((hcond2_0 t).mp h)) (iblk2 V c 0 t) _ _).2.2.2.2 Set.univ _)
      isplitl [H0]; · iexact H0
      isplitl [H1]; · iexists _; iexact H1
      isplitl [H2]; · iexists _; iexact H2
      isplitl [HS0]; · iexact HS0
      isplitl [HS1]; · iexact HS1
      iintro ⟨H0, ⟨%e1, H1⟩, ⟨%e2, H2⟩, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover2_B_0 c _ _ _ _ _ _ _ _ _ _ _ _ _ _ _)
            unfold owns; iexists _; isplitr
            swap; · iexact HS1
            ipureintro; exact View.read_writes_of_cover _ _ _ _ _ (scover2_B_1 c _ _ _ _ _ _ _ _ _ _ _ _ _ _ _)
          iexact Hrest
        iexact Hg
      isplitl [Ho]; · iexact Ho
      isplitl [H0]; · iexact H0
      isplitl [H1]
      · unfold owns; iexists _; isplitr
        swap; · iexact H1
        ipureintro; exact View.read_writes_of_cover _ _ _ _ _ (cover2_B_1 c _ _ _ _ _ _ _ _ _ _ _ _ _ _ _)
      unfold owns; iexists _; isplitr
      swap; · iexact H2
      ipureintro; exact View.read_writes_of_cover _ _ _ _ _ (cover2_B_2 c _ _ _ _ _ _ _ _ _ _ _ _ _ _ _)

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

theorem hout2 (c : Dev nD) : (dat2 V c).Φ (Fin.last cfg2.N) ⊢ Pipeline.ΦA spec2 c :=
  PhiS2_any V c _ (Nat.le_of_lt_succ (Fin.last cfg2.N).isLt)

end Region2

end Cert.KernelIdeal.Hand

end
-- ==== Proof.KI.R3.lean ====
import proofs.«145685_j29137058136127_1_alg».proof.Proof.Gen.KernelIdeal.Launch
import proofs.«145685_j29137058136127_1_alg».proof.Proof.Gen.KernelIdeal.Skeleton
import proofs.«145685_j29137058136127_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region3

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_0 : Rect S1x1024x1024 := Rect.unit (s := S1x1024x1024) ![0, 0, 0] S1x1024x1024.size inb_S1x1024x1024_S1x1024x1024_0_0_0
abbrev r3_1 : Rect S1x1024x1024 := Rect.unit (s := S1x1024x1024) ![0, 0, 0] S1x1024x1024.size inb_S1x1024x1024_S1x1024x1024_0_0_0
abbrev r3_2 : Rect S1x1024 := Rect.unit (s := S1x1024) ![0, 0] S1x1024.size inb_S1x1024_S1x1024_0_0
abbrev r3_3 : Rect S1x1024 := Rect.unit (s := S1x1024) ![0, 0] S1x1024.size inb_S1x1024_S1x1024_0_0
abbrev r3_4 : Rect S1x1024 := Rect.unit (s := S1x1024) ![0, 0] S1x1024.size inb_S1x1024_S1x1024_0_0
abbrev r3_5 : Rect S1x1024 := Rect.unit (s := S1x1024) ![0, 0] S1x1024.size inb_S1x1024_S1x1024_0_0
abbrev r3_6 : Rect S1x1024x1024 := Rect.unit (s := S1x1024x1024) ![0, 0, 0] S1x1024x1024.size inb_S1x1024x1024_S1x1024x1024_0_0_0

def out3_6 (x0 : Vec F S1x1024x1024 .f32) (x1 : Vec F S1x1024x1024 .f32) (x2 : Vec F S1x1024 .f32) (x3 : Vec F S1x1024 .f32) (x4 : Vec F S1x1024 .f32) (x5 : Vec F S1x1024 .f32) : Vec F S1x1024x1024 .f32 :=
  View.canon [⟨r3_6, k3_pay1 (View.ld x0 r3_0) (View.ld x1 r3_1) (View.ld x2 r3_2) (View.ld x3 r3_3) (View.ld x4 r3_4) (View.ld x5 r3_5)⟩]

theorem cover3_6 (p0 : Vec F S1x1024x1024 .f32) (y : S1x1024x1024.Idx) :
    ∃ pc ∈ ([⟨r3_6, p0⟩] : List (View.Piece (Elt F) S1x1024x1024 .f32)), y ∈ pc.1.set :=
  View.cover_of_tiled [⟨r3_6, p0⟩] S1x1024x1024.size (by rfl) y

-- The body is one pure function of the blocks it loads: it runs safely and leaves that function's value in the output block.
set_option maxHeartbeats 1000000 in
theorem sound_kernel3 (c : Dev nD) (E : Set ℕ) (i : grid3.Coords)
    (arg2 : Memref sig .tc .vmem S1x1024x1024 .f32) (harg2 : arg2.IsWhole) (arg3 : Memref sig .tc .vmem S1x1024x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024x1024 .f32) (harg8 : arg8.IsWhole)
    (x0 : Vec F S1x1024x1024 .f32) (x1 : Vec F S1x1024x1024 .f32) (x2 : Vec F S1x1024 .f32) (x3 : Vec F S1x1024 .f32) (x4 : Vec F S1x1024 .f32) (x5 : Vec F S1x1024 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (out3_6 x0 x1 x2 x3 x4 x5)) -∗ K ⟨⟩))
      ⊢ wp frame (wpE (defs₀ (F := F)) Variants.none c none) E (cc3__k3_kernel i arg2 harg2 arg3 harg3 arg4 harg4 arg5 harg5 arg6 harg6 arg7 harg7 arg8 harg8) K := by
  simp only [cc3__k3_kernel_eq_skeleton]; unfold cc3__k3_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover3_6 _)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => out3_6 (iblk3 V c 0 t) (iblk3 V c 1 t) (iblk3 V c 2 t) (iblk3 V c 3 t) (iblk3 V c 4 t) (iblk3 V c 5 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) :
    (dat3 V c).after 6 t = out3_6 (iblk3 V c 0 t) (iblk3 V c 1 t) (iblk3 V c 2 t) (iblk3 V c 3 t) (iblk3 V c 4 t) (iblk3 V c 5 t) := by dsimp only [dat3]

theorem before3_0 (c : Dev nD) (t : Fin cfg3.N) (d) : (dat3 V c).before 0 t d = iblk3 V c 0 t :=
  ((dat3 V c).before_in_eq_fetched 0 rfl (fun _ => rfl) (fun _ _ _ => rfl) (fun _ => rfl) t d).trans rfl
theorem before3_1 (c : Dev nD) (t : Fin cfg3.N) (d) : (dat3 V c).before 1 t d = iblk3 V c 1 t :=
  ((dat3 V c).before_in_eq_fetched 1 rfl (fun _ => rfl) (fun _ _ _ => rfl) (fun _ => rfl) t d).trans rfl
theorem before3_2 (c : Dev nD) (t : Fin cfg3.N) (d) : (dat3 V c).before 2 t d = iblk3 V c 2 t :=
  ((dat3 V c).before_in_eq_fetched 2 rfl (fun _ => rfl) (fun _ _ _ => rfl) (fun _ => rfl) t d).trans rfl
theorem before3_3 (c : Dev nD) (t : Fin cfg3.N) (d) : (dat3 V c).before 3 t d = iblk3 V c 3 t :=
  ((dat3 V c).before_in_eq_fetched 3 rfl (fun _ => rfl) (fun _ _ _ => rfl) (fun _ => rfl) t d).trans rfl
theorem before3_4 (c : Dev nD) (t : Fin cfg3.N) (d) : (dat3 V c).before 4 t d = iblk3 V c 4 t :=
  ((dat3 V c).before_in_eq_fetched 4 rfl (fun _ => rfl) (fun _ _ _ => rfl) (fun _ => rfl) t d).trans rfl
theorem before3_5 (c : Dev nD) (t : Fin cfg3.N) (d) : (dat3 V c).before 5 t d = iblk3 V c 5 t :=
  ((dat3 V c).before_in_eq_fetched 5 rfl (fun _ => rfl) (fun _ _ _ => rfl) (fun _ => rfl) t d).trans rfl

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t))

-- One grid point meets its obligation; nothing is carried from point to point.
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel3 c Set.univ _ _ _ _ _ _ _ _ _ _ _ _ _ _ _ (iblk3 V c 0 t) (iblk3 V c 1 t) (iblk3 V c 2 t) (iblk3 V c 3 t) (iblk3 V c 4 t) (iblk3 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation3 (c : Dev nD) : BodyObligation (dat3 (F := F) V c) (defs₀ (F := F)) Variants.none () Set.univ := fun t => by
  rw [bigSep_W3, bigSep_W3]
  exact sound_body3 V c t

end Region3

end Cert.KernelIdeal.Hand

end
-- ==== Proof.KI.Run.lean ====
import proofs.«145685_j29137058136127_1_alg».proof.Proof.KI.R0
import proofs.«145685_j29137058136127_1_alg».proof.Proof.KI.R1
import proofs.«145685_j29137058136127_1_alg».proof.Proof.KI.R2
import proofs.«145685_j29137058136127_1_alg».proof.Proof.KI.R3
import proofs.«145685_j29137058136127_1_alg».proof.Proof.Gen.KernelIdeal.Regions

set_option backward.isDefEq.respectTransparency.types false

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)

variable {F : FTy → Type} [FloatOps F]

local notation "𝕄" => MT nD τ sig Unit (Elt F) ℕ (UR sig nD τ) ℕ

section
variable {cfg : Cfg sig Λ₀} {c : Dev nD} (d : Dat τ (Elt F) Unit ℕ (UR sig nD τ) ℕ cfg c) (V : Valuation τ sig (Elt F))

/-- `V` updated at the arrays with the data's last contents. -/
def exitV : Valuation τ sig (Elt F) := Pipeline.withArrays cfg.spec c V fun w => d.arrAt w cfg.N

theorem exitV_arr (hinj : Function.Injective (Pipeline.arrRef cfg.spec)) (w : Fin cfg.W) :
    exitV d V (Proc.devRef .tc (Pipeline.arrRef cfg.spec w)) = d.arrAt w cfg.N := Pipeline.withArrays_arr _ hinj c _ _ w

/-- Off the output arrays the update is the identity: an input array's contents do not depend on the point. -/
theorem exitV_keep (hinj : Function.Injective (Pipeline.arrRef cfg.spec))
    (hA : ∀ w, d.A w = V (Proc.devRef .tc (Pipeline.arrRef cfg.spec w))) (b : Ref sig .tc)
    (hb : ∀ w, (cfg.win w).isOut = true → Pipeline.arrRef cfg.spec w ≠ b) : exitV d V (Proc.devRef .tc b) = V (Proc.devRef .tc b) := by
  by_cases h : ∃ w, Pipeline.arrRef cfg.spec w = b
  · obtain ⟨w, rfl⟩ := h
    exact (exitV_arr d V hinj w).trans ((d.arrAt_in w (Bool.eq_false_iff.2 fun hh => hb w hh rfl) _).trans (hA w))
  · exact Pipeline.withArrays_of_ne _ c _ _ b fun w e => h ⟨w, e⟩
end

variable (m : (ℓ : Loc nD τ sig) → Buf (Elt F) ℓ)

abbrev toV (W : Dev nD → Valuation τ sig (Elt F)) (c : Dev nD) (b : Ref sig .tc) : Buf (Elt F) ((c : Thread nD τ).loc b) := W c b

abbrev W0 : Dev nD → Valuation τ sig (Elt F) := fun c b => m (c, b)
abbrev W1 : Dev nD → Valuation τ sig (Elt F) := fun c => StableHlo.after hostOps0 (W0 m c)
abbrev V1 := toV (W1 m)
def W2 (c : Dev nD) : Valuation τ sig (Elt F) := exitV (dat0 (V1 m) c) (W1 m c)
abbrev V2 := toV (W2 m)
def W3 (c : Dev nD) : Valuation τ sig (Elt F) := exitV (dat1 (V2 m) c) (W2 m c)
abbrev V3 := toV (W3 m)
def W4 (c : Dev nD) : Valuation τ sig (Elt F) := exitV (dat2 (V3 m) c) (W3 m c)
abbrev W5 : Dev nD → Valuation τ sig (Elt F) := fun c => StableHlo.after hostOps3 (W4 m c)
abbrev V5 := toV (W5 m)
def W6 (c : Dev nD) : Valuation τ sig (Elt F) := exitV (dat3 (V5 m) c) (W5 m c)

theorem W2_arr (c : Dev nD) (w : Fin cfg0.W) :
    W2 m c (Proc.devRef .tc (Pipeline.arrRef spec0 w)) = (dat0 (V1 m) c).arrAt w cfg0.N :=
  exitV_arr _ _ launch0.win.arr_inj w
theorem W3_arr (c : Dev nD) (w : Fin cfg1.W) :
    W3 m c (Proc.devRef .tc (Pipeline.arrRef spec1 w)) = (dat1 (V2 m) c).arrAt w cfg1.N :=
  exitV_arr _ _ launch1.win.arr_inj w
theorem W4_arr (c : Dev nD) (w : Fin cfg2.W) :
    W4 m c (Proc.devRef .tc (Pipeline.arrRef spec2 w)) = (dat2 (V3 m) c).arrAt w cfg2.N :=
  exitV_arr _ _ launch2.win.arr_inj w

theorem W1_keep (c : Dev nD) (r : Ref sig .tc) (h : r ∉ hostOps0_W) : W1 m c (Proc.devRef .tc r) = W0 m c (Proc.devRef .tc r) :=
  StableHlo.after_of_writes_sub hostOps0 _ hostOps0_writes h
theorem W2_keep (c : Dev nD) (b : Ref sig .tc) (hb : ∀ w, (cfg0.win w).isOut = true → Pipeline.arrRef spec0 w ≠ b) :
    W2 m c (Proc.devRef .tc b) = W1 m c (Proc.devRef .tc b) :=
  exitV_keep _ _ launch0.win.arr_inj (A_eq0 (V1 m) c) b hb
theorem W3_keep (c : Dev nD) (b : Ref sig .tc) (hb : ∀ w, (cfg1.win w).isOut = true → Pipeline.arrRef spec1 w ≠ b) :
    W3 m c (Proc.devRef .tc b) = W2 m c (Proc.devRef .tc b) :=
  exitV_keep _ _ launch1.win.arr_inj (A_eq1 (V2 m) c) b hb
theorem W4_keep (c : Dev nD) (b : Ref sig .tc) (hb : ∀ w, (cfg2.win w).isOut = true → Pipeline.arrRef spec2 w ≠ b) :
    W4 m c (Proc.devRef .tc b) = W3 m c (Proc.devRef .tc b) :=
  exitV_keep _ _ launch2.win.arr_inj (A_eq2 (V3 m) c) b hb
theorem W5_keep (c : Dev nD) (r : Ref sig .tc) (h : r ∉ hostOps3_W) : W5 m c (Proc.devRef .tc r) = W4 m c (Proc.devRef .tc r) :=
  StableHlo.after_of_writes_sub hostOps3 _ hostOps3_writes h
theorem W6_keep (c : Dev nD) (b : Ref sig .tc) (hb : ∀ w, (cfg3.win w).isOut = true → Pipeline.arrRef spec3 w ≠ b) :
    W6 m c (Proc.devRef .tc b) = W5 m c (Proc.devRef .tc b) :=
  exitV_keep _ _ launch3.win.arr_inj (A_eq3 (V5 m) c) b hb

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The six identities composed, at a reference none of the six updates changes. -/
theorem ends {s : MemSt nD τ sig (Elt F)} {c : Dev nD} (h : ∀ b ∈ Pipeline.ucRefs τ sig, s.mem (((c : Thread nD τ)).1, b) = W6 m c b) (b : Ref sig .tc)
    (hb : ¬ (Proc.devRef .tc b : DevRef τ sig).isScoped ∧ b ∉ hostOps0_W ∧ b ∉ hostOps3_W
      ∧ (∀ w, (cfg0.win w).isOut = true → Pipeline.arrRef spec0 w ≠ b) ∧ (∀ w, (cfg1.win w).isOut = true → Pipeline.arrRef spec1 w ≠ b)
      ∧ (∀ w, (cfg2.win w).isOut = true → Pipeline.arrRef spec2 w ≠ b) ∧ ∀ w, (cfg3.win w).isOut = true → Pipeline.arrRef spec3 w ≠ b) :
    s.mem ((c.tc : Thread nD τ).loc b) = m ((c.tc : Thread nD τ).loc b) := by
  obtain ⟨hs, h0, h3, k0, k1, k2, k3⟩ := hb
  exact (h _ (mem_uc b hs)).trans <| (W6_keep m c b k3).trans <| (W5_keep m c b h3).trans <| (W4_keep m c b k2).trans <|
    (W3_keep m c b k1).trans <| (W2_keep m c b k0).trans <| (W1_keep m c b h0).trans rfl

def pdats : (p : Fin 4) → (c : Dev nD) → Dat τ (Elt F) Unit ℕ (UR sig nD τ) ℕ (cfgs p) c
  | ⟨0, _⟩ => dat0 (V1 m)
  | ⟨1, _⟩ => dat1 (V2 m)
  | ⟨2, _⟩ => dat2 (V3 m)
  | ⟨3, _⟩ => dat3 (V5 m)
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev T (W : Dev nD → Valuation τ sig (Elt F)) (c : Dev nD) : sProp 𝕄 :=
  iprop(StableHlo.held (c : Thread nD τ) (Pipeline.ucRefs τ sig) (W c) ∗ R c)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- The segment record of pipeline `p` from the state at `V` to the state at `V` updated at its arrays. -/
def reg {p : Fin 4} (la : Pipeline.LaunchFacts (nD := nD) (τ := τ) cfgs p) (V : Dev nD → Valuation τ sig (Elt F))
    (hbody : ∀ c, BodyObligation (pdats m p c) (defs₀ (F := F)) 𝒱₀ () Set.univ)
    (hq : ∀ c w, (pdats m p c).q w = fullShare)
    (hA : ∀ c w, (pdats m p c).A w = V c (Proc.devRef .tc (Pipeline.arrRef (cfgs p).spec w)))
    (h0 : ∀ c t, (pdats m p c).owed t = 0) (hr : ∀ c, (pdats m p c).recorded 0 = Set.univ)
    (hi : ∀ c, Pipeline.ΦA (cfgs p).spec c ⊢ (pdats m p c).Φ 0)
    (ho : ∀ c, (pdats m p c).Φ (Fin.last _) ⊢ Pipeline.ΦA (cfgs p).spec c) :
    Pipeline.RegionSeg (pcfgs (F := F)) adm (pdats m) () defs₀ 𝒱₀ L lv p where
  win := la.win.to₀
  block_pos := la.block_pos
  stage_whole := la.stage_whole
  K := PEmpty
  osem k := k.elim
  ho := Pipeline.OwnSemFacts.none _
  hbody c := (hbody c).loose
  hwaits := Pipeline.hwaits_of_owed_zero _ _ _ _ L lv p h0
  pre := T V
  post := T fun c => exitV (pdats m p c) (V c)
  X c := iprop(∃ r, prngReg c r)
  Y c := iprop(∃ r, prngReg c r)
  Z c := Pipeline.unscopedRest (Ix := Unit) (Name := ℕ) (U := UR sig nD τ) (Lvl := ℕ) (cfgs p).spec c fun b => V c b
  hentry c := by
    rw [Pipeline.ownSems0_none]
    have hs := Pipeline.arrays_of_unscopedBufs (p := p) (pcfgs (F := F)) adm (pdats m) la.win la.arr_whole c
      ((pdats m p c).share_full (hq c)) (fun b => V c b) (hA c)
    rw [Pipeline.unscopedBufs_held] at hs
    iintro ⟨⟨Hub, Hp, HO⟩, -, -⟩
    ihave H := hs $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [h0 c]
      icases HO with ⟨%W, HO⟩; iexists W; isplitr; · ipureintro; exact fun x _ => Or.inl (hr c ▸ Set.mem_univ x)
      iexact HO
    isplitl [Hp] <;> iassumption
  hin c := by
    refine .trans ?_ (hi c); unfold Pipeline.ΦA
    iintro ⟨Hp, -, Hr⟩
    isplitl [Hr] <;> iassumption
  hout c := by
    refine (ho c).trans ?_; rw [Pipeline.ownSems0_none]; unfold Pipeline.ΦA
    iintro ⟨Hr, Hp⟩
    isplitl [Hp]; · iexact Hp
    isplitr; · iempintro
    iexact Hr
  hexit c := by
    have hj := Pipeline.unscopedBufs_of_arrays (p := p) (pcfgs (F := F)) adm (Ix := Unit) (Name := ℕ) (U := UR sig nD τ) (Lvl := ℕ)
      la.win la.arr_whole c (pdats m) ((pdats m p c).share_full (hq c))
      (fun b => V c b) (fun b => exitV (pdats m p c) (V c) b) ((pdats m p c).arrAt · (cfgs p).N)
      (fun w => (exitV_arr _ _ la.win.arr_inj w).symm)
      fun b hb => Pipeline.withArrays_of_ne _ c _ _ b fun w e => hb (Finset.mem_image.mpr ⟨w, Finset.mem_univ _, e⟩)
    rw [Pipeline.unscopedBufs_held] at hj
    iintro ⟨Ha, HO, HY, Hrest⟩
    imodintro
    isplitl [Ha Hrest]
    · iapply hj; isplitl [Ha] <;> iassumption
    isplitl [HY]; · iexact HY
    unfold Pipeline.Dat.owesAt Pipeline.owesWithin
    rw [h0 c]
    icases HO with ⟨%W, -, HO⟩; iexists W; iexact HO

abbrev segs : List (Pipeline.Seg (pcfgs (F := F)) adm (pdats m) () defs₀ 𝒱₀ L lv) :=
  [ .host (hseg hostOps0 hostOps0_sub hostOps0_fresh (W0 m)),
    .region (reg m launch0 (W1 m) (body_obligation0 (V1 m)) (fun _ _ => rfl) (fun _ _ => rfl) (fun _ _ => rfl) (fun _ => rfl) (hin0 (V1 m)) (hout0 (V1 m))),
    .region (reg m launch1 (W2 m) (body_obligation1 (V2 m)) (fun _ _ => rfl) (fun _ _ => rfl) (fun _ _ => rfl) (fun _ => rfl) (fun _ => .rfl) fun _ => .rfl),
    .region (reg m launch2 (W3 m) (body_obligation2 (V3 m)) (fun _ _ => rfl) (fun _ _ => rfl) (fun _ _ => rfl) (fun _ => rfl) (hin2 (V3 m)) (hout2 (V3 m))),
    .host (hseg hostOps3 hostOps3_sub hostOps3_fresh (W4 m)),
    .region (reg m launch3 (W5 m) (body_obligation3 (V5 m)) (fun _ _ => rfl) (fun _ _ => rfl) (fun _ _ => rfl) (fun _ => rfl) (fun _ => .rfl) fun _ => .rfl) ]
theorem main_run (c : Dev nD) : main (F := F) c = Pipeline.Seg.run (segs m) := (main_chain c).trans (by chain_rfl)

theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W6 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => BI.emp)
    (u₀ := initOf (Pipeline.cells cfgs cellOf_inj) (Pipeline.launchToks cfgs cellOf_inj))
    (hu₀ := by rw [BI.bigSep_emp_const]; exact sep_emp.mpr.trans fupd_intro)
    (T₀ := T (W0 m)) (Tₙ := fun c => iprop(StableHlo.held (c : Thread nD τ) (Pipeline.ucRefs τ sig) (W6 m c) ∗ ∃ r, prngReg c r))
    (hch := ⟨fun _ => .rfl, fun _ => .rfl, fun _ => .rfl, fun _ => .rfl, fun _ => .rfl, fun _ => .rfl, fun _ => sep_assoc.mpr⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h => h)

theorem run_value (ρ : Dev nD → PrngReg) : θ_run defs (onTc (τ := τ) (main (F := F))) ⟨m, fun _ => 0, ρ⟩ (fun r => ∀ c : Dev nD,
      r.2.mem ((c.tc : Thread nD τ).loc main_v15) = (dat3 (V5 m) c).arrAt 6 cfg3.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c _ (mem_uc main_v15 (by decide))).trans (exitV_arr _ _ launch3.win.arr_inj (6 : Fin cfg3.W)),
    ends m (h c) main_arg0 (by decide), ends m (h c) main_arg1 (by decide), ends m (h c) main_arg2 (by decide),
    ends m (h c) main_arg3 (by decide), ends m (h c) main_arg4 (by decide), ends m (h c) main_arg5 (by decide),
    ends m (h c) main_arg6 (by decide), ends m (h c) main_arg7 (by decide), ends m (h c) main_arg8 (by decide),
    ends m (h c) main_arg9 (by decide), ends m (h c) main_arg10 (by decide)⟩) (run_all m ρ)

end Cert.KernelIdeal.Hand

end
-- ==== Proof.Spec.lean ====
import Idealize.ShloMosaic.PureOps.Ideal

noncomputable section

namespace Cert.Spec

open Idealize.ShloMosaic

structure Args where
  v : Fin 8 → Fin 4096 → Fin 1024 → EReal
  gw : Fin 256 → Fin 1024 → EReal
  gb : Fin 256 → EReal
  tw : Fin 256 → Fin 1024 → EReal
  tb : Fin 256 → EReal
  pw : Fin 256 → Fin 1024 → EReal
  pb : Fin 256 → EReal
  ww : Fin 1024 → Fin 256 → EReal
  wb : Fin 1024 → EReal
  gamma : Fin 1024 → EReal
  beta : Fin 1024 → EReal

structure Args.IsReal (a : Args) : Prop where
  v : ∀ b n c, ∃ x : ℝ, a.v b n c = (x : EReal)
  gw : ∀ i c, ∃ x : ℝ, a.gw i c = (x : EReal)
  gb : ∀ i, ∃ x : ℝ, a.gb i = (x : EReal)
  tw : ∀ i c, ∃ x : ℝ, a.tw i c = (x : EReal)
  tb : ∀ i, ∃ x : ℝ, a.tb i = (x : EReal)
  pw : ∀ i c, ∃ x : ℝ, a.pw i c = (x : EReal)
  pb : ∀ i, ∃ x : ℝ, a.pb i = (x : EReal)
  ww : ∀ c i, ∃ x : ℝ, a.ww c i = (x : EReal)
  wb : ∀ c, ∃ x : ℝ, a.wb c = (x : EReal)
  gamma : ∀ c, ∃ x : ℝ, a.gamma c = (x : EReal)
  beta : ∀ c, ∃ x : ℝ, a.beta c = (x : EReal)

abbrev w4096 : EReal := Ideal.ofBits .f32 0x45800000#32
abbrev wInv4096 : EReal := Ideal.ofBits .f32 0x39800000#32
abbrev w32768 : EReal := Ideal.ofBits .f32 0x47000000#32
abbrev wEps : EReal := Ideal.ofBits .f32 0x3727C5AC#32

variable (a : Args)

def proj (w : Fin 256 → Fin 1024 → EReal) (bias : Fin 256 → EReal) (b : Fin 8) (n : Fin 4096) (i : Fin 256) : EReal :=
  (∑ c : Fin 1024, a.v b n c * w i c) + bias i

def gv := proj a a.gw a.gb
def tv := proj a a.tw a.tb
def pv := proj a a.pw a.pb

def tileRow (nt : Fin 4) (r : Fin 1024) : Fin 4096 := ⟨nt.val * 1024 + r.val, by have := nt.isLt; have := r.isLt; omega⟩

def mTile (b : Fin 8) (nt : Fin 4) (i j : Fin 256) : EReal :=
  ∑ r : Fin 1024, pv a b (tileRow nt r) i * gv a b (tileRow nt r) j

def mK (b : Fin 8) (i j : Fin 256) : EReal := (∑ nt : Fin 4, mTile a b nt i j) * wInv4096

def yK (b : Fin 8) (n : Fin 4096) (j : Fin 256) : EReal := ∑ i : Fin 256, tv a b n i * mK a b i j

def wyK (b : Fin 8) (n : Fin 4096) (c : Fin 1024) : EReal := (∑ j : Fin 256, yK a b n j * a.ww c j) + a.wb c

def ptB (t : Fin 32) : Fin 8 := ⟨t.val / 4, by have := t.isLt; omega⟩
def ptN (t : Fin 32) : Fin 4 := ⟨t.val % 4, by omega⟩

def sumK (c : Fin 1024) : EReal := ∑ t : Fin 32, ∑ r : Fin 1024, wyK a (ptB t) (tileRow (ptN t) r) c
def sqK (c : Fin 1024) : EReal :=
  ∑ t : Fin 32, ∑ r : Fin 1024, wyK a (ptB t) (tileRow (ptN t) r) c * wyK a (ptB t) (tileRow (ptN t) r) c
def meanK (c : Fin 1024) : EReal := Ideal.div (sumK a c) w32768
def varK (c : Fin 1024) : EReal := Ideal.div (sqK a c) w32768 - meanK a c * meanK a c

def outK (b : Fin 8) (n : Fin 4096) (c : Fin 1024) : EReal :=
  (wyK a b n c - meanK a c) * Ideal.rsqrt (varK a c + wEps) * a.gamma c + a.beta c + a.v b n c

def rR (b : Fin 8) (n m : Fin 4096) : EReal := Ideal.div (∑ i : Fin 256, tv a b n i * pv a b m i) w4096

def yR (b : Fin 8) (n : Fin 4096) (j : Fin 256) : EReal := ∑ m : Fin 4096, rR a b n m * gv a b m j

def wyR (b : Fin 8) (n : Fin 4096) (c : Fin 1024) : EReal := (∑ j : Fin 256, yR a b n j * a.ww c j) + a.wb c

def meanR (c : Fin 1024) : EReal := Ideal.div (∑ b : Fin 8, ∑ n : Fin 4096, wyR a b n c) w32768
def varR (c : Fin 1024) : EReal :=
  Ideal.div (∑ b : Fin 8, ∑ n : Fin 4096, (wyR a b n c - meanR a c) * (wyR a b n c - meanR a c)) w32768

def outR (b : Fin 8) (n : Fin 4096) (c : Fin 1024) : EReal :=
  (wyR a b n c - meanR a c) * Ideal.rsqrt (varR a c + wEps) * a.gamma c + a.beta c + a.v b n c

end Cert.Spec

end
-- ==== Proof.LibDense.lean ====
import Idealize.ShloMosaic.Lib.KernelVsHost
import Idealize.ShloMosaic.Lib.StackMember

noncomputable section

namespace Cert.LibDense

open Idealize.ShloMosaic Idealize.ShloMosaic.ValueIdx

-- Adding the product to zero gives the product, whose entry (r, j) is the sum over the contracted coordinate.
theorem matmul_plain_zero_apply {M K N : ℕ} {φ₁ φ₂ : FTy} (prec : Option ContractPrecision) (lhs : FVec Ideal ⟨2, ![M, K]⟩ φ₁)
    (rhs : FVec Ideal ⟨2, ![K, N]⟩ φ₂) (r : Fin M) (j : Fin N) :
    FloatOps.matmul (DotDims.plain M K N) prec lhs rhs (constant ⟨2, ![M, N]⟩ .f32 0x00000000#32) (ix2 r j)
      = ∑ k : Fin K, lhs (ix2 r k) * rhs (ix2 k j) :=
  (congrFun (matmul_zero_eq_dotGeneral _ prec lhs rhs) _).trans (StackMember.dotGeneral_plain_apply prec lhs rhs r j)

end Cert.LibDense

end
-- ==== Proof.KI.Val0.lean ====
import proofs.«145685_j29137058136127_1_alg».proof.Proof.KI.R0
import proofs.«145685_j29137058136127_1_alg».proof.Proof.Spec
import proofs.«145685_j29137058136127_1_alg».proof.Proof.LibDense
import Idealize.ShloMosaic.Lib.Pipeline.Value
import Idealize.ShloMosaic.Lib.ValueIdx
import Idealize.ShloMosaic.Lib.ValueLayout
import Idealize.ShloMosaic.PureOps.Ideal
import Idealize.ShloMosaic.PureOps.Ideal.Laws
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.ValueIdx
open Idealize.SL.Sem
open Idealize.ShloMosaic.Pipeline (Dat Cfg Window)

namespace v0

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

section
variable (c : Dev nD) (i : grid0.Coords) (arg2 : Memref sig .tc .vmem S1x1024x1024 .f32) (harg2 : arg2.IsWhole) (arg3 : Memref sig .tc .vmem S256x1024 .f32) (harg3 : arg3.IsWhole) (arg4 : Memref sig .tc .vmem S1x256 .f32) (harg4 : arg4.IsWhole) (arg5 : Memref sig .tc .vmem S256x1024 .f32) (harg5 : arg5.IsWhole) (arg6 : Memref sig .tc .vmem S1x256 .f32) (harg6 : arg6.IsWhole) (arg7 : Memref sig .tc .vmem S256x1024 .f32) (harg7 : arg7.IsWhole) (arg8 : Memref sig .tc .vmem S1x256 .f32) (harg8 : arg8.IsWhole) (arg9 : Memref sig .tc .vmem S1x1024x256 .f32) (harg9 : arg9.IsWhole) (arg10 : Memref sig .tc .vmem S1x256x256 .f32) (harg10 : arg10.IsWhole) (arg11 : Memref sig .tc .vmem S256x256 .f32) (harg11 : arg11.IsWhole)

section
variable (hc0 : cond0_0 i) (x0 : Vec F S1x1024x1024 .f32) (x1 : Vec F S256x1024 .f32) (x2 : Vec F S1x256 .f32) (x3 : Vec F S256x1024 .f32) (x4 : Vec F S1x256 .f32) (x5 : Vec F S256x1024 .f32) (x6 : Vec F S1x256 .f32)

-- Each piece the body writes is the body's own arithmetic of the blocks it loaded.
theorem out7_A :
    out0_A_7 c i arg2 harg2 arg3 harg3 arg4 harg4 arg5 harg5 arg6 harg6 arg7 harg7 arg8 harg8 arg9 harg9 arg10 harg10 arg11 harg11 hc0 x0 x1 x2 x3 x4 x5 x6 = k0_pay7 x0 x1 x2 := by
  unfold out0_A_7
  rw [View.read_writes_eq_canon _ _ _ (cover0_A_7 c i arg2 harg2 arg3 harg3 arg4 harg4 arg5 harg5 arg6 harg6 arg7 harg7 arg8 harg8 arg9 harg9 arg10 harg10 arg11 harg11 hc0 x0 x1 x2 x3 x4 x5 x6)]
  unfold kernelRun0_A
  dsimp only
  sl_unfold_words
  rw [View.canon_unit_zero hz3]
  simp only [View.readAt_eq_ld, harg2.read_unread, harg3.read_unread, harg4.read_unread, harg5.read_unread, harg6.read_unread, harg7.read_unread, harg8.read_unread, View.ld_unit_zero (S := S1x1024x1024) hz3, View.ld_unit_zero (S := S256x1024) hz2, View.ld_unit_zero (S := S1x256) hz2]

theorem scr_A :
    sout0_A_0 c i arg2 harg2 arg3 harg3 arg4 harg4 arg5 harg5 arg6 harg6 arg7 harg7 arg8 harg8 arg9 harg9 arg10 harg10 arg11 harg11 hc0 x0 x1 x2 x3 x4 x5 x6 = k0_pay1 (k0_pay5 x0 x3 x4) (k0_pay6 x0 x5 x6) k0_pay3 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 hc0 x0 x1 x2 x3 x4 x5 x6)]
  unfold kernelRun0_A
  dsimp only
  sl_unfold_words
  rw [View.canon_cons_unit_zero (S := S256x256) hz2]
  simp only [View.readAt_eq_ld, harg2.read_unread, harg3.read_unread, harg4.read_unread, harg5.read_unread, harg6.read_unread, harg7.read_unread, harg8.read_unread, View.ld_unit_zero (S := S1x1024x1024) hz3, View.ld_unit_zero (S := S256x1024) hz2, View.ld_unit_zero (S := S1x256) hz2, View.readCov_unit_zero (S := S256x256) _ hz2]

theorem out8_A :
    out0_A_8 c i arg2 harg2 arg3 harg3 arg4 harg4 arg5 harg5 arg6 harg6 arg7 harg7 arg8 harg8 arg9 harg9 arg10 harg10 arg11 harg11 hc0 x0 x1 x2 x3 x4 x5 x6 = k0_pay2 (k0_pay1 (k0_pay5 x0 x3 x4) (k0_pay6 x0 x5 x6) k0_pay3) := by
  unfold out0_A_8
  rw [View.read_writes_eq_canon _ _ _ (cover0_A_8 c i arg2 harg2 arg3 harg3 arg4 harg4 arg5 harg5 arg6 harg6 arg7 harg7 arg8 harg8 arg9 harg9 arg10 harg10 arg11 harg11 hc0 x0 x1 x2 x3 x4 x5 x6)]
  unfold kernelRun0_A
  dsimp only
  sl_unfold_words
  rw [View.canon_unit_zero hz3]
  simp only [View.readAt_eq_ld, harg2.read_unread, harg3.read_unread, harg4.read_unread, harg5.read_unread, harg6.read_unread, harg7.read_unread, harg8.read_unread, View.ld_unit_zero (S := S1x1024x1024) hz3, View.ld_unit_zero (S := S256x1024) hz2, View.ld_unit_zero (S := S1x256) hz2, View.readCov_cons_toLoadRect, View.readCov_unit_zero (S := S256x256) _ hz2]

end

section
variable (hc0 : ¬cond0_0 i) (x0 : Vec F S1x1024x1024 .f32) (x1 : Vec F S256x1024 .f32) (x2 : Vec F S1x256 .f32) (x3 : Vec F S256x1024 .f32) (x4 : Vec F S1x256 .f32) (x5 : Vec F S256x1024 .f32) (x6 : Vec F S1x256 .f32) (xs0 : Vec F S256x256 .f32)

theorem out7_B :
    out0_B_7 c i arg2 harg2 arg3 harg3 arg4 harg4 arg5 harg5 arg6 harg6 arg7 harg7 arg8 harg8 arg9 harg9 arg10 harg10 arg11 harg11 hc0 x0 x1 x2 x3 x4 x5 x6 xs0 = k0_pay7 x0 x1 x2 := by
  unfold out0_B_7
  rw [View.read_writes_eq_canon _ _ _ (cover0_B_7 c i arg2 harg2 arg3 harg3 arg4 harg4 arg5 harg5 arg6 harg6 arg7 harg7 arg8 harg8 arg9 harg9 arg10 harg10 arg11 harg11 hc0 x0 x1 x2 x3 x4 x5 x6 xs0)]
  unfold kernelRun0_B
  dsimp only
  sl_unfold_words
  rw [View.canon_unit_zero hz3]
  simp only [View.readAt_eq_ld, harg2.read_unread, harg3.read_unread, harg4.read_unread, harg5.read_unread, harg6.read_unread, harg7.read_unread, harg8.read_unread, View.ld_unit_zero (S := S1x1024x1024) hz3, View.ld_unit_zero (S := S256x1024) hz2, View.ld_unit_zero (S := S1x256) hz2]

theorem scr_B :
    sout0_B_0 c i arg2 harg2 arg3 harg3 arg4 harg4 arg5 harg5 arg6 harg6 arg7 harg7 arg8 harg8 arg9 harg9 arg10 harg10 arg11 harg11 hc0 x0 x1 x2 x3 x4 x5 x6 xs0 = k0_pay1 (k0_pay5 x0 x3 x4) (k0_pay6 x0 x5 x6) xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 hc0 x0 x1 x2 x3 x4 x5 x6 xs0)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg8.read_unread, View.ld_unit_zero (S := S1x1024x1024) hz3, View.ld_unit_zero (S := S256x1024) hz2, View.ld_unit_zero (S := S1x256) hz2, harg11.read_unread, View.ld_unit_zero (S := S256x256) hz2]

theorem out8_B :
    out0_B_8 c i arg2 harg2 arg3 harg3 arg4 harg4 arg5 harg5 arg6 harg6 arg7 harg7 arg8 harg8 arg9 harg9 arg10 harg10 arg11 harg11 hc0 x0 x1 x2 x3 x4 x5 x6 xs0 = k0_pay2 (k0_pay1 (k0_pay5 x0 x3 x4) (k0_pay6 x0 x5 x6) xs0) := by
  unfold out0_B_8
  rw [View.read_writes_eq_canon _ _ _ (cover0_B_8 c i arg2 harg2 arg3 harg3 arg4 harg4 arg5 harg5 arg6 harg6 arg7 harg7 arg8 harg8 arg9 harg9 arg10 harg10 arg11 harg11 hc0 x0 x1 x2 x3 x4 x5 x6 xs0)]
  unfold kernelRun0_B
  dsimp only
  sl_unfold_words
  rw [View.canon_unit_zero hz3]
  simp only [View.readAt_eq_ld, harg2.read_unread, harg3.read_unread, harg4.read_unread, harg5.read_unread, harg6.read_unread, harg7.read_unread, harg8.read_unread, View.ld_unit_zero (S := S1x1024x1024) hz3, View.ld_unit_zero (S := S256x1024) hz2, View.ld_unit_zero (S := S1x256) hz2, harg11.read_unread, View.ld_unit_zero (S := S256x256) hz2, View.readCov_cons_toLoadRect]

end

end

theorem dotProj_eq : dot_S1024x1024_S1024x256_S1024x256_1_0_0_1_n_n = DotDims.plain 1024 1024 256 := rfl
theorem dotAcc_eq : dot_S256x1024_S1024x256_S256x256_1_0_0_1_n_n = DotDims.plain 256 1024 256 := rfl

theorem matmul_rows_cols {M K N : ℕ} {φ₁ φ₂ : FTy} (d : DotDims ⟨2, ![M, K]⟩ ⟨2, ![K, N]⟩ ⟨2, ![M, N]⟩)
    (hd : d = DotDims.plain M K N) (prec : Option ContractPrecision) (lhs : FVec Ideal ⟨2, ![M, K]⟩ φ₁)
    (rhs : FVec Ideal ⟨2, ![K, N]⟩ φ₂) (r : Fin M) (j : Fin N) :
    FloatOps.matmul d prec lhs rhs (constant ⟨2, ![M, N]⟩ .f32 0x00000000#32) (ix2 r j)
      = ∑ k : Fin K, lhs (ix2 r k) * rhs (ix2 k j) := by
  subst hd
  exact Cert.LibDense.matmul_plain_zero_apply prec lhs rhs r j

theorem pay4_apply (x0 : Vec Ideal S1x1024x1024 .f32) (r k : Fin 1024) :
    k0_pay4 (F := Ideal) x0 (ix2 r k) = x0 (ix3 (0 : Fin 1) r k) :=
  shapeCast_1ab_ab_apply x0 shapeCasts_S1x1024x1024_S1024x1024 r k

theorem proj_apply (x0 : Vec Ideal S1x1024x1024 .f32) (w : Vec Ideal S256x1024 .f32) (bias : Vec Ideal S1x256 .f32)
    (r : Fin 1024) (i : Fin 256) :
    k0_pay5 (F := Ideal) x0 w bias (ix2 r i)
      = (∑ k : Fin 1024, x0 (ix3 (0 : Fin 1) r k) * w (ix2 i k)) + bias (ix2 (0 : Fin 1) i) := by
  unfold k0_pay5
  show FloatOps.matmul dot_S1024x1024_S1024x256_S1024x256_1_0_0_1_n_n none (k0_pay4 (F := Ideal) x0)
        (transpose S1024x256 [1, 0] (truncf .bf16 w bitsLt_bf16_f32) transposes_S256x1024_p1_0_S1024x256)
        (constant (F := Ideal) S1024x256 .f32 0x00000000#32) (ix2 r i)
      + broadcastTo S1024x256 (shapeCast S1x256 bias shapeCasts_S1x256_S1x256) broadcasts_S1x256_S1024x256 (ix2 r i) = _
  refine congrArg₂ (· + ·) ?_ ?_
  · refine (matmul_rows_cols dot_S1024x1024_S1024x256_S1024x256_1_0_0_1_n_n dotProj_eq none (k0_pay4 (F := Ideal) x0)
      (transpose S1024x256 [1, 0] (truncf .bf16 w bitsLt_bf16_f32) transposes_S256x1024_p1_0_S1024x256) r i).trans ?_
    exact Finset.sum_congr rfl fun k _ => congrArg₂ (· * ·) (pay4_apply x0 r k)
      ((transpose_ix2_apply (truncf (F := Ideal) .bf16 w bitsLt_bf16_f32) transposes_S256x1024_p1_0_S1024x256 k i).trans
        (truncf_apply w bitsLt_bf16_f32 (ix2 i k)))
  · exact (broadcastTo_1b_ab_apply (shapeCast S1x256 bias shapeCasts_S1x256_S1x256) broadcasts_S1x256_S1024x256 r i).trans
      (congrFun (shapeCast_self bias shapeCasts_S1x256_S1x256) (ix2 (0 : Fin 1) i))

theorem proj6_apply (x0 : Vec Ideal S1x1024x1024 .f32) (w : Vec Ideal S256x1024 .f32) (bias : Vec Ideal S1x256 .f32)
    (r : Fin 1024) (i : Fin 256) :
    k0_pay6 (F := Ideal) x0 w bias (ix2 r i)
      = (∑ k : Fin 1024, x0 (ix3 (0 : Fin 1) r k) * w (ix2 i k)) + bias (ix2 (0 : Fin 1) i) :=
  proj_apply x0 w bias r i

theorem pay7_apply (x0 : Vec Ideal S1x1024x1024 .f32) (w : Vec Ideal S256x1024 .f32) (bias : Vec Ideal S1x256 .f32)
    (u : Fin 1) (r : Fin 1024) (i : Fin 256) :
    k0_pay7 (F := Ideal) x0 w bias (ix3 u r i)
      = (∑ k : Fin 1024, x0 (ix3 (0 : Fin 1) r k) * w (ix2 i k)) + bias (ix2 (0 : Fin 1) i) :=
  (shapeCast_ab_1ab_apply (k0_pay5 (F := Ideal) x0 w bias) shapeCasts_S1024x256_S1x1024x256 u r i).trans
    (proj_apply x0 w bias r i)

theorem pay1_apply (p g : FVec Ideal S1024x256 .f32) (s : Vec Ideal S256x256 .f32) (i j : Fin 256) :
    k0_pay1 (F := Ideal) p g s (ix2 i j) = s (ix2 i j) + ∑ r : Fin 1024, p (ix2 r i) * g (ix2 r j) := by
  unfold k0_pay1
  refine (congrFun (shapeCast_self _ shapeCasts_S256x256_S256x256) (ix2 i j)).trans ?_
  show s (ix2 i j) + FloatOps.matmul dot_S256x1024_S1024x256_S256x256_1_0_0_1_n_n none
        (transpose S256x1024 [1, 0] (truncf .bf16 p bitsLt_bf16_f32) transposes_S1024x256_p1_0_S256x1024)
        (truncf .bf16 g bitsLt_bf16_f32) (constant (F := Ideal) S256x256 .f32 0x00000000#32) (ix2 i j) = _
  refine congrArg (s (ix2 i j) + ·) ?_
  refine (matmul_rows_cols dot_S256x1024_S1024x256_S256x256_1_0_0_1_n_n dotAcc_eq none
      (transpose S256x1024 [1, 0] (truncf .bf16 p bitsLt_bf16_f32) transposes_S1024x256_p1_0_S256x1024)
      (truncf .bf16 g bitsLt_bf16_f32) i j).trans ?_
  exact Finset.sum_congr rfl fun r _ => congrArg₂ (· * ·)
    ((transpose_ix2_apply (truncf (F := Ideal) .bf16 p bitsLt_bf16_f32) transposes_S1024x256_p1_0_S256x1024 i r).trans
      (truncf_apply p bitsLt_bf16_f32 (ix2 r i)))
    (truncf_apply g bitsLt_bf16_f32 (ix2 r j))

theorem pay2_apply (s : Vec Ideal S256x256 .f32) (u : Fin 1) (i j : Fin 256) :
    k0_pay2 (F := Ideal) s (ix3 u i j) = s (ix2 i j) * Cert.Spec.wInv4096 := by
  unfold k0_pay2
  refine (shapeCast_ab_1ab_apply _ shapeCasts_S256x256_S1x256x256 u i j).trans ?_
  rfl

theorem pay3_apply (i j : Fin 256) : k0_pay3 (F := Ideal) (ix2 i j) = 0 := by
  unfold k0_pay3
  refine (congrFun (shapeCast_self _ shapeCasts_S256x256_S256x256) (ix2 i j)).trans ?_
  show Ideal.ofBits .f32 0x00000000#32 = 0
  exact Ideal.ofBits_zero_f32

section Blocks

variable (V : (c : Dev nD) → (b : Ref sig .tc) → Buf (Elt F) ((c : Thread nD τ).loc b))

theorem idx_x : ∀ t : Fin cfg0.N, win0_0.index t (0 : Fin 3) = t.val / 4 ∧ win0_0.index t (1 : Fin 3) = t.val % 4
    ∧ win0_0.index t (2 : Fin 3) = 0 :=
  (by decide +kernel : ∀ t : Fin grid0.N, _)

theorem idx_whole2 : ∀ t : Fin cfg0.N,
    (win0_1.index t (0 : Fin 2) = 0 ∧ win0_3.index t (0 : Fin 2) = 0 ∧ win0_5.index t (0 : Fin 2) = 0
      ∧ win0_2.index t (0 : Fin 2) = 0 ∧ win0_4.index t (0 : Fin 2) = 0 ∧ win0_6.index t (0 : Fin 2) = 0)
    ∧ (win0_1.index t (1 : Fin 2) = 0 ∧ win0_3.index t (1 : Fin 2) = 0 ∧ win0_5.index t (1 : Fin 2) = 0
      ∧ win0_2.index t (1 : Fin 2) = 0 ∧ win0_4.index t (1 : Fin 2) = 0 ∧ win0_6.index t (1 : Fin 2) = 0) :=
  (by decide +kernel : ∀ t : Fin grid0.N, _)

theorem idx_theta : ∀ t : Fin cfg0.N, win0_7.index t (0 : Fin 3) = t.val / 4 ∧ win0_7.index t (1 : Fin 3) = t.val % 4
    ∧ win0_7.index t (2 : Fin 3) = 0 :=
  (by decide +kernel : ∀ t : Fin grid0.N, _)

theorem idx_M : ∀ t : Fin cfg0.N, win0_8.index t (0 : Fin 3) = t.val / 4 ∧ win0_8.index t (1 : Fin 3) = 0
    ∧ win0_8.index t (2 : Fin 3) = 0 :=
  (by decide +kernel : ∀ t : Fin grid0.N, _)

theorem xblk_apply (c : Dev nD) (t : Fin cfg0.N) (r k : Fin 1024) (b : Fin 8) (n : Fin 4096)
    (hb : b.val = t.val / 4) (hn : n.val = t.val % 4 * 1024 + r.val) :
    (iblk0 V c 0 t : Vec F S1x1024x1024 .f32) (ix3 (0 : Fin 1) r k) = V c main_arg0 (ix3 b n k) := by
  obtain ⟨e0, e1, e2⟩ := idx_x t
  unfold iblk0
  rw [View.read_apply]
  show V c main_arg0 _ = V c main_arg0 _
  congr 1
  funext a; apply Fin.ext
  match a with
  | ⟨0, _⟩ => show win0_0.index t (0 : Fin 3) * 1 + 1 * 0 = b.val; omega
  | ⟨1, _⟩ => show win0_0.index t (1 : Fin 3) * 1024 + 1 * r.val = n.val; omega
  | ⟨2, _⟩ => show win0_0.index t (2 : Fin 3) * 1024 + 1 * k.val = k.val; omega

theorem twblk_apply (c : Dev nD) (t : Fin cfg0.N) (i : Fin 256) (k : Fin 1024) :
    (iblk0 V c 1 t : Vec F S256x1024 .f32) (ix2 i k) = V c main_arg3 (ix2 i k) := by
  obtain ⟨e0, e1⟩ := idx_whole2 t
  unfold iblk0
  rw [View.read_apply]
  show V c main_arg3 _ = V c main_arg3 _
  congr 1
  funext a; apply Fin.ext
  match a with
  | ⟨0, _⟩ => show win0_1.index t (0 : Fin 2) * 256 + 1 * i.val = i.val; have := (e0.1); omega
  | ⟨1, _⟩ => show win0_1.index t (1 : Fin 2) * 1024 + 1 * k.val = k.val; have := (e1.1); omega

theorem pwblk_apply (c : Dev nD) (t : Fin cfg0.N) (i : Fin 256) (k : Fin 1024) :
    (iblk0 V c 3 t : Vec F S256x1024 .f32) (ix2 i k) = V c main_arg5 (ix2 i k) := by
  obtain ⟨e0, e1⟩ := idx_whole2 t
  unfold iblk0
  rw [View.read_apply]
  show V c main_arg5 _ = V c main_arg5 _
  congr 1
  funext a; apply Fin.ext
  match a with
  | ⟨0, _⟩ => show win0_3.index t (0 : Fin 2) * 256 + 1 * i.val = i.val; have := (e0.2.1); omega
  | ⟨1, _⟩ => show win0_3.index t (1 : Fin 2) * 1024 + 1 * k.val = k.val; have := (e1.2.1); omega

theorem gwblk_apply (c : Dev nD) (t : Fin cfg0.N) (i : Fin 256) (k : Fin 1024) :
    (iblk0 V c 5 t : Vec F S256x1024 .f32) (ix2 i k) = V c main_arg1 (ix2 i k) := by
  obtain ⟨e0, e1⟩ := idx_whole2 t
  unfold iblk0
  rw [View.read_apply]
  show V c main_arg1 _ = V c main_arg1 _
  congr 1
  funext a; apply Fin.ext
  match a with
  | ⟨0, _⟩ => show win0_5.index t (0 : Fin 2) * 256 + 1 * i.val = i.val; have := (e0.2.2.1); omega
  | ⟨1, _⟩ => show win0_5.index t (1 : Fin 2) * 1024 + 1 * k.val = k.val; have := (e1.2.2.1); omega

theorem tbblk_apply (c : Dev nD) (t : Fin cfg0.N) (i : Fin 256) :
    (iblk0 V c 2 t : Vec F S1x256 .f32) (ix2 (0 : Fin 1) i) = V c main_v0 (ix2 (0 : Fin 1) i) := by
  obtain ⟨e0, e1⟩ := idx_whole2 t
  unfold iblk0
  rw [View.read_apply]
  show V c main_v0 _ = V c main_v0 _
  congr 1
  funext a; apply Fin.ext
  match a with
  | ⟨0, _⟩ => show win0_2.index t (0 : Fin 2) * 1 + 1 * 0 = 0; have := (e0.2.2.2.1); omega
  | ⟨1, _⟩ => show win0_2.index t (1 : Fin 2) * 256 + 1 * i.val = i.val; have := (e1.2.2.2.1); omega

theorem pbblk_apply (c : Dev nD) (t : Fin cfg0.N) (i : Fin 256) :
    (iblk0 V c 4 t : Vec F S1x256 .f32) (ix2 (0 : Fin 1) i) = V c main_v1 (ix2 (0 : Fin 1) i) := by
  obtain ⟨e0, e1⟩ := idx_whole2 t
  unfold iblk0
  rw [View.read_apply]
  show V c main_v1 _ = V c main_v1 _
  congr 1
  funext a; apply Fin.ext
  match a with
  | ⟨0, _⟩ => show win0_4.index t (0 : Fin 2) * 1 + 1 * 0 = 0; have := (e0.2.2.2.2.1); omega
  | ⟨1, _⟩ => show win0_4.index t (1 : Fin 2) * 256 + 1 * i.val = i.val; have := (e1.2.2.2.2.1); omega

theorem gbblk_apply (c : Dev nD) (t : Fin cfg0.N) (i : Fin 256) :
    (iblk0 V c 6 t : Vec F S1x256 .f32) (ix2 (0 : Fin 1) i) = V c main_v2 (ix2 (0 : Fin 1) i) := by
  obtain ⟨e0, e1⟩ := idx_whole2 t
  unfold iblk0
  rw [View.read_apply]
  show V c main_v2 _ = V c main_v2 _
  congr 1
  funext a; apply Fin.ext
  match a with
  | ⟨0, _⟩ => show win0_6.index t (0 : Fin 2) * 1 + 1 * 0 = 0; have := (e0.2.2.2.2.2); omega
  | ⟨1, _⟩ => show win0_6.index t (1 : Fin 2) * 256 + 1 * i.val = i.val; have := (e1.2.2.2.2.2); omega

end Blocks

section Theta

variable (V : (c : Dev nD) → (b : Ref sig .tc) → Buf (Elt Ideal) ((c : Thread nD τ).loc b))

theorem theta_after (c : Dev nD) (t : Fin cfg0.N) :
    (outsAt0 V c t.val t.isLt).1 = k0_pay7 (F := Ideal) (iblk0 V c 0 t) (iblk0 V c 1 t) (iblk0 V c 2 t) := by
  by_cases h0 : t.val % 4 = 0
  · rw [outsAt0_A V c t h0]
    dsimp only
    exact at0_A V c (out7_A (F := Ideal) c) t h0
  · rw [outsAt0_B V c t h0]
    dsimp only
    exact at0_B V c (out7_B (F := Ideal) c) t h0 (outsAt0 V c (t.val - 1) (Nat.lt_of_le_of_lt (Nat.sub_le _ _) t.isLt)).2.2

abbrev thetaArr (a : Cert.Spec.Args) : Vec Ideal S8x4096x256 .f32 := fun j => Cert.Spec.tv a (j 0) (j 1) (j 2)

theorem theta_flushed (c : Dev nD) (a : Cert.Spec.Args)
    (hv : ∀ b n ch, V c main_arg0 (ix3 b n ch) = a.v b n ch) (htw : ∀ i ch, V c main_arg3 (ix2 i ch) = a.tw i ch)
    (htb : ∀ i, V c main_v0 (ix2 (0 : Fin 1) i) = a.tb i) (t : Fin cfg0.N) :
    (dat0 (F := Ideal) V c).flushed 7 t = ((cfg0.win 7).blk t).view.read (Elt Ideal) (thetaArr a) := by
  show (cfg0.win 7).cut (grid0.coords t) ((dat0 (F := Ideal) V c).after 7 t) = _
  rw [after0_7, theta_after]
  funext y
  obtain ⟨u, r, i, rfl⟩ : ∃ (u : Fin 1) (r : Fin 1024) (i : Fin 256), y = ix3 u r i := ⟨y 0, y 1, y 2, eq_ix3 y⟩
  obtain ⟨e0, e1, e2⟩ := idx_theta t
  have hN : t.val < 32 := lt_of_lt_of_eq t.isLt N_0
  have hb : t.val / 4 < 8 := by omega
  have hn : t.val % 4 * 1024 + r.val < 4096 := by have := r.isLt; omega
  have hemb : ((cfg0.win 7).blk t).view.emb (ix3 u r i)
      = ix3 (⟨t.val / 4, hb⟩ : Fin 8) (⟨t.val % 4 * 1024 + r.val, hn⟩ : Fin 4096) i := by
    funext ax; apply Fin.ext
    match ax with
    | ⟨0, _⟩ => show win0_7.index t (0 : Fin 3) * 1 + 1 * u.val = t.val / 4; have := u.isLt; omega
    | ⟨1, _⟩ => show win0_7.index t (1 : Fin 3) * 1024 + 1 * r.val = t.val % 4 * 1024 + r.val; omega
    | ⟨2, _⟩ => show win0_7.index t (2 : Fin 3) * 256 + 1 * i.val = i.val; omega
  show k0_pay7 (F := Ideal) (iblk0 V c 0 t) (iblk0 V c 1 t) (iblk0 V c 2 t) (ix3 u r i)
      = thetaArr a (((cfg0.win 7).blk t).view.emb (ix3 u r i))
  rw [hemb]
  refine (pay7_apply (iblk0 V c 0 t) (iblk0 V c 1 t) (iblk0 V c 2 t) u r i).trans ?_
  show _ = Cert.Spec.tv a ⟨t.val / 4, hb⟩ ⟨t.val % 4 * 1024 + r.val, hn⟩ i
  unfold Cert.Spec.tv Cert.Spec.proj
  refine congrArg₂ (· + ·) (Finset.sum_congr rfl fun k _ => ?_) ?_
  · rw [xblk_apply V c t r k ⟨t.val / 4, hb⟩ ⟨t.val % 4 * 1024 + r.val, hn⟩ rfl rfl, twblk_apply V c t i k, hv, htw]
  · rw [tbblk_apply V c t i, htb]

theorem theta_mem_blk (t : Fin cfg0.N) (j : S8x4096x256.Idx) :
    j ∈ ((cfg0.win 7).blk t).view.set ↔ ∀ ax : Fin 3, win0_7.index t ax * S1x1024x256.size ax ≤ (j ax).val
      ∧ (j ax).val < win0_7.index t ax * S1x1024x256.size ax + S1x1024x256.size ax := by
  show j ∈ ((View.whole main_v6_0).slice (win0_7.rect t)).set ↔ _
  rw [View.set_slice_whole, Rect.mem_set_unit]
  exact Iff.rfl

theorem theta_cover (j : S8x4096x256.Idx) :
    ∃ t : Fin cfg0.N, (cfg0.win 7).flush t = true ∧ j ∈ ((cfg0.win 7).blk t).view.set := by
  have h0 : (j 0).val < 8 := (j 0).isLt
  have h1 : (j 1).val < 4096 := (j 1).isLt
  have h2 : (j 2).val < 256 := (j 2).isLt
  have hN : cfg0.N = 32 := N_0
  obtain ⟨t, ht⟩ : ∃ t : Fin cfg0.N, t.val = 4 * (j 0).val + (j 1).val / 1024 :=
    ⟨⟨4 * (j 0).val + (j 1).val / 1024, by rw [hN]; omega⟩, rfl⟩
  refine ⟨t, flush0_7 t, ?_⟩
  rw [theta_mem_blk]
  obtain ⟨e0, e1, e2⟩ := idx_theta t
  intro ax
  match ax with
  | ⟨0, _⟩ => show win0_7.index t (0 : Fin 3) * 1 ≤ (j 0).val ∧ (j 0).val < win0_7.index t (0 : Fin 3) * 1 + 1; omega
  | ⟨1, _⟩ => show win0_7.index t (1 : Fin 3) * 1024 ≤ (j 1).val ∧ (j 1).val < win0_7.index t (1 : Fin 3) * 1024 + 1024; omega
  | ⟨2, _⟩ => show win0_7.index t (2 : Fin 3) * 256 ≤ (j 2).val ∧ (j 2).val < win0_7.index t (2 : Fin 3) * 256 + 256; omega

theorem theta_final (c : Dev nD) (a : Cert.Spec.Args)
    (hv : ∀ b n ch, V c main_arg0 (ix3 b n ch) = a.v b n ch) (htw : ∀ i ch, V c main_arg3 (ix2 i ch) = a.tw i ch)
    (htb : ∀ i, V c main_v0 (ix2 (0 : Fin 1) i) = a.tb i) :
    (dat0 (F := Ideal) V c).arrAt 7 cfg0.N = thetaArr a :=
  (dat0 (F := Ideal) V c).arrAt_eq_of_cover 7 (thetaArr a) (fun t _ => theta_flushed V c a hv htw htb t) theta_cover

end Theta

def accM (a : Cert.Spec.Args) (b : Fin 8) : ℕ → Fin 256 → Fin 256 → EReal
  | 0, i, j => Cert.Spec.mTile a b 0 i j
  | m + 1, i, j => accM a b m i j + (if h : m + 1 < 4 then Cert.Spec.mTile a b ⟨m + 1, h⟩ i j else 0)

theorem accM_step (a : Cert.Spec.Args) (b : Fin 8) (m : ℕ) (hm0 : m ≠ 0) (hm : m < 4) (i j : Fin 256) :
    accM a b m i j = accM a b (m - 1) i j + Cert.Spec.mTile a b ⟨m, hm⟩ i j := by
  obtain ⟨k, rfl⟩ := Nat.exists_eq_succ_of_ne_zero hm0
  show accM a b k i j + (if h : k + 1 < 4 then Cert.Spec.mTile a b ⟨k + 1, h⟩ i j else 0) = _
  rw [dif_pos hm]
  rfl

theorem accM_three (a : Cert.Spec.Args) (b : Fin 8) (i j : Fin 256) :
    accM a b 3 i j = ∑ nt : Fin 4, Cert.Spec.mTile a b nt i j := by
  show ((Cert.Spec.mTile a b 0 i j + (if h : 0 + 1 < 4 then Cert.Spec.mTile a b ⟨0 + 1, h⟩ i j else 0))
      + (if h : 1 + 1 < 4 then Cert.Spec.mTile a b ⟨1 + 1, h⟩ i j else 0))
      + (if h : 2 + 1 < 4 then Cert.Spec.mTile a b ⟨2 + 1, h⟩ i j else 0) = _
  rw [dif_pos (by decide), dif_pos (by decide), dif_pos (by decide), Fin.sum_univ_four]
  rfl

section M

variable (V : (c : Dev nD) → (b : Ref sig .tc) → Buf (Elt Ideal) ((c : Thread nD τ).loc b))

theorem scratch_A (c : Dev nD) (t : Fin cfg0.N) (h0 : t.val % 4 = 0) :
    (outsAt0 V c t.val t.isLt).2.2 = k0_pay1 (F := Ideal) (k0_pay5 (F := Ideal) (iblk0 V c 0 t) (iblk0 V c 3 t) (iblk0 V c 4 t)) (k0_pay6 (F := Ideal) (iblk0 V c 0 t) (iblk0 V c 5 t) (iblk0 V c 6 t)) (k0_pay3 (F := Ideal)) := by
  rw [outsAt0_A V c t h0]
  dsimp only
  exact at0_A V c (scr_A (F := Ideal) c) t h0

theorem scratch_B (c : Dev nD) (t : Fin cfg0.N) (h0 : ¬t.val % 4 = 0) :
    (outsAt0 V c t.val t.isLt).2.2 = k0_pay1 (F := Ideal) (k0_pay5 (F := Ideal) (iblk0 V c 0 t) (iblk0 V c 3 t) (iblk0 V c 4 t)) (k0_pay6 (F := Ideal) (iblk0 V c 0 t) (iblk0 V c 5 t) (iblk0 V c 6 t)) (outsAt0 V c (t.val - 1) (Nat.lt_of_le_of_lt (Nat.sub_le _ _) t.isLt)).2.2 := by
  rw [outsAt0_B V c t h0]
  dsimp only
  exact at0_B V c (scr_B (F := Ideal) c) t h0 (outsAt0 V c (t.val - 1) (Nat.lt_of_le_of_lt (Nat.sub_le _ _) t.isLt)).2.2

theorem mout_eq (c : Dev nD) (t : Fin cfg0.N) :
    (outsAt0 V c t.val t.isLt).2.1 = k0_pay2 (F := Ideal) (outsAt0 V c t.val t.isLt).2.2 := by
  by_cases h0 : t.val % 4 = 0
  · rw [outsAt0_A V c t h0]
    dsimp only
    exact (at0_A V c (out8_A (F := Ideal) c) t h0).trans
      (congrArg (k0_pay2 (F := Ideal)) (at0_A V c (scr_A (F := Ideal) c) t h0).symm)
  · rw [outsAt0_B V c t h0]
    dsimp only
    exact (at0_B V c (out8_B (F := Ideal) c) t h0 (outsAt0 V c (t.val - 1) (Nat.lt_of_le_of_lt (Nat.sub_le _ _) t.isLt)).2.2).trans
      (congrArg (k0_pay2 (F := Ideal)) (at0_B V c (scr_B (F := Ideal) c) t h0 (outsAt0 V c (t.val - 1) (Nat.lt_of_le_of_lt (Nat.sub_le _ _) t.isLt)).2.2).symm)

theorem proj_tile (c : Dev nD) (a : Cert.Spec.Args) (hv : ∀ b n ch, V c main_arg0 (ix3 b n ch) = a.v b n ch)
    (t : Fin cfg0.N) (wb : Vec Ideal S256x1024 .f32) (bb : Vec Ideal S1x256 .f32)
    (sw : Fin 256 → Fin 1024 → EReal) (sb : Fin 256 → EReal) (hw : ∀ i k, wb (ix2 i k) = sw i k)
    (hb : ∀ i, bb (ix2 (0 : Fin 1) i) = sb i) (r : Fin 1024) (i : Fin 256) (b : Fin 8) (n : Fin 4096)
    (hbv : b.val = t.val / 4) (hnv : n.val = t.val % 4 * 1024 + r.val) :
    k0_pay5 (F := Ideal) (iblk0 V c 0 t) wb bb (ix2 r i) = Cert.Spec.proj a sw sb b n i := by
  refine (proj_apply (iblk0 V c 0 t) wb bb r i).trans ?_
  unfold Cert.Spec.proj
  refine congrArg₂ (· + ·) (Finset.sum_congr rfl fun k _ => ?_) (hb i)
  rw [xblk_apply V c t r k b n hbv hnv, hv, hw]

theorem tile_eq (c : Dev nD) (a : Cert.Spec.Args) (hv : ∀ b n ch, V c main_arg0 (ix3 b n ch) = a.v b n ch) (hpw : ∀ i ch, V c main_arg5 (ix2 i ch) = a.pw i ch)
    (hpb : ∀ i, V c main_v1 (ix2 (0 : Fin 1) i) = a.pb i) (hgw : ∀ i ch, V c main_arg1 (ix2 i ch) = a.gw i ch)
    (hgb : ∀ i, V c main_v2 (ix2 (0 : Fin 1) i) = a.gb i)
    (t : Fin cfg0.N) (b : Fin 8) (nt : Fin 4) (hbv : b.val = t.val / 4) (hnt : nt.val = t.val % 4) (i j : Fin 256) :
    (∑ r : Fin 1024, (k0_pay5 (F := Ideal) (iblk0 V c 0 t) (iblk0 V c 3 t) (iblk0 V c 4 t)) (ix2 r i) * (k0_pay6 (F := Ideal) (iblk0 V c 0 t) (iblk0 V c 5 t) (iblk0 V c 6 t)) (ix2 r j)) = Cert.Spec.mTile a b nt i j := by
  unfold Cert.Spec.mTile Cert.Spec.pv Cert.Spec.gv
  refine Finset.sum_congr rfl fun r _ => congrArg₂ (· * ·) ?_ ?_
  · exact proj_tile V c a hv t (iblk0 V c 3 t) (iblk0 V c 4 t) a.pw a.pb
      (fun i k => (pwblk_apply V c t i k).trans (hpw i k)) (fun i => (pbblk_apply V c t i).trans (hpb i)) r i b
      (Cert.Spec.tileRow nt r) hbv (by show nt.val * 1024 + r.val = _; rw [hnt])
  · show k0_pay5 (F := Ideal) (iblk0 V c 0 t) (iblk0 V c 5 t) (iblk0 V c 6 t) (ix2 r j) = _
    exact proj_tile V c a hv t (iblk0 V c 5 t) (iblk0 V c 6 t) a.gw a.gb
      (fun i k => (gwblk_apply V c t i k).trans (hgw i k)) (fun i => (gbblk_apply V c t i).trans (hgb i)) r j b
      (Cert.Spec.tileRow nt r) hbv (by show nt.val * 1024 + r.val = _; rw [hnt])

theorem scratch_inv_nat (c : Dev nD) (a : Cert.Spec.Args) (hv : ∀ b n ch, V c main_arg0 (ix3 b n ch) = a.v b n ch) (hpw : ∀ i ch, V c main_arg5 (ix2 i ch) = a.pw i ch)
    (hpb : ∀ i, V c main_v1 (ix2 (0 : Fin 1) i) = a.pb i) (hgw : ∀ i ch, V c main_arg1 (ix2 i ch) = a.gw i ch)
    (hgb : ∀ i, V c main_v2 (ix2 (0 : Fin 1) i) = a.gb i) :
    ∀ (n : ℕ) (hn : n < cfg0.N) (i j : Fin 256), (outsAt0 V c n hn).2.2 (ix2 i j)
      = accM a (Cert.Spec.ptB ⟨n, lt_of_lt_of_eq hn N_0⟩) (n % 4) i j := by
  intro n
  induction n using Nat.strong_induction_on with
  | _ n ih =>
    intro hn i j
    have hN : n < 32 := lt_of_lt_of_eq hn N_0
    by_cases h0 : n % 4 = 0
    · refine (congrFun (scratch_A V c ⟨n, hn⟩ h0) (ix2 i j)).trans ?_
      refine (pay1_apply _ _ _ i j).trans ?_
      rw [pay3_apply, zero_add, h0]
      exact tile_eq V c a hv hpw hpb hgw hgb ⟨n, hn⟩ (Cert.Spec.ptB ⟨n, hN⟩) 0 rfl h0.symm i j
    · refine (congrFun (scratch_B V c ⟨n, hn⟩ h0) (ix2 i j)).trans ?_
      refine (pay1_apply _ _ _ i j).trans ?_
      have hm : n % 4 < 4 := Nat.mod_lt _ (by decide)
      have hn1 : n - 1 < cfg0.N := lt_of_le_of_lt (Nat.sub_le _ _) hn
      have hprev := ih (n - 1) (by omega) hn1 i j
      have hB : Cert.Spec.ptB ⟨n - 1, lt_of_lt_of_eq hn1 N_0⟩ = Cert.Spec.ptB ⟨n, hN⟩ :=
        Fin.ext (by show (n - 1) / 4 = n / 4; omega)
      have hM : (n - 1) % 4 = n % 4 - 1 := by omega
      rw [accM_step a _ (n % 4) h0 hm i j]
      refine congrArg₂ (· + ·) ?_ ?_
      · refine hprev.trans ?_
        rw [hB, hM]
      · exact tile_eq V c a hv hpw hpb hgw hgb ⟨n, hn⟩ (Cert.Spec.ptB ⟨n, hN⟩) ⟨n % 4, hm⟩ rfl rfl i j

theorem scratch_inv (c : Dev nD) (a : Cert.Spec.Args) (hv : ∀ b n ch, V c main_arg0 (ix3 b n ch) = a.v b n ch) (hpw : ∀ i ch, V c main_arg5 (ix2 i ch) = a.pw i ch)
    (hpb : ∀ i, V c main_v1 (ix2 (0 : Fin 1) i) = a.pb i) (hgw : ∀ i ch, V c main_arg1 (ix2 i ch) = a.gw i ch)
    (hgb : ∀ i, V c main_v2 (ix2 (0 : Fin 1) i) = a.gb i)
    (t : Fin cfg0.N) (i j : Fin 256) :
    (outsAt0 V c t.val t.isLt).2.2 (ix2 i j)
      = accM a (Cert.Spec.ptB ⟨t.val, lt_of_lt_of_eq t.isLt N_0⟩) (t.val % 4) i j :=
  scratch_inv_nat V c a hv hpw hpb hgw hgb t.val t.isLt i j

end M

section MArray

variable (V : (c : Dev nD) → (b : Ref sig .tc) → Buf (Elt Ideal) ((c : Thread nD τ).loc b))

abbrev mArr (a : Cert.Spec.Args) : Vec Ideal S8x256x256 .f32 := fun q => Cert.Spec.mK a (q 0) (q 1) (q 2)

theorem M_flushed (c : Dev nD) (a : Cert.Spec.Args) (hv : ∀ b n ch, V c main_arg0 (ix3 b n ch) = a.v b n ch) (hpw : ∀ i ch, V c main_arg5 (ix2 i ch) = a.pw i ch)
    (hpb : ∀ i, V c main_v1 (ix2 (0 : Fin 1) i) = a.pb i) (hgw : ∀ i ch, V c main_arg1 (ix2 i ch) = a.gw i ch)
    (hgb : ∀ i, V c main_v2 (ix2 (0 : Fin 1) i) = a.gb i)
    (t : Fin cfg0.N) (hf : (cfg0.win 8).flush t = true) :
    (dat0 (F := Ideal) V c).flushed 8 t = ((cfg0.win 8).blk t).view.read (Elt Ideal) (mArr a) := by
  have h3 : t.val % 4 = 3 := (flush0_8 t).mp hf
  show (cfg0.win 8).cut (grid0.coords t) ((dat0 (F := Ideal) V c).after 8 t) = _
  rw [after0_8, mout_eq]
  funext y
  obtain ⟨u, i, j, rfl⟩ : ∃ (u : Fin 1) (i : Fin 256) (j : Fin 256), y = ix3 u i j := ⟨y 0, y 1, y 2, eq_ix3 y⟩
  obtain ⟨e0, e1, e2⟩ := idx_M t
  have hN : t.val < 32 := lt_of_lt_of_eq t.isLt N_0
  have hb : t.val / 4 < 8 := by omega
  have hemb : ((cfg0.win 8).blk t).view.emb (ix3 u i j) = ix3 (⟨t.val / 4, hb⟩ : Fin 8) i j := by
    funext ax; apply Fin.ext
    match ax with
    | ⟨0, _⟩ => show win0_8.index t (0 : Fin 3) * 1 + 1 * u.val = t.val / 4; have := u.isLt; omega
    | ⟨1, _⟩ => show win0_8.index t (1 : Fin 3) * 256 + 1 * i.val = i.val; omega
    | ⟨2, _⟩ => show win0_8.index t (2 : Fin 3) * 256 + 1 * j.val = j.val; omega
  show k0_pay2 (F := Ideal) (outsAt0 V c t.val t.isLt).2.2 (ix3 u i j)
      = mArr a (((cfg0.win 8).blk t).view.emb (ix3 u i j))
  rw [hemb]
  refine (pay2_apply (outsAt0 V c t.val t.isLt).2.2 u i j).trans ?_
  show _ = Cert.Spec.mK a ⟨t.val / 4, hb⟩ i j
  unfold Cert.Spec.mK
  rw [scratch_inv V c a hv hpw hpb hgw hgb t i j, h3, accM_three]
  rfl

theorem M_mem_blk (t : Fin cfg0.N) (q : S8x256x256.Idx) :
    q ∈ ((cfg0.win 8).blk t).view.set ↔ ∀ ax : Fin 3, win0_8.index t ax * S1x256x256.size ax ≤ (q ax).val
      ∧ (q ax).val < win0_8.index t ax * S1x256x256.size ax + S1x256x256.size ax := by
  show q ∈ ((View.whole main_v6_1).slice (win0_8.rect t)).set ↔ _
  rw [View.set_slice_whole, Rect.mem_set_unit]
  exact Iff.rfl

theorem M_cover (q : S8x256x256.Idx) :
    ∃ t : Fin cfg0.N, (cfg0.win 8).flush t = true ∧ q ∈ ((cfg0.win 8).blk t).view.set := by
  have h0 : (q 0).val < 8 := (q 0).isLt
  have h1 : (q 1).val < 256 := (q 1).isLt
  have h2 : (q 2).val < 256 := (q 2).isLt
  have hN : cfg0.N = 32 := N_0
  obtain ⟨t, ht⟩ : ∃ t : Fin cfg0.N, t.val = 4 * (q 0).val + 3 := ⟨⟨4 * (q 0).val + 3, by rw [hN]; omega⟩, rfl⟩
  refine ⟨t, (flush0_8 t).mpr (by omega), ?_⟩
  rw [M_mem_blk]
  obtain ⟨e0, e1, e2⟩ := idx_M t
  intro ax
  match ax with
  | ⟨0, _⟩ => show win0_8.index t (0 : Fin 3) * 1 ≤ (q 0).val ∧ (q 0).val < win0_8.index t (0 : Fin 3) * 1 + 1; omega
  | ⟨1, _⟩ => show win0_8.index t (1 : Fin 3) * 256 ≤ (q 1).val ∧ (q 1).val < win0_8.index t (1 : Fin 3) * 256 + 256; omega
  | ⟨2, _⟩ => show win0_8.index t (2 : Fin 3) * 256 ≤ (q 2).val ∧ (q 2).val < win0_8.index t (2 : Fin 3) * 256 + 256; omega

theorem M_final (c : Dev nD) (a : Cert.Spec.Args) (hv : ∀ b n ch, V c main_arg0 (ix3 b n ch) = a.v b n ch) (hpw : ∀ i ch, V c main_arg5 (ix2 i ch) = a.pw i ch)
    (hpb : ∀ i, V c main_v1 (ix2 (0 : Fin 1) i) = a.pb i) (hgw : ∀ i ch, V c main_arg1 (ix2 i ch) = a.gw i ch)
    (hgb : ∀ i, V c main_v2 (ix2 (0 : Fin 1) i) = a.gb i) :
    (dat0 (F := Ideal) V c).arrAt 8 cfg0.N = mArr a :=
  (dat0 (F := Ideal) V c).arrAt_eq_of_cover 8 (mArr a) (fun t hf => M_flushed V c a hv hpw hpb hgw hgb t hf) M_cover

end MArray

end v0

theorem val0_theta (V : (c : Dev nD) → (b : Ref sig .tc) → Buf (Elt Ideal) ((c : Thread nD τ).loc b)) (c : Dev nD)
    (a : Cert.Spec.Args)
    (hv : ∀ b n ch, V c main_arg0 (ValueIdx.ix3 b n ch) = a.v b n ch)
    (htw : ∀ i ch, V c main_arg3 (ValueIdx.ix2 i ch) = a.tw i ch)
    (htb : ∀ i, V c main_v0 (ValueIdx.ix2 (0 : Fin 1) i) = a.tb i)
    (b : Fin 8) (n : Fin 4096) (i : Fin 256) :
    (dat0 (F := Ideal) V c).arrAt 7 cfg0.N (ValueIdx.ix3 b n i) = Cert.Spec.tv a b n i :=
  congrFun (v0.theta_final V c a hv htw htb) (ValueIdx.ix3 b n i)

theorem val0_M (V : (c : Dev nD) → (b : Ref sig .tc) → Buf (Elt Ideal) ((c : Thread nD τ).loc b)) (c : Dev nD)
    (a : Cert.Spec.Args)
    (hv : ∀ b n ch, V c main_arg0 (ValueIdx.ix3 b n ch) = a.v b n ch)
    (hpw : ∀ i ch, V c main_arg5 (ValueIdx.ix2 i ch) = a.pw i ch)
    (hpb : ∀ i, V c main_v1 (ValueIdx.ix2 (0 : Fin 1) i) = a.pb i)
    (hgw : ∀ i ch, V c main_arg1 (ValueIdx.ix2 i ch) = a.gw i ch)
    (hgb : ∀ i, V c main_v2 (ValueIdx.ix2 (0 : Fin 1) i) = a.gb i)
    (b : Fin 8) (i j : Fin 256) :
    (dat0 (F := Ideal) V c).arrAt 8 cfg0.N (ValueIdx.ix3 b i j) = Cert.Spec.mK a b i j :=
  congrFun (v0.M_final V c a hv hpw hpb hgw hgb) (ValueIdx.ix3 b i j)

end Cert.KernelIdeal.Hand

end
-- ==== Proof.KI.Val1.lean ====
import proofs.«145685_j29137058136127_1_alg».proof.Proof.KI.R1
import proofs.«145685_j29137058136127_1_alg».proof.Proof.Spec
import proofs.«145685_j29137058136127_1_alg».proof.Proof.LibDense
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen
open Idealize.ShloMosaic Idealize.ShloMosaic.TcCoe Idealize.SL.Sem
open Idealize.ShloMosaic.ValueIdx
open Idealize.ShloMosaic.Pipeline (Dat Cfg Window)
open Cert.Spec (tv mK wyK)

namespace v1

theorem hz3 : (![0, 0, 0] : Fin 3 → Nat) = fun _ => 0 := funext fun a => by fin_cases a <;> rfl
theorem hz2 : (![0, 0] : Fin 2 → Nat) = fun _ => 0 := funext fun a => by fin_cases a <;> rfl

theorem ext3 {n : Fin 3 → ℕ} {x y : (a : Fin 3) → Fin (n a)} (h0 : (x 0 : ℕ) = y 0) (h1 : (x 1 : ℕ) = y 1) (h2 : (x 2 : ℕ) = y 2) : x = y :=
  funext fun a => Fin.ext (match a with | ⟨0, _⟩ => h0 | ⟨1, _⟩ => h1 | ⟨2, _⟩ => h2)

-- Both products start from zero, and the changes of shape around them only relabel entries.
theorem pay1_apply (x0 : Vec Ideal S1x1024x256 .f32) (x1 : Vec Ideal S1x256x256 .f32) (x2 : Vec Ideal S1024x256 .f32)
    (x3 : Vec Ideal S1x1024 .f32) (u : Fin 1) (r : Fin 1024) (ch : Fin 1024) :
    k1_pay1 (F := Ideal) x0 x1 x2 x3 (ix3 u r ch)
      = (∑ j : Fin 256, (∑ i : Fin 256, x0 (ix3 (0 : Fin 1) r i) * x1 (ix3 (0 : Fin 1) i j)) * x2 (ix2 ch j))
        + x3 (ix2 (0 : Fin 1) ch) := by
  unfold k1_pay1
  refine (shapeCast_ab_1ab_apply _ _ u r ch).trans (congrArg₂ (· + ·) ?_ ?_)
  · refine (Cert.LibDense.matmul_plain_zero_apply none _ _ r ch).trans (Finset.sum_congr rfl fun j _ => congrArg₂ (· * ·) ?_ ?_)
    · exact (Cert.LibDense.matmul_plain_zero_apply none _ _ r j).trans (Finset.sum_congr rfl fun i _ =>
        congrArg₂ (· * ·) (shapeCast_1ab_ab_apply x0 _ r i) (shapeCast_1ab_ab_apply x1 _ i j))
    · exact transpose_ix2_apply _ _ j ch
  · exact (broadcastTo_1b_ab_apply _ _ r ch).trans (congrFun (shapeCast_self x3 _) _)

theorem idx1 : ∀ t : Fin cfg1.N,
    win1_4.index t (0 : Fin 3) = t.val / 4 ∧ win1_4.index t (1 : Fin 3) = t.val % 4 ∧ win1_4.index t (2 : Fin 3) = 0
    ∧ win1_0.index t (0 : Fin 3) = t.val / 4 ∧ win1_0.index t (1 : Fin 3) = t.val % 4 ∧ win1_0.index t (2 : Fin 3) = 0
    ∧ win1_1.index t (0 : Fin 3) = t.val / 4 ∧ win1_1.index t (1 : Fin 3) = 0 ∧ win1_1.index t (2 : Fin 3) = 0
    ∧ win1_2.index t (0 : Fin 2) = 0 ∧ win1_2.index t (1 : Fin 2) = 0
    ∧ win1_3.index t (0 : Fin 2) = 0 ∧ win1_3.index t (1 : Fin 2) = 0 :=
  (by decide +kernel : ∀ t : Fin grid1.N, _)

section Emb

variable (t : Fin cfg1.N) (b : Fin 8) (n : Fin 4096) (hbt : b.val = t.val / 4)
include hbt

-- Grid point t is batch element t / 4 and tile t % 4 of 1024 tokens.
theorem emb1_0 (y : S1x1024x256.Idx) (hn : n.val = t.val % 4 * 1024 + (y 1).val) : ((cfg1.win 0).blk t).view.emb y = ix3 b n (y 2) := by
  obtain ⟨-, -, -, e0, e1, e2, -⟩ := idx1 t
  have h0 : (y 0).val < 1 := (y 0).isLt
  refine ext3 ?_ ?_ ?_
  · show win1_0.index t (0 : Fin 3) * 1 + 1 * (y 0).val = b.val; omega
  · show win1_0.index t (1 : Fin 3) * 1024 + 1 * (y 1).val = n.val; omega
  · show win1_0.index t (2 : Fin 3) * 256 + 1 * (y 2).val = (y 2).val; omega

theorem emb1_4 (y : S1x1024x1024.Idx) (hn : n.val = t.val % 4 * 1024 + (y 1).val) : ((cfg1.win 4).blk t).view.emb y = ix3 b n (y 2) := by
  obtain ⟨e0, e1, e2, -⟩ := idx1 t
  have h0 : (y 0).val < 1 := (y 0).isLt
  refine ext3 ?_ ?_ ?_
  · show win1_4.index t (0 : Fin 3) * 1 + 1 * (y 0).val = b.val; omega
  · show win1_4.index t (1 : Fin 3) * 1024 + 1 * (y 1).val = n.val; omega
  · show win1_4.index t (2 : Fin 3) * 1024 + 1 * (y 2).val = (y 2).val; omega

theorem emb1_1 (y : S1x256x256.Idx) : ((cfg1.win 1).blk t).view.emb y = ix3 b (y 1) (y 2) := by
  obtain ⟨-, -, -, -, -, -, e0, e1, e2, -⟩ := idx1 t
  have h0 : (y 0).val < 1 := (y 0).isLt
  refine ext3 ?_ ?_ ?_
  · show win1_1.index t (0 : Fin 3) * 1 + 1 * (y 0).val = b.val; omega
  · show win1_1.index t (1 : Fin 3) * 256 + 1 * (y 1).val = (y 1).val; omega
  · show win1_1.index t (2 : Fin 3) * 256 + 1 * (y 2).val = (y 2).val; omega

end Emb

-- The weight and the bias row are their own blocks at every point.
theorem emb1_2 (t : Fin cfg1.N) (y : S1024x256.Idx) : ((cfg1.win 2).blk t).view.emb y = y :=
  have ⟨_, _, _, _, _, _, _, _, _, e0, e1, _⟩ := idx1 t
  Shape.idx_ext₂ (win1_2.rect_emb_val_of_index_zero t (0 : Fin 2) e0 y) (win1_2.rect_emb_val_of_index_zero t (1 : Fin 2) e1 y)

theorem emb1_3 (t : Fin cfg1.N) (y : S1x1024.Idx) : ((cfg1.win 3).blk t).view.emb y = y :=
  have ⟨_, _, _, _, _, _, _, _, _, _, _, e0, e1⟩ := idx1 t
  Shape.idx_ext₂ (win1_3.rect_emb_val_of_index_zero t (0 : Fin 2) e0 y) (win1_3.rect_emb_val_of_index_zero t (1 : Fin 2) e1 y)

def wyArr (a : Cert.Spec.Args) : S8x4096x1024.Idx → EReal := fun i => wyK a (i 0) (i 1) (i 2)

section Blocks

variable (V : (c : Dev nD) → (b : Ref sig .tc) → Buf (Elt Ideal) ((c : Thread nD τ).loc b)) (c : Dev nD) (a : Cert.Spec.Args)
  (hθ : ∀ (b : Fin 8) (n : Fin 4096) (i : Fin 256), V c main_v6_0 (ValueIdx.ix3 b n i) = Cert.Spec.tv a b n i)
  (hM : ∀ (b : Fin 8) (i j : Fin 256), V c main_v6_1 (ValueIdx.ix3 b i j) = Cert.Spec.mK a b i j)
  (hW : ∀ (ch : Fin 1024) (j : Fin 256), V c main_arg7 (ValueIdx.ix2 ch j) = a.ww ch j)
  (hb : ∀ ch : Fin 1024, V c main_v3 (ValueIdx.ix2 (0 : Fin 1) ch) = a.wb ch)
include hθ hM hW hb

theorem point1 (t : Fin cfg1.N) (y : S1x1024x1024.Idx) (b : Fin 8) (n : Fin 4096) (hbt : b.val = t.val / 4)
    (hn : n.val = t.val % 4 * 1024 + (y 1).val) :
    out1_4 (iblk1 V c 0 t) (iblk1 V c 1 t) (iblk1 V c 2 t) (iblk1 V c 3 t) y = wyK a b n (y 2) := by
  unfold out1_4
  rw [View.canon_unit_zero hz3]
  simp only [View.ld_unit_zero (S := S1x1024x256) hz3, View.ld_unit_zero (S := S1x256x256) hz3,
    View.ld_unit_zero (S := S1024x256) hz2, View.ld_unit_zero (S := S1x1024) hz2]
  refine (congrArg _ (eq_ix3 y)).trans ((pay1_apply _ _ _ _ (y 0) (y 1) (y 2)).trans ?_)
  unfold Cert.Spec.wyK Cert.Spec.yK
  refine congrArg₂ (· + ·) (Finset.sum_congr rfl fun j _ => congrArg₂ (· * ·) (Finset.sum_congr rfl fun i _ => congrArg₂ (· * ·) ?_ ?_) ?_) ?_
  · exact (congrArg (V c main_v6_0) (emb1_0 t b n hbt (ix3 (0 : Fin 1) (y 1) i) hn)).trans (hθ b n i)
  · exact (congrArg (V c main_v6_1) (emb1_1 t b hbt (ix3 (0 : Fin 1) i j))).trans (hM b i j)
  · exact (congrArg (V c main_arg7) (emb1_2 t (ix2 (y 2) j))).trans (hW _ j)
  · exact (congrArg (V c main_v3) (emb1_3 t (ix2 (0 : Fin 1) (y 2)))).trans (hb _)

theorem flushed1_4_eq (t : Fin cfg1.N) : (dat1 (F := Ideal) V c).flushed 4 t = ((cfg1.win 4).blk t).view.read (Elt Ideal) (wyArr a) := by
  show (cfg1.win 4).cut (grid1.coords t) ((dat1 V c).after 4 t) = _
  rw [after1_4]
  funext y
  have ht : t.val < 32 := lt_of_lt_of_eq t.isLt N_1
  have hy : (y 1).val < 1024 := (y 1).isLt
  rw [View.read_apply, emb1_4 t ⟨t.val / 4, by omega⟩ ⟨t.val % 4 * 1024 + (y 1).val, by omega⟩ rfl y rfl]
  exact point1 V c a hθ hM hW hb t y _ _ rfl rfl

theorem _root_.Cert.KernelIdeal.Hand.val1 (b : Fin 8) (n : Fin 4096) (ch : Fin 1024) :
    (dat1 (F := Ideal) V c).arrAt 4 cfg1.N (ValueIdx.ix3 b n ch) = Cert.Spec.wyK a b n ch := by
  have hb' := b.isLt
  have hn := n.isLt
  obtain ⟨t, ht⟩ : ∃ t : Fin cfg1.N, t.val = b.val * 4 + n.val / 1024 := ⟨⟨b.val * 4 + n.val / 1024, by rw [show cfg1.N = 32 from N_1]; omega⟩, rfl⟩
  have h := congrFun ((dat1 (F := Ideal) V c).read_blk_arrAt 4 (wyArr a) (fun t _ => flushed1_4_eq V c a hθ hM hW hb t) t (flush1_4 t))
    (ix3 (0 : Fin 1) (⟨n.val % 1024, Nat.mod_lt _ (by decide)⟩ : Fin 1024) ch)
  rw [View.read_apply, View.read_apply, emb1_4 t b n (by omega) _ (by show n.val = t.val % 4 * 1024 + n.val % 1024; omega)] at h
  exact h

end Blocks

end v1

end Cert.KernelIdeal.Hand

end
-- ==== Proof.KI.Val2.lean ====
import proofs.«145685_j29137058136127_1_alg».proof.Proof.KI.R2
import proofs.«145685_j29137058136127_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)
open scoped BigOperators

variable {F : FTy → Type} [FloatOps F]

namespace V2

theorem hz2 : (![0, 0] : Fin 2 → Nat) = fun _ => 0 := funext fun a => by fin_cases a <;> rfl
theorem hz3 : (![0, 0, 0] : Fin 3 → Nat) = fun _ => 0 := funext fun a => by fin_cases a <;> rfl

theorem readCov_cons_unit_zero {Val : EltTy → Type} [∀ e, Nonempty (Val e)] {sig : RefSig} {κ : Kind} {sp : Space} {S : Shape} {e : EltTy}
    (v : View sig κ sp S e) {off : Fin S.rank → Nat} (h : off = fun _ => 0) (inb : ∀ a, off a + S.size a ≤ S.size a)
    (w : S.Idx → Val e) (L : List (View.Piece Val S e)) :
    v.readCov ((⟨Rect.unit off S.size inb, w⟩ : View.Piece Val S e) :: L) (Rect.unit off S.size inb).toLoadRect = w := by
  rw [View.readCov_eq_canon_ld _ _ _ (fun y => ⟨_, List.mem_cons_self, View.mem_set_unit_zero h inb y⟩),
    View.canon_cons_unit_zero h, View.ld_unit_zero h]

section Pieces
variable (c : Dev nD) (i : grid2.Coords) (a2 : Memref sig .tc .vmem S1x1024x1024 .f32) (h2 : a2.IsWhole) (a3 : Memref sig .tc .vmem S1x1024 .f32) (h3 : a3.IsWhole) (a4 : Memref sig .tc .vmem S1x1024 .f32) (h4 : a4.IsWhole) (a5 : Memref sig .tc .vmem S1x1024 .f32) (h5 : a5.IsWhole) (a6 : Memref sig .tc .vmem S1x1024 .f32) (h6 : a6.IsWhole)

theorem sout2_B_0_eq (hc : ¬cond2_0 i) (x0 : Vec F S1x1024x1024 .f32) (xs0 xs1 : Vec F S1x1024 .f32) :
    sout2_B_0 c i a2 h2 a3 h3 a4 h4 a5 h5 a6 h6 hc x0 xs0 xs1 = k2_pay4 x0 xs0 := by
  unfold sout2_B_0
  rw [View.read_writes_eq_canon _ _ _ (scover2_B_0 c i a2 h2 a3 h3 a4 h4 a5 h5 a6 h6 hc x0 xs0 xs1)]
  unfold kernelRun2_B
  dsimp only
  sl_unfold_words
  rw [View.canon_unit_zero hz2]
  simp only [View.readAt_eq_ld, h2.read_unread, h5.read_unread, View.ld_unit_zero (S := S1x1024x1024) hz3, View.ld_unit_zero (S := S1x1024) hz2]

theorem sout2_B_1_eq (hc : ¬cond2_0 i) (x0 : Vec F S1x1024x1024 .f32) (xs0 xs1 : Vec F S1x1024 .f32) :
    sout2_B_1 c i a2 h2 a3 h3 a4 h4 a5 h5 a6 h6 hc x0 xs0 xs1 = k2_pay5 x0 xs1 := by
  unfold sout2_B_1
  rw [View.read_writes_eq_canon _ _ _ (scover2_B_1 c i a2 h2 a3 h3 a4 h4 a5 h5 a6 h6 hc x0 xs0 xs1)]
  unfold kernelRun2_B
  dsimp only
  sl_unfold_words
  rw [View.canon_unit_zero hz2]
  simp only [View.readAt_eq_ld, h2.read_unread, h6.read_unread, View.ld_unit_zero (S := S1x1024x1024) hz3, View.ld_unit_zero (S := S1x1024) hz2]

theorem out2_B_1_eq (hc : ¬cond2_0 i) (x0 : Vec F S1x1024x1024 .f32) (xs0 xs1 : Vec F S1x1024 .f32) :
    out2_B_1 c i a2 h2 a3 h3 a4 h4 a5 h5 a6 h6 hc x0 xs0 xs1 = k2_pay4 x0 xs0 := by
  unfold out2_B_1
  rw [View.read_writes_eq_canon _ _ _ (cover2_B_1 c i a2 h2 a3 h3 a4 h4 a5 h5 a6 h6 hc x0 xs0 xs1)]
  unfold kernelRun2_B
  dsimp only
  sl_unfold_words
  rw [View.canon_unit_zero hz2, View.readCov_unit_zero (S := S1x1024) _ hz2]
  simp only [View.readAt_eq_ld, h2.read_unread, h5.read_unread, View.ld_unit_zero (S := S1x1024x1024) hz3, View.ld_unit_zero (S := S1x1024) hz2]

theorem out2_B_2_eq (hc : ¬cond2_0 i) (x0 : Vec F S1x1024x1024 .f32) (xs0 xs1 : Vec F S1x1024 .f32) :
    out2_B_2 c i a2 h2 a3 h3 a4 h4 a5 h5 a6 h6 hc x0 xs0 xs1 = k2_pay5 x0 xs1 := by
  unfold out2_B_2
  rw [View.read_writes_eq_canon _ _ _ (cover2_B_2 c i a2 h2 a3 h3 a4 h4 a5 h5 a6 h6 hc x0 xs0 xs1)]
  unfold kernelRun2_B
  dsimp only
  sl_unfold_words
  rw [View.canon_unit_zero hz2, View.readCov_unit_zero (S := S1x1024) _ hz2]
  simp only [View.readAt_eq_ld, h2.read_unread, h6.read_unread, View.ld_unit_zero (S := S1x1024x1024) hz3, View.ld_unit_zero (S := S1x1024) hz2]

theorem sout2_A_0_eq (hc : cond2_0 i) (x0 : Vec F S1x1024x1024 .f32) :
    sout2_A_0 c i a2 h2 a3 h3 a4 h4 a5 h5 a6 h6 hc x0 = k2_pay4 x0 (k2_pay1 (F := F)) := by
  unfold sout2_A_0
  rw [View.read_writes_eq_canon _ _ _ (scover2_A_0 c i a2 h2 a3 h3 a4 h4 a5 h5 a6 h6 hc x0)]
  unfold kernelRun2_A
  dsimp only
  sl_unfold_words
  rw [View.canon_cons_unit_zero (S := S1x1024) hz2, View.readCov_unit_zero (S := S1x1024) _ hz2]
  simp only [View.readAt_eq_ld, h2.read_unread, View.ld_unit_zero (S := S1x1024x1024) hz3]

theorem sout2_A_1_eq (hc : cond2_0 i) (x0 : Vec F S1x1024x1024 .f32) :
    sout2_A_1 c i a2 h2 a3 h3 a4 h4 a5 h5 a6 h6 hc x0 = k2_pay5 x0 (k2_pay2 (F := F)) := by
  unfold sout2_A_1
  rw [View.read_writes_eq_canon _ _ _ (scover2_A_1 c i a2 h2 a3 h3 a4 h4 a5 h5 a6 h6 hc x0)]
  unfold kernelRun2_A
  dsimp only
  sl_unfold_words
  rw [View.canon_cons_unit_zero (S := S1x1024) hz2, View.readCov_unit_zero (S := S1x1024) _ hz2]
  simp only [View.readAt_eq_ld, h2.read_unread, View.ld_unit_zero (S := S1x1024x1024) hz3]

theorem out2_A_1_eq (hc : cond2_0 i) (x0 : Vec F S1x1024x1024 .f32) :
    out2_A_1 c i a2 h2 a3 h3 a4 h4 a5 h5 a6 h6 hc x0 = k2_pay4 x0 (k2_pay1 (F := F)) := by
  unfold out2_A_1
  rw [View.read_writes_eq_canon _ _ _ (cover2_A_1 c i a2 h2 a3 h3 a4 h4 a5 h5 a6 h6 hc x0)]
  unfold kernelRun2_A
  dsimp only
  sl_unfold_words
  rw [View.canon_unit_zero hz2, readCov_cons_unit_zero _ hz2, View.readCov_unit_zero (S := S1x1024) _ hz2]
  simp only [View.readAt_eq_ld, h2.read_unread, View.ld_unit_zero (S := S1x1024x1024) hz3]

theorem out2_A_2_eq (hc : cond2_0 i) (x0 : Vec F S1x1024x1024 .f32) :
    out2_A_2 c i a2 h2 a3 h3 a4 h4 a5 h5 a6 h6 hc x0 = k2_pay5 x0 (k2_pay2 (F := F)) := by
  unfold out2_A_2
  rw [View.read_writes_eq_canon _ _ _ (cover2_A_2 c i a2 h2 a3 h3 a4 h4 a5 h5 a6 h6 hc x0)]
  unfold kernelRun2_A
  dsimp only
  sl_unfold_words
  rw [View.canon_unit_zero hz2, readCov_cons_unit_zero _ hz2, View.readCov_unit_zero (S := S1x1024) _ hz2]
  simp only [View.readAt_eq_ld, h2.read_unread, View.ld_unit_zero (S := S1x1024x1024) hz3]

end Pieces

section Acc
variable (V : (c : Dev nD) → (b : Ref sig .tc) → Buf (Elt F) ((c : Thread nD τ).loc b))

abbrev xblk (c : Dev nD) (t : Fin cfg2.N) : Vec F S1x1024x1024 .f32 := iblk2 V c 0 t

abbrev warr (c : Dev nD) : Vec F S8x4096x1024 .f32 := V c main_v7

def acc0 (c : Dev nD) : (n : ℕ) → n < cfg2.N → Vec F S1x1024 .f32
  | 0, h => k2_pay4 (xblk V c ⟨0, h⟩) (k2_pay1 (F := F))
  | n + 1, h => k2_pay4 (xblk V c ⟨n + 1, h⟩) (acc0 c n (Nat.lt_of_succ_lt h))

def acc1 (c : Dev nD) : (n : ℕ) → n < cfg2.N → Vec F S1x1024 .f32
  | 0, h => k2_pay5 (xblk V c ⟨0, h⟩) (k2_pay2 (F := F))
  | n + 1, h => k2_pay5 (xblk V c ⟨n + 1, h⟩) (acc1 c n (Nat.lt_of_succ_lt h))

-- Every grid point leaves both outputs equal to the two running sums: induction on the point.
theorem outsAt2_eq (c : Dev nD) : ∀ (n : ℕ) (h : n < cfg2.N),
    outsAt2 V c n h = (acc0 V c n h, acc1 V c n h, acc0 V c n h, acc1 V c n h)
  | 0, h => by
    have hA : (⟨0, h⟩ : Fin cfg2.N).val % 32 = 0 := rfl
    rw [outsAt2_A V c ⟨0, h⟩ hA]
    exact congrArg₂ Prod.mk
      (at2_A V c (out2_A_1_eq c) ⟨0, h⟩ hA)
      (congrArg₂ Prod.mk
        (at2_A V c (out2_A_2_eq c) ⟨0, h⟩ hA)
        (congrArg₂ Prod.mk
          (at2_A V c (sout2_A_0_eq c) ⟨0, h⟩ hA)
          (at2_A V c (sout2_A_1_eq c) ⟨0, h⟩ hA)))
  | n + 1, h => by
    have hN : cfg2.N = 32 := N_2
    have hB : ¬(⟨n + 1, h⟩ : Fin cfg2.N).val % 32 = 0 := by dsimp only; omega
    have ih := outsAt2_eq c n (Nat.lt_of_succ_lt h)
    rw [outsAt2_B V c ⟨n + 1, h⟩ hB]
    have e0 : (outsAt2 V c ((⟨n + 1, h⟩ : Fin cfg2.N).val - 1) (Nat.lt_of_le_of_lt (Nat.sub_le _ _) (⟨n + 1, h⟩ : Fin cfg2.N).isLt)).2.2.1 = acc0 V c n (Nat.lt_of_succ_lt h) :=
      congrArg (fun p => p.2.2.1) ih
    have e1 : (outsAt2 V c ((⟨n + 1, h⟩ : Fin cfg2.N).val - 1) (Nat.lt_of_le_of_lt (Nat.sub_le _ _) (⟨n + 1, h⟩ : Fin cfg2.N).isLt)).2.2.2 = acc1 V c n (Nat.lt_of_succ_lt h) :=
      congrArg (fun p => p.2.2.2) ih
    rw [e0, e1]
    exact congrArg₂ Prod.mk
      (at2_B V c (out2_B_1_eq c) ⟨n + 1, h⟩ hB (acc0 V c n (Nat.lt_of_succ_lt h)) (acc1 V c n (Nat.lt_of_succ_lt h)))
      (congrArg₂ Prod.mk
        (at2_B V c (out2_B_2_eq c) ⟨n + 1, h⟩ hB (acc0 V c n (Nat.lt_of_succ_lt h)) (acc1 V c n (Nat.lt_of_succ_lt h)))
        (congrArg₂ Prod.mk
          (at2_B V c (sout2_B_0_eq c) ⟨n + 1, h⟩ hB (acc0 V c n (Nat.lt_of_succ_lt h)) (acc1 V c n (Nat.lt_of_succ_lt h)))
          (at2_B V c (sout2_B_1_eq c) ⟨n + 1, h⟩ hB (acc0 V c n (Nat.lt_of_succ_lt h)) (acc1 V c n (Nat.lt_of_succ_lt h)))))

end Acc

theorem colsum_apply (v : FVec Ideal S1024x1024 .f32) (h : S1024x1024.Reduces [0] S1024) (hφ : FKind.Formats .f32)
    (hacc : (0x00000000#32 : BitVec 32) = FKind.add.neutral .f32 hφ) (ch : Fin 1024) :
    multiReduction (F := Ideal) .add [0] S1024 v 0x00000000#32 h hφ hacc (ix1 ch) = ∑ r : Fin 1024, v (ix2 r ch) := by
  refine (Ideal.multiReduction_add_single v 0x00000000#32 h hφ hacc (ix1 ch)).trans ?_
  exact Finset.sum_congr rfl fun r _ => congrArg v (funext fun a => match a with | ⟨0, _⟩ => Fin.ext rfl | ⟨1, _⟩ => Fin.ext rfl)

theorem pay1_apply (ch : Fin 1024) : k2_pay1 (F := Ideal) (ix2 (0 : Fin 1) ch) = 0 := by
  unfold k2_pay1
  refine (congrFun (shapeCast_self _ _) _).trans ?_
  exact Ideal.ofBits_zero_f32

theorem pay2_apply (ch : Fin 1024) : k2_pay2 (F := Ideal) (ix2 (0 : Fin 1) ch) = 0 := by
  unfold k2_pay2
  refine (congrFun (shapeCast_self _ _) _).trans ?_
  exact Ideal.ofBits_zero_f32

theorem pay4_apply (x0 : FVec Ideal S1x1024x1024 .f32) (xs : FVec Ideal S1x1024 .f32) (ch : Fin 1024) :
    k2_pay4 (F := Ideal) x0 xs (ix2 (0 : Fin 1) ch) = xs (ix2 (0 : Fin 1) ch) + ∑ r : Fin 1024, x0 (ix3 (0 : Fin 1) r ch) := by
  unfold k2_pay4 k2_pay3
  refine (congrFun (shapeCast_self _ _) _).trans ?_
  refine congrArg (xs (ix2 (0 : Fin 1) ch) + ·) ?_
  refine (shapeCast_a_1a_apply _ _ (0 : Fin 1) ch).trans ?_
  refine (colsum_apply _ _ _ _ ch).trans ?_
  exact Finset.sum_congr rfl fun r _ => shapeCast_1ab_ab_apply x0 _ r ch

theorem pay5_apply (x0 : FVec Ideal S1x1024x1024 .f32) (xs : FVec Ideal S1x1024 .f32) (ch : Fin 1024) :
    k2_pay5 (F := Ideal) x0 xs (ix2 (0 : Fin 1) ch)
      = xs (ix2 (0 : Fin 1) ch) + ∑ r : Fin 1024, x0 (ix3 (0 : Fin 1) r ch) * x0 (ix3 (0 : Fin 1) r ch) := by
  unfold k2_pay5 k2_pay3
  refine (congrFun (shapeCast_self _ _) _).trans ?_
  refine congrArg (xs (ix2 (0 : Fin 1) ch) + ·) ?_
  refine (shapeCast_a_1a_apply _ _ (0 : Fin 1) ch).trans ?_
  refine (colsum_apply _ _ _ _ ch).trans ?_
  exact Finset.sum_congr rfl fun r _ =>
    congrArg₂ (· * ·) (shapeCast_1ab_ab_apply x0 _ r ch) (shapeCast_1ab_ab_apply x0 _ r ch)

theorem idx2_0 : ∀ t : Fin cfg2.N, win2_0.index t 0 = t.val / 4 ∧ win2_0.index t 1 = t.val % 4 ∧ win2_0.index t 2 = 0 :=
  (by decide +kernel : ∀ t : Fin grid2.N, win2_0.index t 0 = t.val / 4 ∧ win2_0.index t 1 = t.val % 4 ∧ win2_0.index t 2 = 0)

section Read
variable (V : (c : Dev nD) → (b : Ref sig .tc) → Buf (Elt F) ((c : Thread nD τ).loc b))

theorem xblk_apply (c : Dev nD) (n : ℕ) (hn : n < cfg2.N) (h32 : n < 32) (r ch : Fin 1024) :
    xblk V c ⟨n, hn⟩ (ix3 (0 : Fin 1) r ch)
      = warr V c (ix3 (Cert.Spec.ptB ⟨n, h32⟩) (Cert.Spec.tileRow (Cert.Spec.ptN ⟨n, h32⟩) r) ch) := by
  have hi : win2_0.index ⟨n, hn⟩ 0 = n / 4 ∧ win2_0.index ⟨n, hn⟩ 1 = n % 4 ∧ win2_0.index ⟨n, hn⟩ 2 = 0 := idx2_0 ⟨n, hn⟩
  unfold xblk iblk2
  rw [View.read_apply]
  show V c main_v7 _ = V c main_v7 _
  congr 1
  funext a
  apply Fin.ext
  match a with
  | ⟨0, _⟩ => show win2_0.index ⟨n, hn⟩ 0 * 1 + 1 * 0 = n / 4; rw [hi.1]; omega
  | ⟨1, _⟩ => show win2_0.index ⟨n, hn⟩ 1 * 1024 + 1 * r.val = n % 4 * 1024 + r.val; rw [hi.2.1]; omega
  | ⟨2, _⟩ => show win2_0.index ⟨n, hn⟩ 2 * 1024 + 1 * ch.val = ch.val; rw [hi.2.2]; omega

end Read

section Sums
variable (V : (c : Dev nD) → (b : Ref sig .tc) → Buf (Elt Ideal) ((c : Thread nD τ).loc b)) (c : Dev nD) (a : Cert.Spec.Args)
  (hwy : ∀ (b : Fin 8) (n : Fin 4096) (ch : Fin 1024), V c main_v7 (ValueIdx.ix3 b n ch) = Cert.Spec.wyK a b n ch)

def term0 (a : Cert.Spec.Args) (ch : Fin 1024) (k : ℕ) : EReal :=
  if hk : k < 32 then ∑ r : Fin 1024, Cert.Spec.wyK a (Cert.Spec.ptB ⟨k, hk⟩) (Cert.Spec.tileRow (Cert.Spec.ptN ⟨k, hk⟩) r) ch else 0

def term1 (a : Cert.Spec.Args) (ch : Fin 1024) (k : ℕ) : EReal :=
  if hk : k < 32 then ∑ r : Fin 1024, Cert.Spec.wyK a (Cert.Spec.ptB ⟨k, hk⟩) (Cert.Spec.tileRow (Cert.Spec.ptN ⟨k, hk⟩) r) ch
    * Cert.Spec.wyK a (Cert.Spec.ptB ⟨k, hk⟩) (Cert.Spec.tileRow (Cert.Spec.ptN ⟨k, hk⟩) r) ch else 0

include hwy in
theorem tile_sum (n : ℕ) (hn : n < cfg2.N) (ch : Fin 1024) :
    ∑ r : Fin 1024, xblk V c ⟨n, hn⟩ (ix3 (0 : Fin 1) r ch) = term0 a ch n := by
  have h32 : n < 32 := lt_of_lt_of_eq hn N_2
  unfold term0
  rw [dif_pos h32]
  exact Finset.sum_congr rfl fun r _ => (xblk_apply V c n hn h32 r ch).trans (hwy _ _ _)

include hwy in
theorem tile_sumsq (n : ℕ) (hn : n < cfg2.N) (ch : Fin 1024) :
    ∑ r : Fin 1024, xblk V c ⟨n, hn⟩ (ix3 (0 : Fin 1) r ch) * xblk V c ⟨n, hn⟩ (ix3 (0 : Fin 1) r ch) = term1 a ch n := by
  have h32 : n < 32 := lt_of_lt_of_eq hn N_2
  unfold term1
  rw [dif_pos h32]
  exact Finset.sum_congr rfl fun r _ =>
    congrArg₂ (· * ·) ((xblk_apply V c n hn h32 r ch).trans (hwy _ _ _)) ((xblk_apply V c n hn h32 r ch).trans (hwy _ _ _))

include hwy in

theorem acc0_apply (ch : Fin 1024) : ∀ (n : ℕ) (hn : n < cfg2.N),
    acc0 V c n hn (ix2 (0 : Fin 1) ch) = ∑ k ∈ Finset.range (n + 1), term0 a ch k
  | 0, hn => by
    show k2_pay4 (F := Ideal) (xblk V c ⟨0, hn⟩) (k2_pay1 (F := Ideal)) (ix2 (0 : Fin 1) ch) = _
    rw [pay4_apply, pay1_apply, zero_add, tile_sum V c a hwy 0 hn ch, Finset.sum_range_one]
  | n + 1, hn => by
    show k2_pay4 (F := Ideal) (xblk V c ⟨n + 1, hn⟩) (acc0 V c n (Nat.lt_of_succ_lt hn)) (ix2 (0 : Fin 1) ch) = _
    rw [pay4_apply, acc0_apply ch n (Nat.lt_of_succ_lt hn), tile_sum V c a hwy (n + 1) hn ch, Finset.sum_range_succ _ (n + 1)]

include hwy in

theorem acc1_apply (ch : Fin 1024) : ∀ (n : ℕ) (hn : n < cfg2.N),
    acc1 V c n hn (ix2 (0 : Fin 1) ch) = ∑ k ∈ Finset.range (n + 1), term1 a ch k
  | 0, hn => by
    show k2_pay5 (F := Ideal) (xblk V c ⟨0, hn⟩) (k2_pay2 (F := Ideal)) (ix2 (0 : Fin 1) ch) = _
    rw [pay5_apply, pay2_apply, zero_add, tile_sumsq V c a hwy 0 hn ch, Finset.sum_range_one]
  | n + 1, hn => by
    show k2_pay5 (F := Ideal) (xblk V c ⟨n + 1, hn⟩) (acc1 V c n (Nat.lt_of_succ_lt hn)) (ix2 (0 : Fin 1) ch) = _
    rw [pay5_apply, acc1_apply ch n (Nat.lt_of_succ_lt hn), tile_sumsq V c a hwy (n + 1) hn ch, Finset.sum_range_succ _ (n + 1)]

theorem sum_term0 (ch : Fin 1024) : ∑ k ∈ Finset.range 32, term0 a ch k = Cert.Spec.sumK a ch := by
  unfold Cert.Spec.sumK
  rw [← Fin.sum_univ_eq_sum_range (fun k => term0 a ch k) 32]
  exact Finset.sum_congr rfl fun t _ => by unfold term0; rw [dif_pos t.isLt]

theorem sum_term1 (ch : Fin 1024) : ∑ k ∈ Finset.range 32, term1 a ch k = Cert.Spec.sqK a ch := by
  unfold Cert.Spec.sqK
  rw [← Fin.sum_univ_eq_sum_range (fun k => term1 a ch k) 32]
  exact Finset.sum_congr rfl fun t _ => by unfold term1; rw [dif_pos t.isLt]

end Sums

def t31 : Fin cfg2.N := ⟨31, by rw [show cfg2.N = 32 from N_2]; decide⟩

section Final
variable (V : (c : Dev nD) → (b : Ref sig .tc) → Buf (Elt F) ((c : Thread nD τ).loc b))

abbrev result1 (c : Dev nD) : Buf (Elt F) ((c : Thread nD τ).loc main_v8_0) := acc0 V c 31 t31.isLt
abbrev result2 (c : Dev nD) : Buf (Elt F) ((c : Thread nD τ).loc main_v8_1) := acc1 V c 31 t31.isLt

theorem flushed2_1_eq (c : Dev nD) (t : Fin cfg2.N) (hf : (cfg2.win 1).flush t = true) :
    (dat2 V c).flushed 1 t = ((cfg2.win 1).blk t).view.read (Elt F) (result1 V c) := by
  have hN : cfg2.N = 32 := N_2
  have h31 : t.val = 31 := by have := (flush2_1 t).mp hf; have := t.isLt; omega
  obtain rfl : t = t31 := Fin.ext h31
  show (cfg2.win 1).cut (grid2.coords t31) ((dat2 V c).after 1 t31) = _
  rw [after2_1 V c t31, outsAt2_eq V c t31.val t31.isLt]
  have hz' : (fun a => win2_1.index t31 a * main_v8_0.ty.shape.size a) = fun _ => 0 := funext fun a => by fin_cases a <;> decide +kernel
  exact (Memref.read_access_unit_zero (Elt F) main_v8_0 hz' (fun a => by rw [congrFun hz' a]; simp) (result1 V c)).symm

theorem flushed2_2_eq (c : Dev nD) (t : Fin cfg2.N) (hf : (cfg2.win 2).flush t = true) :
    (dat2 V c).flushed 2 t = ((cfg2.win 2).blk t).view.read (Elt F) (result2 V c) := by
  have hN : cfg2.N = 32 := N_2
  have h31 : t.val = 31 := by have := (flush2_2 t).mp hf; have := t.isLt; omega
  obtain rfl : t = t31 := Fin.ext h31
  show (cfg2.win 2).cut (grid2.coords t31) ((dat2 V c).after 2 t31) = _
  rw [after2_2 V c t31, outsAt2_eq V c t31.val t31.isLt]
  have hz' : (fun a => win2_2.index t31 a * main_v8_1.ty.shape.size a) = fun _ => 0 := funext fun a => by fin_cases a <;> decide +kernel
  exact (Memref.read_access_unit_zero (Elt F) main_v8_1 hz' (fun a => by rw [congrFun hz' a]; simp) (result2 V c)).symm

theorem final2_1 (c : Dev nD) : (dat2 V c).arrAt 1 cfg2.N = result1 V c :=
  (dat2 V c).arrAt_eq_of_cover 1 (result1 V c) (flushed2_1_eq V c) fun i =>
    ⟨t31, (flush2_1 t31).mpr rfl, by
      show i ∈ ((View.whole main_v8_0).slice (win2_1.rect t31)).set
      rw [View.set_slice_whole, Rect.mem_set_unit]
      intro a
      have h0 : (i 0 : Nat) < 1 := (i 0).isLt
      have h1 : (i 1 : Nat) < 1024 := (i 1).isLt
      match a with
      | ⟨0, _⟩ => show win2_1.index t31 0 * win2_1.size 0 ≤ (i 0 : Nat) ∧ (i 0 : Nat) < win2_1.index t31 0 * win2_1.size 0 + win2_1.xsize (grid2.coords t31) 0
                  rw [show win2_1.index t31 0 * win2_1.size 0 = 0 from by decide +kernel, show win2_1.xsize (grid2.coords t31) 0 = 1 from by decide +kernel]; omega
      | ⟨1, _⟩ => show win2_1.index t31 1 * win2_1.size 1 ≤ (i 1 : Nat) ∧ (i 1 : Nat) < win2_1.index t31 1 * win2_1.size 1 + win2_1.xsize (grid2.coords t31) 1
                  rw [show win2_1.index t31 1 * win2_1.size 1 = 0 from by decide +kernel, show win2_1.xsize (grid2.coords t31) 1 = 1024 from by decide +kernel]; omega⟩

theorem final2_2 (c : Dev nD) : (dat2 V c).arrAt 2 cfg2.N = result2 V c :=
  (dat2 V c).arrAt_eq_of_cover 2 (result2 V c) (flushed2_2_eq V c) fun i =>
    ⟨t31, (flush2_2 t31).mpr rfl, by
      show i ∈ ((View.whole main_v8_1).slice (win2_2.rect t31)).set
      rw [View.set_slice_whole, Rect.mem_set_unit]
      intro a
      have h0 : (i 0 : Nat) < 1 := (i 0).isLt
      have h1 : (i 1 : Nat) < 1024 := (i 1).isLt
      match a with
      | ⟨0, _⟩ => show win2_2.index t31 0 * win2_2.size 0 ≤ (i 0 : Nat) ∧ (i 0 : Nat) < win2_2.index t31 0 * win2_2.size 0 + win2_2.xsize (grid2.coords t31) 0
                  rw [show win2_2.index t31 0 * win2_2.size 0 = 0 from by decide +kernel, show win2_2.xsize (grid2.coords t31) 0 = 1 from by decide +kernel]; omega
      | ⟨1, _⟩ => show win2_2.index t31 1 * win2_2.size 1 ≤ (i 1 : Nat) ∧ (i 1 : Nat) < win2_2.index t31 1 * win2_2.size 1 + win2_2.xsize (grid2.coords t31) 1
                  rw [show win2_2.index t31 1 * win2_2.size 1 = 0 from by decide +kernel, show win2_2.xsize (grid2.coords t31) 1 = 1024 from by decide +kernel]; omega⟩

end Final

end V2

theorem val2 (V : (c : Dev nD) → (b : Ref sig .tc) → Buf (Elt Ideal) ((c : Thread nD τ).loc b)) (c : Dev nD) (a : Cert.Spec.Args)
    (hwy : ∀ (b : Fin 8) (n : Fin 4096) (ch : Fin 1024), V c main_v7 (ValueIdx.ix3 b n ch) = Cert.Spec.wyK a b n ch) (ch : Fin 1024) :
    (dat2 (F := Ideal) V c).arrAt 1 cfg2.N (ValueIdx.ix2 (0 : Fin 1) ch) = Cert.Spec.sumK a ch
      ∧ (dat2 (F := Ideal) V c).arrAt 2 cfg2.N (ValueIdx.ix2 (0 : Fin 1) ch) = Cert.Spec.sqK a ch := by
  refine ⟨?_, ?_⟩
  · refine (congrFun (V2.final2_1 (F := Ideal) V c) (ix2 (0 : Fin 1) ch)).trans ?_
    exact (V2.acc0_apply V c a hwy ch 31 V2.t31.isLt).trans (V2.sum_term0 a ch)
  · refine (congrFun (V2.final2_2 (F := Ideal) V c) (ix2 (0 : Fin 1) ch)).trans ?_
    exact (V2.acc1_apply V c a hwy ch 31 V2.t31.isLt).trans (V2.sum_term1 a ch)

end Cert.KernelIdeal.Hand

end
-- ==== Proof.KI.Val3.lean ====
import proofs.«145685_j29137058136127_1_alg».proof.Proof.KI.R3
import proofs.«145685_j29137058136127_1_alg».proof.Proof.Spec
import Idealize.ShloMosaic.Lib.Pipeline.Value
import Idealize.ShloMosaic.Lib.ValueIdx
import Idealize.ShloMosaic.Lib.ValueLayout

noncomputable section

namespace Cert.KernelIdeal.Hand

open Cert.KernelIdeal Cert.KernelIdeal.Gen
open Idealize.ShloMosaic Idealize.ShloMosaic.TcCoe
open Idealize.ShloMosaic.ValueIdx
open Idealize.ShloMosaic.Pipeline (Dat Cfg Window)
open Cert.Spec (wyK meanK varK outK wEps)

namespace v3

theorem zeros3 : (![0, 0, 0] : Fin 3 → Nat) = fun _ => 0 := funext fun a => by fin_cases a <;> rfl
theorem zeros2 : (![0, 0] : Fin 2 → Nat) = fun _ => 0 := funext fun a => by fin_cases a <;> rfl

theorem ext3 {n : Fin 3 → ℕ} {x y : (a : Fin 3) → Fin (n a)} (h0 : (x 0 : ℕ) = y 0) (h1 : (x 1 : ℕ) = y 1) (h2 : (x 2 : ℕ) = y 2) : x = y :=
  funext fun a => Fin.ext (match a with | ⟨0, _⟩ => h0 | ⟨1, _⟩ => h1 | ⟨2, _⟩ => h2)

theorem out3_6_apply (x0 x1 : Vec Ideal S1x1024x1024 .f32) (x2 x3 x4 x5 : Vec Ideal S1x1024 .f32) (u : Fin 1) (r ch : Fin 1024) :
    out3_6 (F := Ideal) x0 x1 x2 x3 x4 x5 (ix3 u r ch)
      = (x0 (ix3 (0 : Fin 1) r ch) - x2 (ix2 (0 : Fin 1) ch)) * Ideal.rsqrt (x3 (ix2 (0 : Fin 1) ch) + wEps) * x4 (ix2 (0 : Fin 1) ch)
          + x5 (ix2 (0 : Fin 1) ch) + x1 (ix3 (0 : Fin 1) r ch) := by
  unfold out3_6
  rw [View.canon_unit_zero zeros3]
  simp only [View.ld_unit_zero (S := S1x1024x1024) zeros3, View.ld_unit_zero (S := S1x1024) zeros2]
  unfold k3_pay1
  refine (shapeCast_ab_1ab_apply _ _ u r ch).trans ?_
  simp only [addf_apply, mulf_apply, subf_apply, broadcastTo_1b_ab_apply, shapeCast_1ab_ab_apply, shapeCast_self]
  rfl

theorem idx3 : ∀ t : Fin cfg3.N,
    win3_0.index t (0 : Fin 3) = t.val / 4 ∧ win3_0.index t (1 : Fin 3) = t.val % 4 ∧ win3_0.index t (2 : Fin 3) = 0
    ∧ win3_1.index t (0 : Fin 3) = t.val / 4 ∧ win3_1.index t (1 : Fin 3) = t.val % 4 ∧ win3_1.index t (2 : Fin 3) = 0
    ∧ win3_6.index t (0 : Fin 3) = t.val / 4 ∧ win3_6.index t (1 : Fin 3) = t.val % 4 ∧ win3_6.index t (2 : Fin 3) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0 :=
  (by decide +kernel : ∀ t : Fin grid3.N, _)

-- Grid point t is batch element t / 4 and tile t % 4 of 1024 tokens, for all three token arrays alike.
theorem emb3_tok (t : Fin cfg3.N) (y : S1x1024x1024.Idx) (b : Fin 8) (n : Fin 4096) (hb : b.val = t.val / 4)
    (hn : n.val = t.val % 4 * 1024 + (y 1).val) :
    ((cfg3.win 0).blk t).view.emb y = ix3 b n (y 2) ∧ ((cfg3.win 1).blk t).view.emb y = ix3 b n (y 2)
      ∧ ((cfg3.win 6).blk t).view.emb y = ix3 b n (y 2) := by
  obtain ⟨a0, a1, a2, b0, b1, b2, c0, c1, c2, -⟩ := idx3 t
  have h0 : (y 0).val < 1 := (y 0).isLt
  refine ⟨ext3 ?_ ?_ ?_, ext3 ?_ ?_ ?_, ext3 ?_ ?_ ?_⟩
  · show win3_0.index t (0 : Fin 3) * 1 + 1 * (y 0).val = b.val; omega
  · show win3_0.index t (1 : Fin 3) * 1024 + 1 * (y 1).val = n.val; omega
  · show win3_0.index t (2 : Fin 3) * 1024 + 1 * (y 2).val = (y 2).val; omega
  · show win3_1.index t (0 : Fin 3) * 1 + 1 * (y 0).val = b.val; omega
  · show win3_1.index t (1 : Fin 3) * 1024 + 1 * (y 1).val = n.val; omega
  · show win3_1.index t (2 : Fin 3) * 1024 + 1 * (y 2).val = (y 2).val; omega
  · show win3_6.index t (0 : Fin 3) * 1 + 1 * (y 0).val = b.val; omega
  · show win3_6.index t (1 : Fin 3) * 1024 + 1 * (y 1).val = n.val; omega
  · show win3_6.index t (2 : Fin 3) * 1024 + 1 * (y 2).val = (y 2).val; omega

-- The four row arrays are their own blocks at every point.
theorem emb3_row (t : Fin cfg3.N) (y : S1x1024.Idx) :
    ((cfg3.win 2).blk t).view.emb y = y ∧ ((cfg3.win 3).blk t).view.emb y = y ∧ ((cfg3.win 4).blk t).view.emb y = y
      ∧ ((cfg3.win 5).blk t).view.emb y = y := by
  obtain ⟨-, -, -, -, -, -, -, -, -, a0, a1, b0, b1, c0, c1, d0, d1⟩ := idx3 t
  exact ⟨Shape.idx_ext₂ (win3_2.rect_emb_val_of_index_zero t (0 : Fin 2) a0 y) (win3_2.rect_emb_val_of_index_zero t (1 : Fin 2) a1 y),
    Shape.idx_ext₂ (win3_3.rect_emb_val_of_index_zero t (0 : Fin 2) b0 y) (win3_3.rect_emb_val_of_index_zero t (1 : Fin 2) b1 y),
    Shape.idx_ext₂ (win3_4.rect_emb_val_of_index_zero t (0 : Fin 2) c0 y) (win3_4.rect_emb_val_of_index_zero t (1 : Fin 2) c1 y),
    Shape.idx_ext₂ (win3_5.rect_emb_val_of_index_zero t (0 : Fin 2) d0 y) (win3_5.rect_emb_val_of_index_zero t (1 : Fin 2) d1 y)⟩

def G3 (a : Cert.Spec.Args) : S8x4096x1024.Idx → EReal := fun i => outK a (i 0) (i 1) (i 2)

section Final

variable (V : (c : Dev nD) → (b : Ref sig .tc) → Buf (Elt Ideal) ((c : Thread nD τ).loc b)) (c : Dev nD) (a : Cert.Spec.Args)
  (hwy : ∀ (b : Fin 8) (n : Fin 4096) (ch : Fin 1024), V c main_v7 (ValueIdx.ix3 b n ch) = Cert.Spec.wyK a b n ch)
  (hv : ∀ (b : Fin 8) (n : Fin 4096) (ch : Fin 1024), V c main_arg0 (ValueIdx.ix3 b n ch) = a.v b n ch)
  (hmean : ∀ ch : Fin 1024, V c main_v10 (ValueIdx.ix2 (0 : Fin 1) ch) = Cert.Spec.meanK a ch)
  (hvar : ∀ ch : Fin 1024, V c main_v14 (ValueIdx.ix2 (0 : Fin 1) ch) = Cert.Spec.varK a ch)
  (hg : ∀ ch : Fin 1024, V c main_v4 (ValueIdx.ix2 (0 : Fin 1) ch) = a.gamma ch)
  (hbt : ∀ ch : Fin 1024, V c main_v5 (ValueIdx.ix2 (0 : Fin 1) ch) = a.beta ch)
include hwy hv hmean hvar hg hbt

theorem point3 (t : Fin cfg3.N) (y : S1x1024x1024.Idx) (b : Fin 8) (n : Fin 4096) (hb : b.val = t.val / 4)
    (hn : n.val = t.val % 4 * 1024 + (y 1).val) :
    out3_6 (F := Ideal) (iblk3 V c 0 t) (iblk3 V c 1 t) (iblk3 V c 2 t) (iblk3 V c 3 t) (iblk3 V c 4 t) (iblk3 V c 5 t) y
      = outK a b n (y 2) := by
  obtain ⟨e0, e1, -⟩ := emb3_tok t (ix3 (0 : Fin 1) (y 1) (y 2)) b n hb hn
  obtain ⟨e2, e3, e4, e5⟩ := emb3_row t (ix2 (0 : Fin 1) (y 2))
  refine (congrArg _ (eq_ix3 y)).trans ((out3_6_apply _ _ _ _ _ _ (y 0) (y 1) (y 2)).trans ?_)
  exact congrArg₂ (· + ·) (congrArg₂ (· + ·) (congrArg₂ (· * ·) (congrArg₂ (· * ·)
    (congrArg₂ (· - ·) ((congrArg (V c main_v7) e0).trans (hwy b n _)) ((congrArg (V c main_v10) e2).trans (hmean _)))
    (congrArg (fun x => Ideal.rsqrt (x + wEps)) ((congrArg (V c main_v14) e3).trans (hvar _))))
    ((congrArg (V c main_v4) e4).trans (hg _))) ((congrArg (V c main_v5) e5).trans (hbt _))) ((congrArg (V c main_arg0) e1).trans (hv b n _))

theorem flushed3_eq (t : Fin cfg3.N) : (dat3 (F := Ideal) V c).flushed 6 t = ((cfg3.win 6).blk t).view.read (Elt Ideal) (G3 a) := by
  show (cfg3.win 6).cut (grid3.coords t) ((dat3 (F := Ideal) V c).after 6 t) = _
  rw [after3_6]
  funext y
  have ht : t.val < 32 := lt_of_lt_of_eq t.isLt N_3
  have hy : (y 1).val < 1024 := (y 1).isLt
  rw [View.read_apply, (emb3_tok t y ⟨t.val / 4, by omega⟩ ⟨t.val % 4 * 1024 + (y 1).val, by omega⟩ rfl rfl).2.2]
  exact point3 V c a hwy hv hmean hvar hg hbt t y _ _ rfl rfl

theorem _root_.Cert.KernelIdeal.Hand.val3 (b : Fin 8) (n : Fin 4096) (ch : Fin 1024) :
    (dat3 (F := Ideal) V c).arrAt 6 cfg3.N (ValueIdx.ix3 b n ch) = Cert.Spec.outK a b n ch := by
  have hb := b.isLt
  have hn := n.isLt
  obtain ⟨t, ht⟩ : ∃ t : Fin cfg3.N, t.val = b.val * 4 + n.val / 1024 := ⟨⟨b.val * 4 + n.val / 1024, by rw [show cfg3.N = 32 from N_3]; omega⟩, rfl⟩
  have h := congrFun ((dat3 (F := Ideal) V c).read_blk_arrAt 6 (G3 a) (fun t _ => flushed3_eq V c a hwy hv hmean hvar hg hbt t) t (flush3_6 t))
    (ix3 (0 : Fin 1) (⟨n.val % 1024, Nat.mod_lt _ (by decide)⟩ : Fin 1024) ch)
  rw [View.read_apply, View.read_apply, (emb3_tok t _ b n (by omega) (by show n.val = t.val % 4 * 1024 + n.val % 1024; omega)).2.2] at h
  exact h

end Final

end v3

end Cert.KernelIdeal.Hand

end
-- ==== Proof.Bridge.lean ====
import proofs.«145685_j29137058136127_1_alg».proof.Defs
import proofs.«145685_j29137058136127_1_alg».proof.Proof.Spec
import Idealize.ShloMosaic.Lib.ValueIdx

noncomputable section

namespace Cert.Bridge

open Idealize.ShloMosaic Idealize.ShloMosaic.ValueIdx Idealize.SL.Sem

def ofArrays (a0 : (⟨3, ![8, 4096, 1024]⟩ : Shape).Idx → EReal) (a1 a3 a5 : (⟨2, ![256, 1024]⟩ : Shape).Idx → EReal)
    (a2 a4 a6 : (⟨1, ![256]⟩ : Shape).Idx → EReal) (a7 : (⟨2, ![1024, 256]⟩ : Shape).Idx → EReal)
    (a8 a9 a10 : (⟨1, ![1024]⟩ : Shape).Idx → EReal) : Cert.Spec.Args :=
  ⟨fun b n ch => a0 (ix3 b n ch), fun i ch => a1 (ix2 i ch), fun i => a2 (ix1 i), fun i ch => a3 (ix2 i ch),
    fun i => a4 (ix1 i), fun i ch => a5 (ix2 i ch), fun i => a6 (ix1 i), fun ch i => a7 (ix2 ch i), fun ch => a8 (ix1 ch),
    fun ch => a9 (ix1 ch), fun ch => a10 (ix1 ch)⟩

open Cert.KernelIdeal in
def argsK (m : (ℓ : Loc nD τ sig) → Buf (Elt Ideal) ℓ) (c : Dev nD) : Cert.Spec.Args :=
  ofArrays (m ((c.tc : Thread nD τ).loc main_arg0)) (m ((c.tc : Thread nD τ).loc main_arg1))
    (m ((c.tc : Thread nD τ).loc main_arg3)) (m ((c.tc : Thread nD τ).loc main_arg5))
    (m ((c.tc : Thread nD τ).loc main_arg2)) (m ((c.tc : Thread nD τ).loc main_arg4))
    (m ((c.tc : Thread nD τ).loc main_arg6)) (m ((c.tc : Thread nD τ).loc main_arg7))
    (m ((c.tc : Thread nD τ).loc main_arg8)) (m ((c.tc : Thread nD τ).loc main_arg9))
    (m ((c.tc : Thread nD τ).loc main_arg10))

open Cert.ReferenceIdeal in
def argsR (m : (ℓ : Loc nD τ sig) → Buf (Elt Ideal) ℓ) (c : Dev nD) : Cert.Spec.Args :=
  ofArrays (m ((c.tc : Thread nD τ).loc main_arg0)) (m ((c.tc : Thread nD τ).loc main_arg1))
    (m ((c.tc : Thread nD τ).loc main_arg3)) (m ((c.tc : Thread nD τ).loc main_arg5))
    (m ((c.tc : Thread nD τ).loc main_arg2)) (m ((c.tc : Thread nD τ).loc main_arg4))
    (m ((c.tc : Thread nD τ).loc main_arg6)) (m ((c.tc : Thread nD τ).loc main_arg7))
    (m ((c.tc : Thread nD τ).loc main_arg8)) (m ((c.tc : Thread nD τ).loc main_arg9))
    (m ((c.tc : Thread nD τ).loc main_arg10))

end Cert.Bridge

end
-- ==== Proof.KI.Value.lean ====
import proofs.«145685_j29137058136127_1_alg».proof.Proof.KI.Run
import proofs.«145685_j29137058136127_1_alg».proof.Proof.KI.Val0
import proofs.«145685_j29137058136127_1_alg».proof.Proof.KI.Val1
import proofs.«145685_j29137058136127_1_alg».proof.Proof.KI.Val2
import proofs.«145685_j29137058136127_1_alg».proof.Proof.KI.Val3
import proofs.«145685_j29137058136127_1_alg».proof.Proof.Bridge
import Idealize.ShloMosaic.Lib.ValueLayout
import Idealize.ShloMosaic.Lib.StableHlo.Run
import Idealize.ShloMosaic.Lib.Pipeline.Value

noncomputable section

namespace Cert.KernelIdeal.Hand

open Cert.KernelIdeal Cert.KernelIdeal.Gen
open Idealize.ShloMosaic Idealize.ShloMosaic.TcCoe Idealize.ShloMosaic.ValueIdx
open Idealize.SL.Sem
open Cert.Bridge (argsK)
open Cert.Spec (tv mK wyK sumK sqK meanK varK outK)

variable (m : (ℓ : Loc nD τ sig) → Buf (Elt Ideal) ℓ) (c : Dev nD)

-- A vector reshaped to a one-row matrix, read in that row.
theorem reshaped_row {n : ℕ} {X : (⟨2, ![1, n]⟩ : Shape).Idx → EReal} {Y : (⟨1, ![n]⟩ : Shape).Idx → EReal}
    (h : (⟨1, ![n]⟩ : Shape).ShapeCasts ⟨2, ![1, n]⟩) (e : X = shapeCast _ Y h) (i : Fin n) : X (ix2 (0 : Fin 1) i) = Y (ix1 i) :=
  (congrFun e _).trans (shapeCast_a_1a_apply Y h 0 i)

theorem W1_v0 (i : Fin 256) : W1 m c (Proc.devRef .tc main_v0) (ix2 (0 : Fin 1) i) = m ((c : Thread nD τ).loc main_arg4) (ix1 i) :=
  reshaped_row shapeCasts_S256_S1x256 (by dsimp only [W1, W0, hostOps0]; after_results <;> rfl) i
theorem W1_v1 (i : Fin 256) : W1 m c (Proc.devRef .tc main_v1) (ix2 (0 : Fin 1) i) = m ((c : Thread nD τ).loc main_arg6) (ix1 i) :=
  reshaped_row shapeCasts_S256_S1x256 (by dsimp only [W1, W0, hostOps0]; after_results <;> rfl) i
theorem W1_v2 (i : Fin 256) : W1 m c (Proc.devRef .tc main_v2) (ix2 (0 : Fin 1) i) = m ((c : Thread nD τ).loc main_arg2) (ix1 i) :=
  reshaped_row shapeCasts_S256_S1x256 (by dsimp only [W1, W0, hostOps0]; after_results <;> rfl) i
theorem W1_v3 (i : Fin 1024) : W1 m c (Proc.devRef .tc main_v3) (ix2 (0 : Fin 1) i) = m ((c : Thread nD τ).loc main_arg8) (ix1 i) :=
  reshaped_row shapeCasts_S1024_S1x1024 (by dsimp only [W1, W0, hostOps0]; after_results <;> rfl) i
theorem W1_v4 (i : Fin 1024) : W1 m c (Proc.devRef .tc main_v4) (ix2 (0 : Fin 1) i) = m ((c : Thread nD τ).loc main_arg9) (ix1 i) :=
  reshaped_row shapeCasts_S1024_S1x1024 (by dsimp only [W1, W0, hostOps0]; after_results <;> rfl) i
theorem W1_v5 (i : Fin 1024) : W1 m c (Proc.devRef .tc main_v5) (ix2 (0 : Fin 1) i) = m ((c : Thread nD τ).loc main_arg10) (ix1 i) :=
  reshaped_row shapeCasts_S1024_S1x1024 (by dsimp only [W1, W0, hostOps0]; after_results <;> rfl) i

theorem W5_W1 (r : Ref sig .tc) (h3 : r ∉ hostOps3_W) (h2 : ∀ w, (cfg2.win w).isOut = true → Pipeline.arrRef spec2 w ≠ r)
    (h1 : ∀ w, (cfg1.win w).isOut = true → Pipeline.arrRef spec1 w ≠ r) (h0 : ∀ w, (cfg0.win w).isOut = true → Pipeline.arrRef spec0 w ≠ r) :
    W5 m c (Proc.devRef .tc r) = W1 m c (Proc.devRef .tc r) :=
  (W5_keep m c r h3).trans <| (W4_keep m c r h2).trans <| (W3_keep m c r h1).trans (W2_keep m c r h0)

theorem W2_theta (b : Fin 8) (n : Fin 4096) (i : Fin 256) : W2 m c (Proc.devRef .tc main_v6_0) (ix3 b n i) = tv (argsK m c) b n i :=
  (congrFun (W2_arr m c 7) _).trans <| val0_theta (V1 m) c (argsK m c) (fun _ _ _ => congrFun (W1_keep m c main_arg0 (by decide)) _)
    (fun _ _ => congrFun (W1_keep m c main_arg3 (by decide)) _) (W1_v0 m c) b n i

theorem W2_M (b : Fin 8) (i j : Fin 256) : W2 m c (Proc.devRef .tc main_v6_1) (ix3 b i j) = mK (argsK m c) b i j :=
  (congrFun (W2_arr m c 8) _).trans <| val0_M (V1 m) c (argsK m c) (fun _ _ _ => congrFun (W1_keep m c main_arg0 (by decide)) _)
    (fun _ _ => congrFun (W1_keep m c main_arg5 (by decide)) _) (W1_v1 m c) (fun _ _ => congrFun (W1_keep m c main_arg1 (by decide)) _) (W1_v2 m c) b i j

theorem W3_wy (b : Fin 8) (n : Fin 4096) (ch : Fin 1024) : W3 m c (Proc.devRef .tc main_v7) (ix3 b n ch) = wyK (argsK m c) b n ch :=
  (congrFun (W3_arr m c 4) _).trans <| val1 (V2 m) c (argsK m c) (W2_theta m c) (W2_M m c)
    (fun _ _ => congrFun ((W2_keep m c main_arg7 (by decide)).trans (W1_keep m c main_arg7 (by decide))) _)
    (fun ch => (congrFun (W2_keep m c main_v3 (by decide)) _).trans (W1_v3 m c ch)) b n ch

theorem W4_wy (b : Fin 8) (n : Fin 4096) (ch : Fin 1024) : W4 m c (Proc.devRef .tc main_v7) (ix3 b n ch) = wyK (argsK m c) b n ch :=
  (congrFun (W4_keep m c main_v7 (by decide)) _).trans (W3_wy m c b n ch)

theorem W4_sums (ch : Fin 1024) : W4 m c (Proc.devRef .tc main_v8_0) (ix2 (0 : Fin 1) ch) = sumK (argsK m c) ch
    ∧ W4 m c (Proc.devRef .tc main_v8_1) (ix2 (0 : Fin 1) ch) = sqK (argsK m c) ch := by
  rw [show W4 m c (Proc.devRef .tc main_v8_0) = (dat2 (V3 m) c).arrAt 1 cfg2.N from W4_arr m c 1,
    show W4 m c (Proc.devRef .tc main_v8_1) = (dat2 (V3 m) c).arrAt 2 cfg2.N from W4_arr m c 2]
  exact val2 (V3 m) c (argsK m c) (W3_wy m c) ch

-- A row divided, entry by entry, by the number of tokens.
abbrev perToken (x : Vec Ideal S1x1024 .f32) : Vec Ideal S1x1024 .f32 :=
  Host.divf (F := Ideal) x (broadcastInDim S1x1024 ![] bcast_S_S1x1024 (constant (F := Ideal) S_ .f32 0x47000000#32))

theorem W5_mean (ch : Fin 1024) : W5 m c (Proc.devRef .tc main_v10) (ix2 (0 : Fin 1) ch) = meanK (argsK m c) ch := by
  rw [show W5 m c (Proc.devRef .tc main_v10) = perToken (W4 m c (Proc.devRef .tc main_v8_0)) by dsimp only [W5, hostOps3]; after_results]
  show Ideal.div (W4 m c (Proc.devRef .tc main_v8_0) (ix2 (0 : Fin 1) ch)) _ = _
  rw [(W4_sums m c ch).1]; rfl

theorem W5_var (ch : Fin 1024) : W5 m c (Proc.devRef .tc main_v14) (ix2 (0 : Fin 1) ch) = varK (argsK m c) ch := by
  rw [show (W5 m c (Proc.devRef .tc main_v14) : S1x1024.Idx → EReal) = subf (F := Ideal) (perToken (W4 m c (Proc.devRef .tc main_v8_1)))
      (mulf (perToken (W4 m c (Proc.devRef .tc main_v8_0))) (perToken (W4 m c (Proc.devRef .tc main_v8_0)))) by
    dsimp only [W5, hostOps3]; after_results <;> rfl]
  show Ideal.div (W4 m c (Proc.devRef .tc main_v8_1) (ix2 (0 : Fin 1) ch)) _
      - Ideal.div (W4 m c (Proc.devRef .tc main_v8_0) (ix2 (0 : Fin 1) ch)) _ * Ideal.div (W4 m c (Proc.devRef .tc main_v8_0) (ix2 (0 : Fin 1) ch)) _ = _
  rw [(W4_sums m c ch).1, (W4_sums m c ch).2]; rfl

theorem result_apply (b : Fin 8) (n : Fin 4096) (ch : Fin 1024) :
    (dat3 (V5 m) c).arrAt 6 cfg3.N (ix3 b n ch) = Cert.Spec.outK (Cert.Bridge.argsK m c) b n ch :=
  val3 (V5 m) c (argsK m c) (fun b n ch => (congrFun (W5_keep m c main_v7 (by decide)) _).trans (W4_wy m c b n ch))
    (fun _ _ _ => congrFun ((W5_W1 m c main_arg0 (by decide) (by decide) (by decide) (by decide)).trans (W1_keep m c main_arg0 (by decide))) _)
    (W5_mean m c) (W5_var m c)
    (fun ch => (congrFun (W5_W1 m c main_v4 (by decide) (by decide) (by decide) (by decide)) _).trans (W1_v4 m c ch))
    (fun ch => (congrFun (W5_W1 m c main_v5 (by decide) (by decide) (by decide) (by decide)) _).trans (W1_v5 m c ch)) b n ch

end Cert.KernelIdeal.Hand

end
-- ==== Proof.Ref.Stages.lean ====
import proofs.«145685_j29137058136127_1_alg».proof.Proof.Gen.ReferenceIdeal
import Idealize.ShloMosaic.PureOps.Ideal

noncomputable section

namespace Cert.RefHand

open Cert.ReferenceIdeal Cert.ReferenceIdeal.Gen Idealize.ShloMosaic Idealize.ShloMosaic.TcCoe Idealize.SL.Sem

variable {F : FTy → Type} [FloatOps F]

def rep256 (x : FVec F S256 .f32) : FVec F S8x4096x256 .f32 :=
  broadcastInDim S8x4096x256 ![0, 1, 2] bcast_S1x1x256_S8x4096x256_0_1_2 (broadcastInDim S1x1x256 ![2] bcast_S256_S1x1x256_2 x)

def rep1024 (x : FVec F S1024 .f32) : FVec F S8x4096x1024 .f32 :=
  broadcastInDim S8x4096x1024 ![0, 1, 2] bcast_S1x1x1024_S8x4096x1024_0_1_2 (broadcastInDim S1x1x1024 ![2] bcast_S1024_S1x1x1024_2 x)

section
variable (m : (ℓ : Loc nD τ sig) → Buf (Elt F) ℓ) (c : Dev nD)

def res_v3 :=
  addf (Host.dotGeneral dot_S8x4096x1024_S256x1024_S8x4096x256_2_1_01_0_n_n none (m ((c.tc : Thread nD τ).loc main_arg0)) (m ((c.tc : Thread nD τ).loc main_arg1)))
    (rep256 (m ((c.tc : Thread nD τ).loc main_arg2)))

def res_v7 :=
  addf (Host.dotGeneral dot_S8x4096x1024_S256x1024_S8x4096x256_2_1_01_0_n_n none (m ((c.tc : Thread nD τ).loc main_arg0)) (m ((c.tc : Thread nD τ).loc main_arg3)))
    (rep256 (m ((c.tc : Thread nD τ).loc main_arg4)))

def res_v11 :=
  addf (Host.dotGeneral dot_S8x4096x1024_S256x1024_S8x4096x256_2_1_01_0_n_n none (m ((c.tc : Thread nD τ).loc main_arg0)) (m ((c.tc : Thread nD τ).loc main_arg5)))
    (rep256 (m ((c.tc : Thread nD τ).loc main_arg6)))

def res_v12 :=
  Host.dotGeneral dot_S8x4096x256_S8x4096x256_S8x4096x4096_2_2_1_1_0_0 none (res_v7 m c) (res_v11 m c)

def res_v14 :=
  Host.divf (res_v12 m c) (broadcastInDim S8x4096x4096 ![] bcast_S_S8x4096x4096 (constant S_ .f32 0x45800000#32))

def res_v15 :=
  Host.dotGeneral dot_S8x4096x4096_S8x4096x256_S8x4096x256_2_1_1_2_0_0 none (res_v14 m c) (res_v3 m c)

def res_v19 :=
  addf (Host.dotGeneral dot_S8x4096x256_S1024x256_S8x4096x1024_2_1_01_0_n_n none (res_v15 m c) (m ((c.tc : Thread nD τ).loc main_arg7)))
    (rep1024 (m ((c.tc : Thread nD τ).loc main_arg8)))

def res_v20 :=
  Host.reduceAdd (res_v19 m c) (constant S_ .f32 0x00000000#32) reducesTo_S8x4096x1024_S1024_d0_1 h_S_

def res_v22 :=
  Host.divf (res_v20 m c) (broadcastInDim S1024 ![] bcast_S_S1024 (constant S_ .f32 0x47000000#32))

def res_c3 :=
  Host.divf (broadcastInDim S1x1x1024 ![2] bcast_S1024_S1x1x1024_2 (res_v20 m c))
    (broadcastInDim S1x1x1024 ![] bcast_S_S1x1x1024 (constant S_ .f32 0x47000000#32))

def res_c5 :=
  subf (res_v19 m c) (broadcastInDim S8x4096x1024 ![0, 1, 2] bcast_S1x1x1024_S8x4096x1024_0_1_2 (res_c3 m c))

def res_c6 := mulf (res_c5 m c) (res_c5 m c)

def res_c8 :=
  subf (constant S_ .f32 0x47000000#32) (sitofp (F := F) .f32 (constantI S_ 32 0#32))

def res_c9 :=
  Host.reduceAdd (res_c6 m c) (constant S_ .f32 0x00000000#32) reducesTo_S8x4096x1024_S1024_d0_1 h_S_

def res_c11 :=
  Host.divf (res_c9 m c) (broadcastInDim S1024 ![] bcast_S_S1024 (res_c8 (F := F)))

def res_c12 := cmpf (F := F) .ogt (res_c8 (F := F)) (constant S_ .f32 0x00000000#32)

def res_v23 : FVec F S1024 .f32 :=
  select (broadcastInDim S1024 ![] bcast_S_S1024 (res_c12 (F := F))) (res_c11 m c)
    (broadcastInDim S1024 ![] bcast_S_S1024 (constant S_ .f32 0x7FC00000#32))

def res_v26 := subf (res_v19 m c) (rep1024 (res_v22 m c))

def res_v29 :=
  Host.rsqrt (addf (res_v23 m c) (broadcastInDim S1024 ![] bcast_S_S1024 (constant S_ .f32 0x3727C5AC#32)))

def res_v32 := mulf (res_v26 m c) (rep1024 (res_v29 m c))

def res_v35 := mulf (res_v32 m c) (rep1024 (m ((c.tc : Thread nD τ).loc main_arg9)))

def res_v38 := addf (res_v35 m c) (rep1024 (m ((c.tc : Thread nD τ).loc main_arg10)))

def res_v39 := addf (res_v38 m c) (m ((c.tc : Thread nD τ).loc main_arg0))

end

def res (m' : (ℓ : Loc nD τ sig) → Buf (Elt Ideal) ℓ) (c : Dev nD) : Buf (Elt Ideal) ((c.tc : Thread nD τ).loc main_v39) :=
  res_v39 (F := Ideal) m' c

end Cert.RefHand

end
-- ==== Proof.Ref.Run.lean ====
import proofs.«145685_j29137058136127_1_alg».proof.Proof.Ref.Stages
import Idealize.ShloMosaic.Lib.StableHlo.Run

noncomputable section

namespace Cert.RefHand

open Cert.ReferenceIdeal Cert.ReferenceIdeal.Gen Idealize.ShloMosaic Idealize.ShloMosaic.TcCoe Idealize.SL.Sem
open Idealize.ShloMosaic.StableHlo

variable {F : FTy → Type} [FloatOps F] {Λ : Labels} {A : List (Ref sig .tc)}

-- A program that is a list of operations, none of which writes a reference in A.
structure Line (A : List (Ref sig .tc)) (p : Prog (TpuEff nD τ sig (Elt F) Λ .tc) PUnit)
    (ops : List (HloOp τ sig (Elt F))) : Prop where
  eq : p = seq ops
  sub : ops.Forall fun op => op.bufs ⊆ tcRefs τ sig
  fresh : ∀ op ∈ ops, op.fresh = ∅
  keep : ∀ op ∈ ops, ∀ r ∈ A, Proc.devRef .tc r ∉ op.writes

theorem Line.nil : Line (F := F) (Λ := Λ) A (pure ⟨⟩) [] :=
  ⟨rfl, trivial, fun _ h => (nomatch h), fun _ h => (nomatch h)⟩

theorem Line.cons {op : HloOp τ sig (Elt F)} {y : Ref sig .tc} {p : Prog (TpuEff nD τ sig (Elt F) Λ .tc) PUnit}
    {ops : List (HloOp τ sig (Elt F))} (hs : op.bufs ⊆ tcRefs τ sig) (hf : op.fresh = ∅)
    (hw : op.writes = {Proc.devRef .tc y}) (hy : y ∉ A) (h : Line A p ops) :
    Line A ((hlo rfl op fun _ => .ret (⟨⟩ : PUnit)) >>= fun _ => p) (op :: ops) := by
  obtain ⟨rfl, h1, h2, h3⟩ := h
  refine ⟨rfl, (List.forall_cons _ _ _).2 ⟨hs, h1⟩, List.forall_mem_cons.2 ⟨hf, h2⟩, List.forall_mem_cons.2 ⟨fun r hr hm => hy ?_, h3⟩⟩
  rw [hw, Finset.mem_singleton] at hm
  exact Proc.devRef_injective _ hm ▸ hr

abbrev args : List (Ref sig .tc) :=
  [main_arg0, main_arg1, main_arg2, main_arg3, main_arg4, main_arg5, main_arg6, main_arg7, main_arg8, main_arg9, main_arg10]

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
set_option maxHeartbeats 4000000 in
theorem run [hF : Facts] (m' : (ℓ : Loc nD τ sig) → Buf (Elt Ideal) ℓ) (ρ' : Dev nD → PrngReg) :
    θ_run (defs (F := Ideal)) (onTc (τ := τ) (main (F := Ideal))) ⟨m', fun _ => 0, ρ'⟩ (fun r => ∀ c : Dev nD,
      r.2.mem ((c.tc : Thread nD τ).loc main_v39) = res m' c
      ∧ args.Forall fun b => r.2.mem ((c.tc : Thread nD τ).loc b) = m' ((c.tc : Thread nD τ).loc b)) := by
  obtain rfl : hF = facts := rfl
  have key : ∀ c, ∃ ops, Line args (main (F := Ideal) c) ops
      ∧ after ops (launchContents m' c) (Proc.devRef .tc main_v39) = res m' c := by
    intro c
    apply Exists.intro
    constructor
    · simp only [main, fn_var.body, fn_where.body, bind_assoc, pure_bind]
      repeat
        apply Line.cons (F := Ideal)
        · simp only [nullary_bufs_sub, unary_bufs_sub, binary_bufs_sub, ternary_bufs_sub]
        · rfl
        · rfl
        · decide
      exact Line.nil (F := Ideal)
    · after_results_simp
      simp only [TRef.ofBuf, TRef.toBuf, cast_eq]
      rfl
  choose ops hl hv using key
  exact (θ_run defs _ _).mono (fun r h c => ⟨(h c main_v39).trans (hv c), List.forall_iff_forall_mem.2 fun b hb =>
      (h c b).trans (after_of_forall_not_mem (ops c) _ fun op ho => (hl c).keep op ho b hb)⟩)
    (run_seq scopedRefs_eq scopedSems_eq defs main ops (fun c => (hl c).eq) (fun c => (hl c).sub) m' ρ'
      fun c => (hl c).fresh)

end Cert.RefHand

end
-- ==== Proof.Consts.lean ====
import Idealize.ShloMosaic.PureOps.Ideal
import proofs.«145685_j29137058136127_1_alg».proof.Proof.Spec

noncomputable section

namespace Cert.Consts

open Idealize.ShloMosaic

theorem w4096_eq : Cert.Spec.w4096 = ((4096 : ℝ) : EReal) := by
  simp [Cert.Spec.w4096, Ideal.ofBits, Ideal.ieee, -EReal.coe_mul]; norm_num

theorem wInv4096_eq : Cert.Spec.wInv4096 = ((1 / 4096 : ℝ) : EReal) := by
  simp [Cert.Spec.wInv4096, Ideal.ofBits, Ideal.ieee, -EReal.coe_mul]; norm_num

theorem w32768_eq : Cert.Spec.w32768 = ((32768 : ℝ) : EReal) := by
  simp [Cert.Spec.w32768, Ideal.ofBits, Ideal.ieee, -EReal.coe_mul]; norm_num

end Cert.Consts

end
-- ==== Proof.Ref.Read.lean ====
import proofs.«145685_j29137058136127_1_alg».proof.Proof.Ref.Stages
import proofs.«145685_j29137058136127_1_alg».proof.Proof.Spec
import proofs.«145685_j29137058136127_1_alg».proof.Proof.Bridge
import proofs.«145685_j29137058136127_1_alg».proof.Proof.Consts
import Idealize.ShloMosaic.Lib.ValueIdx
import Idealize.ShloMosaic.Lib.IdealHost
import Idealize.ShloMosaic.Lib.Pipeline.Value
import Idealize.ShloMosaic.PureOps.Ideal.Laws

noncomputable section

namespace Cert.RefHand

open Cert.ReferenceIdeal Cert.ReferenceIdeal.Gen Idealize.ShloMosaic Idealize.ShloMosaic.TcCoe Idealize.SL.Sem

open Idealize.ShloMosaic.ValueIdx Cert.Spec Cert.Bridge
open scoped BigOperators

section
variable (m : (ℓ : Loc nD τ sig) → Buf (Elt Ideal) ℓ) (c : Dev nD) (b : Fin 8) (n k : Fin 4096) (i j : Fin 256) (ch : Fin 1024)

def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

theorem ix3_of {n0 n1 n2 : Nat} {j : (⟨3, ![n0, n1, n2]⟩ : Shape).Idx} {a : Fin n0} {b : Fin n1} {c : Fin n2}
    (h0 : j 0 = a) (h1 : j 1 = b) (h2 : j 2 = c) : j = ix3 a b c := by
  subst h0 h1 h2; exact eq_ix3 j

theorem ix2_of {n0 n1 : Nat} {j : (⟨2, ![n0, n1]⟩ : Shape).Idx} {a : Fin n0} {b : Fin n1}
    (h0 : j 0 = a) (h1 : j 1 = b) : j = ix2 a b := by
  subst h0 h1; exact eq_ix2 j

theorem dot_apply {sl sr so : Shape} (d : DotDims sl sr so) (K : Nat) (hr : d.contr.rank = 1)
    (hs : d.contr.size ⟨0, by omega⟩ = K) (l : FVec Ideal sl .f32) (r : FVec Ideal sr .f32) (j : so.Idx)
    (L : Fin K → sl.Idx) (R : Fin K → sr.Idx)
    (hL : ∀ k, d.lhsIdx j ((contrEquiv1 d K hr hs).symm k) = L k)
    (hR : ∀ k, d.rhsIdx j ((contrEquiv1 d K hr hs).symm k) = R k) :
    Host.dotGeneral (F := Ideal) d none l r j = ∑ k : Fin K, l (L k) * r (R k) := by
  show FloatOps.dotGeneral d none .single l r j = _
  rw [Ideal.dotGeneral_apply, ← Equiv.sum_comp (contrEquiv1 d K hr hs).symm]
  exact Finset.sum_congr rfl fun k _ => by rw [hL k, hR k]

theorem dotA_apply (l : FVec Ideal S8x4096x1024 .f32) (r : FVec Ideal S256x1024 .f32) :
    Host.dotGeneral (F := Ideal) dot_S8x4096x1024_S256x1024_S8x4096x256_2_1_01_0_n_n none l r (ix3 b n i)
      = ∑ k : Fin 1024, l (ix3 b n k) * r (ix2 i k) :=
  dot_apply _ 1024 rfl rfl l r _ _ _
    (fun _ => ix3_of rfl rfl rfl)
    (fun _ => ix2_of rfl rfl)

theorem dotB_apply (l r : FVec Ideal S8x4096x256 .f32) :
    Host.dotGeneral (F := Ideal) dot_S8x4096x256_S8x4096x256_S8x4096x4096_2_2_1_1_0_0 none l r (ix3 b n k)
      = ∑ i : Fin 256, l (ix3 b n i) * r (ix3 b k i) :=
  dot_apply _ 256 rfl rfl l r _ _ _
    (fun _ => ix3_of rfl rfl rfl)
    (fun _ => ix3_of rfl rfl rfl)

theorem dotC_apply (l : FVec Ideal S8x4096x4096 .f32) (r : FVec Ideal S8x4096x256 .f32) :
    Host.dotGeneral (F := Ideal) dot_S8x4096x4096_S8x4096x256_S8x4096x256_2_1_1_2_0_0 none l r (ix3 b n j)
      = ∑ k : Fin 4096, l (ix3 b n k) * r (ix3 b k j) :=
  dot_apply _ 4096 rfl rfl l r _ _ _
    (fun _ => ix3_of rfl rfl rfl)
    (fun _ => ix3_of rfl rfl rfl)

theorem dotD_apply (l : FVec Ideal S8x4096x256 .f32) (r : FVec Ideal S1024x256 .f32) :
    Host.dotGeneral (F := Ideal) dot_S8x4096x256_S1024x256_S8x4096x1024_2_1_01_0_n_n none l r (ix3 b n ch)
      = ∑ j : Fin 256, l (ix3 b n j) * r (ix2 ch j) :=
  dot_apply _ 256 rfl rfl l r _ _ _
    (fun _ => ix3_of rfl rfl rfl)
    (fun _ => ix2_of rfl rfl)

theorem drop01 (h : S8x4096x1024.ReducesTo [0, 1] S1024) :
    h.drop (ix3 b n ch) = ix1 ch :=
  funext fun a => match a with | ⟨0, _⟩ => Fin.ext rfl

theorem reduce_apply (x : FVec Ideal S8x4096x1024 .f32) :
    Host.reduceAdd (F := Ideal) x (constant S_ .f32 0x00000000#32) reducesTo_S8x4096x1024_S1024_d0_1 h_S_ (ix1 ch)
      = ∑ b : Fin 8, ∑ n : Fin 4096, x (ix3 b n ch) := by
  show Ideal.hostReduceAdd reducesTo_S8x4096x1024_S1024_d0_1 x (Ideal.ofBits .f32 0x00000000#32) (ix1 ch) = _
  unfold Ideal.hostReduceAdd
  rw [Ideal.ofBits_zero_f32, zero_add, Finset.sum_filter, ← Equiv.sum_comp (idxEquiv3 (n0 := 8) (n1 := 4096) (n2 := 1024)).symm,
    Fintype.sum_prod_type]
  refine Finset.sum_congr rfl fun b _ => ?_
  rw [Fintype.sum_prod_type]
  refine Finset.sum_congr rfl fun n _ => ?_
  show ∑ c' : Fin 1024, (if reducesTo_S8x4096x1024_S1024_d0_1.drop (ix3 b n c') = ix1 ch then x (ix3 b n c') else 0) = _
  simp only [drop01]
  rw [Finset.sum_eq_single ch]
  · rw [if_pos rfl]
  · intro c' _ hne
    rw [if_neg]
    intro h
    exact hne (congrFun h 0)
  · intro h
    exact absurd (Finset.mem_univ _) h

theorem bcast012_apply (y : FVec Ideal S1x1x1024 .f32) :
    broadcastInDim S8x4096x1024 ![0, 1, 2] bcast_S1x1x1024_S8x4096x1024_0_1_2 y (ix3 b n ch) = y (ix3 (0 : Fin 1) (0 : Fin 1) ch) :=
  broadcastInDim_apply _ _ _ _ _ fun a => match a with | ⟨0, _⟩ => rfl | ⟨1, _⟩ => rfl | ⟨2, _⟩ => rfl

theorem row_apply (x : FVec Ideal S1024 .f32) :
    broadcastInDim S1x1x1024 ![2] bcast_S1024_S1x1x1024_2 x (ix3 (0 : Fin 1) (0 : Fin 1) ch) = x (ix1 ch) :=
  broadcastInDim_apply _ _ _ _ _ fun a => match a with | ⟨0, _⟩ => rfl

theorem rep1024_apply (x : FVec Ideal S1024 .f32) :
    rep1024 x (ix3 b n ch) = x (ix1 ch) := by
  unfold rep1024
  rw [bcast012_apply, row_apply]

theorem rep256_apply (x : FVec Ideal S256 .f32) :
    rep256 x (ix3 b n i) = x (ix1 i) := by
  unfold rep256
  rw [broadcastInDim_apply _ _ _ (ix3 b n i) (ix3 (0 : Fin 1) (0 : Fin 1) i) fun a => match a with | ⟨0, _⟩ => rfl | ⟨1, _⟩ => rfl | ⟨2, _⟩ => rfl,
    broadcastInDim_apply _ _ _ (ix3 (0 : Fin 1) (0 : Fin 1) i) (ix1 i) fun a => match a with | ⟨0, _⟩ => rfl]

theorem sitofp_zero : FloatOps.sitofp (F := Ideal) .f32 (0#32 : BitVec 32) = (0 : EReal) := by
  show (((0#32 : BitVec 32).toInt : ℝ) : EReal) = 0
  simp

theorem w32768_pos : (0 : EReal) < w32768 := by
  rw [Cert.Consts.w32768_eq]
  exact EReal.coe_pos.mpr (by norm_num)

theorem res_v3_apply :
    res_v3 m c (ix3 b n i) = gv (argsR m c) b n i := by
  unfold res_v3
  rw [addf_apply, dotA_apply, rep256_apply]
  rfl

theorem res_v7_apply :
    res_v7 m c (ix3 b n i) = tv (argsR m c) b n i := by
  unfold res_v7
  rw [addf_apply, dotA_apply, rep256_apply]
  rfl

theorem res_v11_apply :
    res_v11 m c (ix3 b n i) = pv (argsR m c) b n i := by
  unfold res_v11
  rw [addf_apply, dotA_apply, rep256_apply]
  rfl

theorem res_v14_apply :
    res_v14 m c (ix3 b n k) = rR (argsR m c) b n k := by
  unfold res_v14 res_v12
  rw [hostDivf_apply, dotB_apply, broadcastInDim_scalar_apply, constant_apply]
  simp only [res_v7_apply, res_v11_apply]
  rfl

theorem res_v15_apply :
    res_v15 m c (ix3 b n j) = yR (argsR m c) b n j := by
  unfold res_v15
  rw [dotC_apply]
  simp only [res_v14_apply, res_v3_apply]
  rfl

theorem res_v19_apply :
    res_v19 m c (ix3 b n ch) = wyR (argsR m c) b n ch := by
  unfold res_v19
  rw [addf_apply, dotD_apply, rep1024_apply]
  simp only [res_v15_apply]
  rfl

theorem res_v20_apply :
    res_v20 m c (ix1 ch) = ∑ b : Fin 8, ∑ n : Fin 4096, wyR (argsR m c) b n ch := by
  unfold res_v20
  rw [reduce_apply]
  simp only [res_v19_apply]

theorem res_v22_apply : res_v22 m c (ix1 ch) = meanR (argsR m c) ch := by
  unfold res_v22
  rw [hostDivf_apply, res_v20_apply, broadcastInDim_scalar_apply, constant_apply]
  rfl

theorem res_c3_apply : res_c3 m c (ix3 (0 : Fin 1) (0 : Fin 1) ch) = meanR (argsR m c) ch := by
  unfold res_c3
  rw [hostDivf_apply, row_apply, res_v20_apply, broadcastInDim_scalar_apply, constant_apply]
  rfl

theorem res_c5_apply :
    res_c5 m c (ix3 b n ch) = wyR (argsR m c) b n ch - meanR (argsR m c) ch := by
  unfold res_c5
  rw [subf_apply, res_v19_apply, bcast012_apply, res_c3_apply]

theorem res_c6_apply :
    res_c6 m c (ix3 b n ch) = (wyR (argsR m c) b n ch - meanR (argsR m c) ch) * (wyR (argsR m c) b n ch - meanR (argsR m c) ch) := by
  unfold res_c6
  rw [mulf_apply, res_c5_apply]

theorem res_c8_apply : res_c8 (F := Ideal) ix0 = w32768 := by
  show Ideal.ofBits .f32 0x47000000#32 - FloatOps.sitofp (F := Ideal) .f32 (0#32 : BitVec 32) = _
  rw [sitofp_zero, sub_zero]

theorem res_c9_apply :
    res_c9 m c (ix1 ch) = ∑ b : Fin 8, ∑ n : Fin 4096,
      (wyR (argsR m c) b n ch - meanR (argsR m c) ch) * (wyR (argsR m c) b n ch - meanR (argsR m c) ch) := by
  unfold res_c9
  rw [reduce_apply]
  simp only [res_c6_apply]

theorem res_c11_apply : res_c11 m c (ix1 ch) = varR (argsR m c) ch := by
  unfold res_c11
  rw [hostDivf_apply, res_c9_apply, broadcastInDim_scalar_apply, res_c8_apply]
  rfl

theorem res_c12_apply : res_c12 (F := Ideal) ix0 = 1#1 := by
  unfold res_c12
  rw [cmpf_apply, res_c8_apply, constant_apply]
  show BitVec.ofBool (decide (Ideal.ofBits .f32 0x00000000#32 < Ideal.ofBits .f32 0x47000000#32)) = 1#1
  rw [Ideal.ofBits_zero_f32, decide_eq_true w32768_pos]
  rfl

theorem res_v23_apply : res_v23 m c (ix1 ch) = varR (argsR m c) ch := by
  unfold res_v23
  rw [select_apply, broadcastInDim_scalar_apply, res_c12_apply, select_one, res_c11_apply]

theorem res_v26_apply :
    res_v26 m c (ix3 b n ch) = wyR (argsR m c) b n ch - meanR (argsR m c) ch := by
  unfold res_v26
  rw [subf_apply, res_v19_apply, rep1024_apply, res_v22_apply]

theorem res_v29_apply :
    res_v29 m c (ix1 ch) = Ideal.rsqrt (varR (argsR m c) ch + wEps) := by
  show Ideal.rsqrt (addf (res_v23 m c) (broadcastInDim S1024 ![] bcast_S_S1024 (constant S_ .f32 0x3727C5AC#32)) (ix1 ch)) = _
  rw [addf_apply, res_v23_apply, broadcastInDim_scalar_apply, constant_apply]

end

theorem res_apply (m' : (ℓ : Loc nD τ sig) → Buf (Elt Ideal) ℓ) (c : Dev nD) (b : Fin 8) (n : Fin 4096) (ch : Fin 1024) :
    res m' c (ix3 b n ch) = outR (argsR m' c) b n ch := by
  show res_v39 (F := Ideal) m' c (ix3 b n ch) = _
  unfold res_v39 res_v38 res_v35 res_v32
  rw [addf_apply, addf_apply, mulf_apply, mulf_apply, res_v26_apply, rep1024_apply, rep1024_apply, rep1024_apply, res_v29_apply]
  rfl

end Cert.RefHand

end
-- ==== Proof.Algebra.lean ====
import proofs.«145685_j29137058136127_1_alg».proof.Proof.Spec
import proofs.«145685_j29137058136127_1_alg».proof.Proof.Consts
import Mathlib.Data.EReal.Operations
import Mathlib.Data.Fintype.BigOperators
import Mathlib.Algebra.BigOperators.Ring.Finset
import Mathlib.Algebra.BigOperators.Group.Finset.Sigma
import Mathlib.Tactic.Ring
import Mathlib.Tactic.LinearCombination
import Mathlib.Tactic.NormNum

noncomputable section

namespace Cert.Algebra

open Idealize.ShloMosaic Cert.Spec

theorem coe_sum {ι : Type*} (s : Finset ι) (f : ι → ℝ) :
    ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

def tileEquiv : Fin 4 × Fin 1024 ≃ Fin 4096 where
  toFun p := tileRow p.1 p.2
  invFun m := (⟨m.val / 1024, by omega⟩, ⟨m.val % 1024, by omega⟩)
  left_inv p := by ext <;> simp only [tileRow] <;> omega
  right_inv m := by ext; simp only [tileRow]; omega

theorem sum_tile {M : Type*} [AddCommMonoid M] (f : Fin 4096 → M) :
    ∑ nt : Fin 4, ∑ r : Fin 1024, f (tileRow nt r) = ∑ m : Fin 4096, f m := by
  rw [← Fintype.sum_prod_type' (fun nt r => f (tileRow nt r))]
  exact tileEquiv.sum_comp f

def gridEquiv : Fin 32 ≃ Fin 8 × Fin 4 where
  toFun t := (ptB t, ptN t)
  invFun p := ⟨p.1.val * 4 + p.2.val, by omega⟩
  left_inv t := by ext; simp only [ptB, ptN]; omega
  right_inv p := by ext <;> simp only [ptB, ptN] <;> omega

theorem sum_grid {M : Type*} [AddCommMonoid M] (f : Fin 8 → Fin 4096 → M) :
    ∑ t : Fin 32, ∑ r : Fin 1024, f (ptB t) (tileRow (ptN t) r) = ∑ b : Fin 8, ∑ n : Fin 4096, f b n := by
  have h1 : ∑ t : Fin 32, ∑ r : Fin 1024, f (ptB t) (tileRow (ptN t) r)
      = ∑ p : Fin 8 × Fin 4, ∑ r : Fin 1024, f p.1 (tileRow p.2 r) :=
    gridEquiv.sum_comp (fun p : Fin 8 × Fin 4 => ∑ r : Fin 1024, f p.1 (tileRow p.2 r))
  rw [h1, Fintype.sum_prod_type]
  exact Finset.sum_congr rfl fun b _ => sum_tile (f b)

theorem assoc_sum {ι κ : Type*} [Fintype ι] [Fintype κ] (t : ι → ℝ) (p : κ → ι → ℝ) (g' : κ → ℝ) (c : ℝ) :
    ∑ i, t i * ((∑ m, p m i * g' m) * c) = ∑ m, ((∑ i, t i * p m i) * c) * g' m := by
  simp only [Finset.sum_mul, Finset.mul_sum]
  rw [Finset.sum_comm]
  refine Finset.sum_congr rfl fun m _ => Finset.sum_congr rfl fun i _ => ?_
  ring

theorem variance_identity {ι : Type*} [Fintype ι] (x : ι → ℝ) (c : ℝ) (hc : (Fintype.card ι : ℝ) * c = 1) :
    (∑ i, x i * x i) * c - ((∑ i, x i) * c) * ((∑ i, x i) * c)
      = (∑ i, (x i - (∑ i, x i) * c) * (x i - (∑ i, x i) * c)) * c := by
  have h1 : ∀ μ : ℝ, ∑ i, (x i - μ) * (x i - μ)
      = (∑ i, x i * x i) - 2 * μ * (∑ i, x i) + (Fintype.card ι : ℝ) * (μ * μ) := by
    intro μ
    have h2 : ∀ i, (x i - μ) * (x i - μ) = x i * x i - 2 * μ * x i + μ * μ := fun i => by ring
    simp only [h2, Finset.sum_add_distrib, Finset.sum_sub_distrib, ← Finset.mul_sum, Finset.sum_const,
      Finset.card_univ, nsmul_eq_mul]
    ring
  rw [h1]
  linear_combination (-((∑ i, x i) * c * ((∑ i, x i) * c))) * hc

theorem div_w32768 (x : EReal) : Ideal.div x w32768 = x * ((1 / 32768 : ℝ) : EReal) := by
  rw [Cert.Consts.w32768_eq, Ideal.div_coe (by norm_num)]

theorem div_w4096 (x : EReal) : Ideal.div x w4096 = x * ((1 / 4096 : ℝ) : EReal) := by
  rw [Cert.Consts.w4096_eq, Ideal.div_coe (by norm_num)]

section
variable {a : Args} (h : a.IsReal)
include h

-- Real tokens projected by a real matrix with a real bias are real.
theorem proj_real {w : Fin 256 → Fin 1024 → EReal} {bias : Fin 256 → EReal} (hw : ∀ i c, ∃ x : ℝ, w i c = (x : EReal))
    (hb : ∀ i, ∃ x : ℝ, bias i = (x : EReal)) :
    ∃ f : Fin 8 → Fin 4096 → Fin 256 → ℝ, ∀ b n i, proj a w bias b n i = (f b n i : EReal) := by
  choose V hV using h.v
  choose W hW using hw
  choose B hB using hb
  exact ⟨fun b n i => (∑ c, V b n c * W i c) + B i, fun b n i => by
    simp only [proj, hV, hW, hB, EReal.coe_add, EReal.coe_mul, coe_sum]⟩

-- Over the reals θ · ((φᵀ · g) · 2⁻¹²) = ((θ · φᵀ) / 4096) · g, the four tiles gathered into all tokens.
theorem yK_eq (b : Fin 8) (n : Fin 4096) (j : Fin 256) : yK a b n j = yR a b n j := by
  obtain ⟨G, hG⟩ := proj_real h h.gw h.gb
  obtain ⟨T, hT⟩ := proj_real h h.tw h.tb
  obtain ⟨P, hP⟩ := proj_real h h.pw h.pb
  simp only [yK, mK, mTile, yR, rR, tv, pv, gv, hT, hP, hG, Cert.Consts.wInv4096_eq, div_w4096, ← EReal.coe_mul, ← coe_sum]
  exact congrArg _ ((Finset.sum_congr rfl fun i _ =>
    congrArg (fun s => T b n i * (s * (1 / 4096))) (sum_tile fun m => P b m i * G b m j)).trans
      (assoc_sum (fun i => T b n i) (fun m i => P b m i) (fun m => G b m j) (1 / 4096)))

theorem wyK_eq (b : Fin 8) (n : Fin 4096) (c : Fin 1024) : wyK a b n c = wyR a b n c := by
  simp only [wyK, wyR, yK_eq h]

theorem sumK_eq (c : Fin 1024) : sumK a c = ∑ b : Fin 8, ∑ n : Fin 4096, wyR a b n c := by
  simp only [sumK, wyK_eq h]
  exact sum_grid fun b n => wyR a b n c

theorem sqK_eq (c : Fin 1024) : sqK a c = ∑ b : Fin 8, ∑ n : Fin 4096, wyR a b n c * wyR a b n c := by
  simp only [sqK, wyK_eq h]
  exact sum_grid fun b n => wyR a b n c * wyR a b n c

theorem wyR_real : ∃ f : Fin 8 → Fin 4096 → Fin 1024 → ℝ, ∀ b n c, wyR a b n c = (f b n c : EReal) := by
  obtain ⟨G, hG⟩ := proj_real h h.gw h.gb
  obtain ⟨T, hT⟩ := proj_real h h.tw h.tb
  obtain ⟨P, hP⟩ := proj_real h h.pw h.pb
  choose W hW using h.ww
  choose B hB using h.wb
  exact ⟨fun b n c => (∑ j, (∑ m, ((∑ i, T b n i * P b m i) * (1 / 4096)) * G b m j) * W c j) + B c, fun b n c => by
    simp only [wyR, yR, rR, tv, pv, gv, hT, hP, hG, hW, hB, div_w4096, EReal.coe_add, EReal.coe_mul, coe_sum]⟩

-- The mean of the squares minus the square of the mean is the mean of the centred squares.
theorem varK_eq (c : Fin 1024) : varK a c = varR a c := by
  obtain ⟨X, hX⟩ := wyR_real h
  have e := variance_identity (fun p : Fin 8 × Fin 4096 => X p.1 p.2 c) (1 / 32768)
    (by simp only [Fintype.card_prod, Fintype.card_fin]; norm_num)
  simp only [Fintype.sum_prod_type] at e
  simp only [varK, varR, meanK, meanR, sumK_eq h, sqK_eq h, hX, div_w32768, ← EReal.coe_mul, ← coe_sum, ← EReal.coe_sub]
  exact congrArg _ e

end

theorem out_eq (a : Args) (h : a.IsReal) (b : Fin 8) (n : Fin 4096) (c : Fin 1024) : outK a b n c = outR a b n c := by
  simp only [outK, outR, meanK, meanR, wyK_eq h, sumK_eq h, varK_eq h]

end Cert.Algebra

end
-- ==== Proof.Finite.lean ====
import proofs.«145685_j29137058136127_1_alg».proof.Proof.Bridge
import Idealize.ShloMosaic.Lib.ReduceAll
import Idealize.ShloMosaic.Lib.IdealHost
import Idealize.ShloMosaic.Lib.ValueIdx

noncomputable section

namespace Cert.Finite

open Idealize.ShloMosaic Idealize.ShloMosaic.ValueIdx Idealize.SL.Sem

-- At ⊥ and at ⊤ the absolute value max x (−x) is ⊤, which is not below ⊤.
theorem real_of_abs_lt (x : EReal) (h : Ideal.cmp .olt (max x (-x)) (Ideal.ofBits .f32 0x7F800000#32) = 1#1) :
    ∃ r : ℝ, x = (r : EReal) := by
  have hw : Ideal.ofBits .f32 0x7F800000#32 = (⊤ : EReal) := by simp [Ideal.ofBits, Ideal.ieee]
  rw [hw] at h
  induction x using EReal.rec with
  | bot => simp [Ideal.cmp] at h
  | coe r => exact ⟨r, rfl⟩
  | top => simp [Ideal.cmp] at h

-- If the conjunction over all entries of |x| < +∞ holds, every entry is a real number.
theorem real_of_all {s : Shape} {axes : List (Fin s.rank)} (x : FVec Ideal s .f32)
    (hb : (⟨0, ![]⟩ : Shape).BroadcastsInDim s ![]) (hr : s.ReducesTo axes ⟨0, ![]⟩) (hu : 0 < (⟨0, ![]⟩ : Shape).numel)
    (e : Host.reduce IntOp.andi
        (cmpf .olt (Host.absf x) (broadcastInDim s ![] hb (constant (F := Ideal) ⟨0, ![]⟩ .f32 0x7F800000#32)))
        (constantI ⟨0, ![]⟩ 1 1#1) hr hu ix0 = 1#1) (i : s.Idx) : ∃ r : ℝ, x i = (r : EReal) := by
  have h := Host.reduce_andi_all _ _ hr hu ix0 e i
  rw [cmpf_apply, broadcastInDim_scalar_apply, constant_apply] at h
  exact real_of_abs_lt (x i) h

theorem argsK_real [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) : (Cert.Bridge.argsK m c).IsReal := by
  have h0 := congrFun (h c) ix0
  dsimp only [Cert.Pre_finite_inputs.fn, Cert.Pre_finite_inputs.fn_part1, Cert.Pre_finite_inputs.fn_part2,
    Cert.Pre_finite_inputs.fn_part3, andi] at h0
  simp only [IntOp.andi_eq_one] at h0
  obtain ⟨⟨⟨⟨⟨⟨⟨⟨⟨⟨e0, e1⟩, e2⟩, e3⟩, e4⟩, e5⟩, e6⟩, e7⟩, e8⟩, e9⟩, e10⟩ := h0
  exact ⟨fun _ _ _ => real_of_all _ _ _ _ e0 _, fun _ _ => real_of_all _ _ _ _ e1 _, fun _ => real_of_all _ _ _ _ e2 _,
    fun _ _ => real_of_all _ _ _ _ e3 _, fun _ => real_of_all _ _ _ _ e4 _, fun _ _ => real_of_all _ _ _ _ e5 _,
    fun _ => real_of_all _ _ _ _ e6 _, fun _ _ => real_of_all _ _ _ _ e7 _, fun _ => real_of_all _ _ _ _ e8 _,
    fun _ => real_of_all _ _ _ _ e9 _, fun _ => real_of_all _ _ _ _ e10 _⟩

end Cert.Finite

end
-- ==== Proof.lean ====
import proofs.«145685_j29137058136127_1_alg».proof.Defs
import proofs.«145685_j29137058136127_1_alg».proof.Proof.Gen.Kernel
import proofs.«145685_j29137058136127_1_alg».proof.Proof.Gen.KernelIdeal
import proofs.«145685_j29137058136127_1_alg».proof.Proof.Gen.ReferenceIdeal
import proofs.«145685_j29137058136127_1_alg».proof.Proof.Gen.Pre_finite_inputs
import proofs.«145685_j29137058136127_1_alg».proof.Proof.K.Run
import proofs.«145685_j29137058136127_1_alg».proof.Proof.KI.Run
import proofs.«145685_j29137058136127_1_alg».proof.Proof.KI.Value
import proofs.«145685_j29137058136127_1_alg».proof.Proof.Ref.Run
import proofs.«145685_j29137058136127_1_alg».proof.Proof.Ref.Read
import proofs.«145685_j29137058136127_1_alg».proof.Proof.Algebra
import proofs.«145685_j29137058136127_1_alg».proof.Proof.Finite
import Idealize.ShloMosaic.Adequacy
import Idealize.ShloMosaic.Init

noncomputable section

namespace Cert.Proof

open Idealize.ShloMosaic Idealize.ShloMosaic.ValueIdx Idealize.SL.Sem

theorem frame_k : Cert.frame_Kernel := fun m ρ _ =>
  (θ_run Cert.Kernel.defs _ _).mono (fun _ h c => (h c).2) (Cert.Kernel.Hand.run_value m ρ)

theorem frame_ki : Cert.frame_KernelIdeal := fun m ρ _ =>
  (θ_run Cert.KernelIdeal.defs _ _).mono (fun _ h c => (h c).2) (Cert.KernelIdeal.Hand.run_value m ρ)

theorem frame_r : Cert.frame_ReferenceIdeal := fun m ρ _ =>
  (θ_run Cert.ReferenceIdeal.defs _ _).mono (fun _ h c => (h c).2) (Cert.RefHand.run m ρ)

-- Entry by entry: the reference's value and the kernel's value are the two sides of one identity over the reals, at inputs that agree.
theorem algebraic : Cert.algebraic_KernelIdeal_ReferenceIdeal := by
  intro m ρ m' ρ' hpre hagree
  refine ⟨fun c => (Cert.KernelIdeal.Hand.dat3 (Cert.KernelIdeal.Hand.V5 m) c).arrAt 6 Cert.KernelIdeal.cfg3.N,
    Cert.KernelIdeal.Hand.run_value m ρ, ?_⟩
  refine (θ_run Cert.ReferenceIdeal.defs _ _).mono (fun _ h c => ⟨(h c).1.trans ?_, (h c).2⟩) (Cert.RefHand.run m' ρ')
  funext i
  obtain ⟨b, n, ch, rfl⟩ : ∃ (b : Fin 8) (n : Fin 4096) (ch : Fin 1024), i = ix3 b n ch := ⟨i 0, i 1, i 2, eq_ix3 i⟩
  have hargs : Cert.Bridge.argsR m' c = Cert.Bridge.argsK m c := by
    unfold Cert.Bridge.argsR Cert.Bridge.argsK
    rw [(hagree c).1, (hagree c).2.1, (hagree c).2.2.1, (hagree c).2.2.2.1, (hagree c).2.2.2.2.1, (hagree c).2.2.2.2.2.1,
      (hagree c).2.2.2.2.2.2.1, (hagree c).2.2.2.2.2.2.2.1, (hagree c).2.2.2.2.2.2.2.2.1, (hagree c).2.2.2.2.2.2.2.2.2.1, (hagree c).2.2.2.2.2.2.2.2.2.2]
  refine (Cert.RefHand.res_apply m' c b n ch).trans ?_
  rw [hargs]
  refine Eq.trans ?_ (Cert.KernelIdeal.Hand.result_apply m c b n ch).symm
  exact (Cert.Algebra.out_eq _ (Cert.Finite.argsK_real m hpre c) b n ch).symm

theorem claim : Cert.Claim :=
  ⟨Cert.Kernel.Gen.facts, Cert.KernelIdeal.Gen.facts, Cert.ReferenceIdeal.Gen.facts, Cert.Pre_finite_inputs.Gen.facts,
    frame_k, frame_ki, frame_r, trivial, algebraic⟩

end Cert.Proof

end
